-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v164)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v164) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S4 : Shape := ⟨1, ![4]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S4 : S_.BroadcastsInDim S4 (![] : Fin 0 → Fin S4.rank)
  reducesTo_S4_S_d0 : S4.ReducesTo [0] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg9 : FVec F S3x128 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  main_v38

def fn_part1 {F : FTy → Type} [FloatOps F] (main_arg6 : FVec F S4x128 .f32) (main_arg7 : FVec F S4 .f32) (main_arg8 : FVec F S3x128 .f32) (main_arg9 : FVec F S3x128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4 .f32 := Host.absf main_arg7
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : IVec S50000 32) (main_arg3 : FVec F S4x128x128 .f32) (main_arg4 : FVec F S4x128 .f32) (main_arg5 : FVec F S4x128x128 .f32) (main_arg6 : FVec F S4x128 .f32) (main_arg7 : FVec F S4 .f32) (main_arg8 : FVec F S3x128 .f32) (main_arg9 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg3
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S4 : Shape := ⟨1, ![4]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S50000x1 : Shape := ⟨2, ![50000, 1]⟩
abbrev S10000x1 : Shape := ⟨2, ![10000, 1]⟩

abbrev nBuf : Space → Nat
  | .hbm => 205
  | .vmem => 70
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4, .f32⟩
  | 8 => ⟨S3x128, .f32⟩
  | 9 => ⟨S3x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1, .f32⟩
  | 28 => ⟨S_, .f32⟩
  | 29 => ⟨S_, .f32⟩
  | 30 => ⟨S_, .f32⟩
  | 31 => ⟨S50000x128, .f32⟩
  | 32 => ⟨S50000x128, .f32⟩
  | 33 => ⟨S50000x128, .f32⟩
  | 34 => ⟨S1x128x128, .f32⟩
  | 35 => ⟨S128x128, .f32⟩
  | 36 => ⟨S1x128, .f32⟩
  | 37 => ⟨S128, .f32⟩
  | 38 => ⟨S1x128x128, .f32⟩
  | 39 => ⟨S128x128, .f32⟩
  | 40 => ⟨S1x128, .f32⟩
  | 41 => ⟨S128, .f32⟩
  | 42 => ⟨S1x128, .f32⟩
  | 43 => ⟨S1x128, .f32⟩
  | 44 => ⟨S50000x128, .f32⟩
  | 45 => ⟨S1x128, .f32⟩
  | 46 => ⟨S1x128, .f32⟩
  | 47 => ⟨S128, .f32⟩
  | 48 => ⟨S_, .f32⟩
  | 49 => ⟨S128, .f32⟩
  | 50 => ⟨S128, .f32⟩
  | 51 => ⟨S128, .f32⟩
  | 52 => ⟨S_, .f32⟩
  | 53 => ⟨S128, .f32⟩
  | 54 => ⟨S128, .f32⟩
  | 55 => ⟨S128, .f32⟩
  | 56 => ⟨S128, .f32⟩
  | 57 => ⟨S1x128, .f32⟩
  | 58 => ⟨S128, .f32⟩
  | 59 => ⟨S1x128, .f32⟩
  | 60 => ⟨S128, .f32⟩
  | 61 => ⟨S1x128, .f32⟩
  | 62 => ⟨S1x128, .f32⟩
  | 63 => ⟨S1x128, .f32⟩
  | 64 => ⟨S1x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1, .f32⟩
  | 80 => ⟨S_, .f32⟩
  | 81 => ⟨S_, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S1x128, .f32⟩
  | 96 => ⟨S50000x128, .f32⟩
  | 97 => ⟨S1x128, .f32⟩
  | 98 => ⟨S1x128, .f32⟩
  | 99 => ⟨S128, .f32⟩
  | 100 => ⟨S_, .f32⟩
  | 101 => ⟨S128, .f32⟩
  | 102 => ⟨S128, .f32⟩
  | 103 => ⟨S128, .f32⟩
  | 104 => ⟨S_, .f32⟩
  | 105 => ⟨S128, .f32⟩
  | 106 => ⟨S128, .f32⟩
  | 107 => ⟨S128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S1x128, .f32⟩
  | 115 => ⟨S1x128, .f32⟩
  | 116 => ⟨S1x128, .f32⟩
  | 117 => ⟨S50000x128, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S1, .f32⟩
  | 4 => ⟨S_, .f32⟩
  | 5 => ⟨S_, .f32⟩
  | 6 => ⟨S_, .f32⟩
  | 7 => ⟨S50000x128, .f32⟩
  | 8 => ⟨S50000x128, .f32⟩
  | 9 => ⟨S50000x128, .f32⟩
  | 10 => ⟨S1x128x128, .f32⟩
  | 11 => ⟨S128x128, .f32⟩
  | 12 => ⟨S1x128, .f32⟩
  | 13 => ⟨S128, .f32⟩
  | 14 => ⟨S1x128x128, .f32⟩
  | 15 => ⟨S128x128, .f32⟩
  | 16 => ⟨S1x128, .f32⟩
  | 17 => ⟨S128, .f32⟩
  | 18 => ⟨S1x128, .f32⟩
  | 19 => ⟨S1x128, .f32⟩
  | 20 => ⟨S50000x128, .f32⟩
  | 21 => ⟨S1x128, .f32⟩
  | 22 => ⟨S1x128, .f32⟩
  | 23 => ⟨S128, .f32⟩
  | 24 => ⟨S_, .f32⟩
  | 25 => ⟨S128, .f32⟩
  | 26 => ⟨S128, .f32⟩
  | 27 => ⟨S128, .f32⟩
  | 28 => ⟨S_, .f32⟩
  | 29 => ⟨S128, .f32⟩
  | 30 => ⟨S128, .f32⟩
  | 31 => ⟨S128, .f32⟩
  | 32 => ⟨S128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S1x128, .f32⟩
  | 39 => ⟨S1x128, .f32⟩
  | 40 => ⟨S1x128, .f32⟩
  | 41 => ⟨S50000x128, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S1, .f32⟩
  | 56 => ⟨S_, .f32⟩
  | 57 => ⟨S_, .f32⟩
  | 58 => ⟨S_, .f32⟩
  | 59 => ⟨S50000x128, .f32⟩
  | 60 => ⟨S50000x128, .f32⟩
  | 61 => ⟨S50000x128, .f32⟩
  | 62 => ⟨S1x128x128, .f32⟩
  | 63 => ⟨S128x128, .f32⟩
  | 64 => ⟨S1x128, .f32⟩
  | 65 => ⟨S128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S1x128, .f32⟩
  | 72 => ⟨S50000x128, .f32⟩
  | 73 => ⟨S1x128, .f32⟩
  | 74 => ⟨S1x128, .f32⟩
  | 75 => ⟨S50000x1, .i32⟩
  | 76 => ⟨S128x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S128x128, .f32⟩
  | .local _ .vmem, ⟨21, _⟩ => ⟨S1x128, .f32⟩
  | .local _ .vmem, ⟨22, _⟩ => ⟨S128x128, .f32⟩
  | .local _ .vmem, ⟨23, _⟩ => ⟨S1x128, .f32⟩
  | .local _ .vmem, ⟨24, _⟩ => ⟨S10000x128, .f32⟩
  | .local _ .vmem, ⟨25, _⟩ => ⟨S10000x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S128x128, .f32⟩
  | .local _ .vmem, ⟨39, _⟩ => ⟨S1x128, .f32⟩
  | .local _ .vmem, ⟨40, _⟩ => ⟨S128x128, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S1x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S1x128, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S128x128, .f32⟩
  | .local _ .vmem, ⟨57, _⟩ => ⟨S1x128, .f32⟩
  | .local _ .vmem, ⟨58, _⟩ => ⟨S128x128, .f32⟩
  | .local _ .vmem, ⟨59, _⟩ => ⟨S1x128, .f32⟩
  | .local _ .vmem, ⟨60, _⟩ => ⟨S10000x128, .f32⟩
  | .local _ .vmem, ⟨61, _⟩ => ⟨S10000x128, .f32⟩
  | .local _ .vmem, ⟨62, _⟩ => ⟨S1x128, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S10000x1, .i32⟩
  | .local _ .vmem, ⟨67, _⟩ => ⟨S10000x1, .i32⟩
  | .local _ .vmem, ⟨68, _⟩ => ⟨S128x128, .f32⟩
  | .local _ .vmem, ⟨69, _⟩ => ⟨S128x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v31 : Ref sig .tc := ⟨.hbm, 47, rfl⟩
abbrev main_cst_2 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_c_4 : Ref sig .tc := ⟨.hbm, 66, rfl⟩
abbrev main_v48 : Ref sig .tc := ⟨.hbm, 67, rfl⟩
abbrev main_v49 : Ref sig .tc := ⟨.hbm, 68, rfl⟩
abbrev main_c_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_6 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74_0 : Ref sig .tc := ⟨.hbm, 96, rfl⟩
abbrev main_v74_1 : Ref sig .tc := ⟨.hbm, 97, rfl⟩
abbrev main_v74_2 : Ref sig .tc := ⟨.hbm, 98, rfl⟩
abbrev main_v75 : Ref sig .tc := ⟨.hbm, 99, rfl⟩
abbrev main_cst_8 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_9 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_c_10 : Ref sig .tc := ⟨.hbm, 118, rfl⟩
abbrev main_v92 : Ref sig .tc := ⟨.hbm, 119, rfl⟩
abbrev main_v93 : Ref sig .tc := ⟨.hbm, 120, rfl⟩
abbrev main_c_11 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_cst_12 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_13 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118_0 : Ref sig .tc := ⟨.hbm, 148, rfl⟩
abbrev main_v118_1 : Ref sig .tc := ⟨.hbm, 149, rfl⟩
abbrev main_v118_2 : Ref sig .tc := ⟨.hbm, 150, rfl⟩
abbrev main_v119 : Ref sig .tc := ⟨.hbm, 151, rfl⟩
abbrev main_cst_14 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_15 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_c_16 : Ref sig .tc := ⟨.hbm, 170, rfl⟩
abbrev main_v136 : Ref sig .tc := ⟨.hbm, 171, rfl⟩
abbrev main_v137 : Ref sig .tc := ⟨.hbm, 172, rfl⟩
abbrev main_c_17 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_cst_18 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_19 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_v161 : Ref sig .tc := ⟨.hbm, 199, rfl⟩
abbrev main_v162_0 : Ref sig .tc := ⟨.hbm, 200, rfl⟩
abbrev main_v162_1 : Ref sig .tc := ⟨.hbm, 201, rfl⟩
abbrev main_v162_2 : Ref sig .tc := ⟨.hbm, 202, rfl⟩
abbrev main_v163 : Ref sig .tc := ⟨.hbm, 203, rfl⟩
abbrev main_v164 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg4_0 : Ref sig .tc := ⟨.vmem, 59, rfl⟩
abbrev cc6_stg5_0 : Ref sig .tc := ⟨.vmem, 60, rfl⟩
abbrev cc6_stg5_1 : Ref sig .tc := ⟨.vmem, 61, rfl⟩
abbrev cc6_stg6_0 : Ref sig .tc := ⟨.vmem, 62, rfl⟩
abbrev cc6_stg7_0 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_scratch0 : Ref sig .tc := ⟨.vmem, 69, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem5_1 : DmaSem sig := 61
abbrev cc6_sem6_0 : DmaSem sig := 62
abbrev cc6_sem7_0 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S10000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![5], ![false]⟩

def k7_cond2 (i : grid7.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_8 : BitVec 32 := 0#32
  let v20 : BitVec 1 := Scalar.cmpi .ne v19 c0_i32_8
  v20

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S10000x128 : S1x128.Broadcasts S10000x128
  reduces_S10000x128_S128 : S10000x128.Reduces [0] S128
  bcast_S_S128 : S_.BroadcastsInDim S128 (![] : Fin 0 → Fin S128.rank)
  slices_S3x128_S1x128_0_0 : S3x128.Slices ![0, 0] S1x128
  slices_S4_S1_1 : S4.Slices ![1] S1
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  shapeCasts_S50000_S50000x1 : S50000.ShapeCasts S50000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S10000x128_S128x128_0_0_1_1_n_n_wf : DotDims.WF S10000x128 S10000x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S50000x128.size a
  hwx0_5 : ∀ i : grid0.Coords, EltTy.bits .f32 = 32 ∨ (Rect.block (s := S50000x128) S10000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S50000x128.size a
  hwx1_5 : ∀ i : grid1.Coords, EltTy.bits .f32 = 32 ∨ (Rect.block (s := S50000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S50000x128.size a
  hwx2_5 : ∀ i : grid2.Coords, EltTy.bits .f32 = 32 ∨ (Rect.block (s := S50000x128) S10000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S50000x128.size a
  hwx3_5 : ∀ i : grid3.Coords, EltTy.bits .f32 = 32 ∨ (Rect.block (s := S50000x128) S10000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S50000x128.size a
  hwx4_5 : ∀ i : grid4.Coords, EltTy.bits .f32 = 32 ∨ (Rect.block (s := S50000x128) S10000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S10000x128.size a ≤ S50000x128.size a
  hwx5_5 : ∀ i : grid5.Coords, EltTy.bits .f32 = 32 ∨ (Rect.block (s := S50000x128) S10000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S50000x128.size a
  hwx6_5 : ∀ i : grid6.Coords, EltTy.bits .f32 = 32 ∨ (Rect.block (s := S50000x128) S10000x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S50000x1.size a
  hwx7_1 : ∀ i : grid7.Coords, EltTy.bits .i32 = 32 ∨ (Rect.block (s := S50000x1) S10000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S10000x128_S128x128_0_0_1_1_n_n : DotDims S10000x128 S10000x128 S128x128 where
  lhsContracting := [0]
  rhsContracting := [0]
  lhsNonContracting := [1]
  rhsNonContracting := [1]
  lhsBatch := []
  rhsBatch := []
  wf := dot_S10000x128_S10000x128_S128x128_0_0_1_1_n_n_wf

abbrev win0_0 : Pipeline.Window sig grid0 :=
  Pipeline.Window.ofSpec (Memref.whole main_v19) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30_0) S10000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v30_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v30_0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v63) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v72) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74_0) S10000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v74_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v74_0) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v88) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v89) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v90) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v91) S10000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v107) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v116) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v113) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v117) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v118_0) S10000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v118_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v118_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v118_0) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v131) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v132) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v133) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v134) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v135) S10000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v151) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v153) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v160) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v157) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v161) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v162_0) S10000x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v162_1) S1x128.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v162_2) S1x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v162_0) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v163) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v164) S128x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S4x128x128 : Shape := ⟨3, ![4, 128, 128]⟩
abbrev S4x128 : Shape := ⟨2, ![4, 128]⟩
abbrev S4 : Shape := ⟨1, ![4]⟩
abbrev S3x128 : Shape := ⟨2, ![3, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S50000x1 : Shape := ⟨2, ![50000, 1]⟩

abbrev nBuf : Space → Nat
  | .hbm => 327
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S4x128x128, .f32⟩
  | 4 => ⟨S4x128, .f32⟩
  | 5 => ⟨S4x128x128, .f32⟩
  | 6 => ⟨S4x128, .f32⟩
  | 7 => ⟨S4, .f32⟩
  | 8 => ⟨S3x128, .f32⟩
  | 9 => ⟨S3x128, .f32⟩
  | 10 => ⟨S1x800000, .i32⟩
  | 11 => ⟨S800000, .i32⟩
  | 12 => ⟨S1x800000, .i32⟩
  | 13 => ⟨S800000, .i32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x128, .f32⟩
  | 23 => ⟨S_, .f32⟩
  | 24 => ⟨S50000x128, .f32⟩
  | 25 => ⟨S800000x1, .i32⟩
  | 26 => ⟨S50000x128, .f32⟩
  | 27 => ⟨S1, .f32⟩
  | 28 => ⟨S_, .f32⟩
  | 29 => ⟨S_, .f32⟩
  | 30 => ⟨S_, .f32⟩
  | 31 => ⟨S50000x128, .f32⟩
  | 32 => ⟨S50000x128, .f32⟩
  | 33 => ⟨S50000x128, .f32⟩
  | 34 => ⟨S1x128x128, .f32⟩
  | 35 => ⟨S128x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S1x128, .f32⟩
  | 49 => ⟨S128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S1x128, .f32⟩
  | 97 => ⟨S128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S_, .f32⟩
  | 114 => ⟨S50000x128, .f32⟩
  | 115 => ⟨S800000x1, .i32⟩
  | 116 => ⟨S50000x128, .f32⟩
  | 117 => ⟨S1, .f32⟩
  | 118 => ⟨S_, .f32⟩
  | 119 => ⟨S_, .f32⟩
  | 120 => ⟨S_, .f32⟩
  | 121 => ⟨S50000x128, .f32⟩
  | 122 => ⟨S50000x128, .f32⟩
  | 123 => ⟨S50000x128, .f32⟩
  | 124 => ⟨S1x128x128, .f32⟩
  | 125 => ⟨S128x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S50000x128, .f32⟩
  | 3 => ⟨S50000x128, .f32⟩
  | 4 => ⟨S_, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S_, .f32⟩
  | 18 => ⟨S128, .f32⟩
  | 19 => ⟨S128, .f32⟩
  | 20 => ⟨S_, .i32⟩
  | 21 => ⟨S_, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S50000x128, .f32⟩
  | 28 => ⟨S50000x128, .f32⟩
  | 29 => ⟨S50000x128, .f32⟩
  | 30 => ⟨S_, .f32⟩
  | 31 => ⟨S_, .f32⟩
  | 32 => ⟨S_, .f32⟩
  | 33 => ⟨S_, .f32⟩
  | 34 => ⟨S128, .f32⟩
  | 35 => ⟨S128, .f32⟩
  | 36 => ⟨S128, .f32⟩
  | 37 => ⟨S_, .f32⟩
  | 38 => ⟨S_, .i1⟩
  | 39 => ⟨S_, .f32⟩
  | 40 => ⟨S_, .f32⟩
  | 41 => ⟨S128, .f32⟩
  | 42 => ⟨S128, .f32⟩
  | 43 => ⟨S1x128, .f32⟩
  | 44 => ⟨S50000x128, .f32⟩
  | 45 => ⟨S50000x128, .f32⟩
  | 46 => ⟨S_, .f32⟩
  | 47 => ⟨S128, .f32⟩
  | 48 => ⟨S128, .f32⟩
  | 49 => ⟨S128, .f32⟩
  | 50 => ⟨S1x128, .f32⟩
  | 51 => ⟨S50000x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x128, .f32⟩
  | 75 => ⟨S_, .f32⟩
  | 76 => ⟨S50000x128, .f32⟩
  | 77 => ⟨S800000x1, .i32⟩
  | 78 => ⟨S50000x128, .f32⟩
  | 79 => ⟨S1, .f32⟩
  | 80 => ⟨S_, .f32⟩
  | 81 => ⟨S_, .f32⟩
  | 82 => ⟨S_, .f32⟩
  | 83 => ⟨S50000x128, .f32⟩
  | 84 => ⟨S50000x128, .f32⟩
  | 85 => ⟨S50000x128, .f32⟩
  | 86 => ⟨S1x128x128, .f32⟩
  | 87 => ⟨S128x128, .f32⟩
  | 88 => ⟨S50000x128, .f32⟩
  | 89 => ⟨S1x128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S1x128, .f32⟩
  | 101 => ⟨S128, .f32⟩
  | 102 => ⟨S1x128, .f32⟩
  | 103 => ⟨S50000x128, .f32⟩
  | 104 => ⟨S50000x128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S50000x128, .f32⟩
  | 118 => ⟨S50000x128, .f32⟩
  | 119 => ⟨S50000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S50000x128, .f32⟩

abbrev hbmTy0_2 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S128, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S50000x128, .f32⟩
  | 19 => ⟨S50000x128, .f32⟩
  | 20 => ⟨S1x128, .f32⟩
  | 21 => ⟨S128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S1, .f32⟩
  | 42 => ⟨S_, .f32⟩
  | 43 => ⟨S_, .f32⟩
  | 44 => ⟨S_, .f32⟩
  | 45 => ⟨S50000x128, .f32⟩
  | 46 => ⟨S50000x128, .f32⟩
  | 47 => ⟨S50000x128, .f32⟩
  | 48 => ⟨S1x128x128, .f32⟩
  | 49 => ⟨S128x128, .f32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S1x128x128, .f32⟩
  | 60 => ⟨S128x128, .f32⟩
  | 61 => ⟨S50000x128, .f32⟩
  | 62 => ⟨S1x128, .f32⟩
  | 63 => ⟨S128, .f32⟩
  | 64 => ⟨S1x128, .f32⟩
  | 65 => ⟨S50000x128, .f32⟩
  | 66 => ⟨S50000x128, .f32⟩
  | 67 => ⟨S_, .f32⟩
  | 68 => ⟨S128x128, .f32⟩
  | 69 => ⟨S50000x1, .i32⟩
  | 70 => ⟨S128x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_3 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_c_5 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_cst_3 : Ref sig .tc := ⟨.hbm, 75, rfl⟩
abbrev main_call0_v12 : Ref sig .tc := ⟨.hbm, 76, rfl⟩
abbrev main_call0_cst_4 : Ref sig .tc := ⟨.hbm, 77, rfl⟩
abbrev main_call0_call0_v0 : Ref sig .tc := ⟨.hbm, 78, rfl⟩
abbrev main_call0_call0_v1 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_6 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_cst_7 : Ref sig .tc := ⟨.hbm, 101, rfl⟩
abbrev main_v61 : Ref sig .tc := ⟨.hbm, 102, rfl⟩
abbrev main_v62 : Ref sig .tc := ⟨.hbm, 103, rfl⟩
abbrev main_c_8 : Ref sig .tc := ⟨.hbm, 104, rfl⟩
abbrev main_v63 : Ref sig .tc := ⟨.hbm, 105, rfl⟩
abbrev main_v64 : Ref sig .tc := ⟨.hbm, 106, rfl⟩
abbrev main_c_9 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_10 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_11 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_12 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_13 : Ref sig .tc := ⟨.hbm, 143, rfl⟩
abbrev main_v97 : Ref sig .tc := ⟨.hbm, 144, rfl⟩
abbrev main_cst_14 : Ref sig .tc := ⟨.hbm, 145, rfl⟩
abbrev main_v98 : Ref sig .tc := ⟨.hbm, 146, rfl⟩
abbrev main_v99 : Ref sig .tc := ⟨.hbm, 147, rfl⟩
abbrev main_c_15 : Ref sig .tc := ⟨.hbm, 148, rfl⟩
abbrev main_call1_cst : Ref sig .tc := ⟨.hbm, 149, rfl⟩
abbrev main_call1_v0 : Ref sig .tc := ⟨.hbm, 150, rfl⟩
abbrev main_call1_v1 : Ref sig .tc := ⟨.hbm, 151, rfl⟩
abbrev main_call1_cst_0 : Ref sig .tc := ⟨.hbm, 152, rfl⟩
abbrev main_call1_v2 : Ref sig .tc := ⟨.hbm, 153, rfl⟩
abbrev main_call1_v3 : Ref sig .tc := ⟨.hbm, 154, rfl⟩
abbrev main_call1_v4 : Ref sig .tc := ⟨.hbm, 155, rfl⟩
abbrev main_call1_v5 : Ref sig .tc := ⟨.hbm, 156, rfl⟩
abbrev main_call1_v6 : Ref sig .tc := ⟨.hbm, 157, rfl⟩
abbrev main_call1_v7 : Ref sig .tc := ⟨.hbm, 158, rfl⟩
abbrev main_call1_cst_1 : Ref sig .tc := ⟨.hbm, 159, rfl⟩
abbrev main_call1_v8 : Ref sig .tc := ⟨.hbm, 160, rfl⟩
abbrev main_call1_cst_2 : Ref sig .tc := ⟨.hbm, 161, rfl⟩
abbrev main_call1_v9 : Ref sig .tc := ⟨.hbm, 162, rfl⟩
abbrev main_call1_v10 : Ref sig .tc := ⟨.hbm, 163, rfl⟩
abbrev main_call1_v11 : Ref sig .tc := ⟨.hbm, 164, rfl⟩
abbrev main_call1_cst_3 : Ref sig .tc := ⟨.hbm, 165, rfl⟩
abbrev main_call1_v12 : Ref sig .tc := ⟨.hbm, 166, rfl⟩
abbrev main_call1_cst_4 : Ref sig .tc := ⟨.hbm, 167, rfl⟩
abbrev main_call1_call0_v0 : Ref sig .tc := ⟨.hbm, 168, rfl⟩
abbrev main_call1_call0_v1 : Ref sig .tc := ⟨.hbm, 169, rfl⟩
abbrev main_v100 : Ref sig .tc := ⟨.hbm, 170, rfl⟩
abbrev main_v101 : Ref sig .tc := ⟨.hbm, 171, rfl⟩
abbrev main_v102 : Ref sig .tc := ⟨.hbm, 172, rfl⟩
abbrev main_v103 : Ref sig .tc := ⟨.hbm, 173, rfl⟩
abbrev main_cst_16 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_cst_17 : Ref sig .tc := ⟨.hbm, 191, rfl⟩
abbrev main_v120 : Ref sig .tc := ⟨.hbm, 192, rfl⟩
abbrev main_v121 : Ref sig .tc := ⟨.hbm, 193, rfl⟩
abbrev main_c_18 : Ref sig .tc := ⟨.hbm, 194, rfl⟩
abbrev main_v122 : Ref sig .tc := ⟨.hbm, 195, rfl⟩
abbrev main_v123 : Ref sig .tc := ⟨.hbm, 196, rfl⟩
abbrev main_c_19 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_cst_20 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_v132 : Ref sig .tc := ⟨.hbm, 207, rfl⟩
abbrev main_v133 : Ref sig .tc := ⟨.hbm, 208, rfl⟩
abbrev main_cst_21 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_cst_22 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_v149 : Ref sig .tc := ⟨.hbm, 226, rfl⟩
abbrev main_v150 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_cst_23 : Ref sig .tc := ⟨.hbm, 233, rfl⟩
abbrev main_v156 : Ref sig .tc := ⟨.hbm, 234, rfl⟩
abbrev main_cst_24 : Ref sig .tc := ⟨.hbm, 235, rfl⟩
abbrev main_v157 : Ref sig .tc := ⟨.hbm, 236, rfl⟩
abbrev main_v158 : Ref sig .tc := ⟨.hbm, 237, rfl⟩
abbrev main_c_25 : Ref sig .tc := ⟨.hbm, 238, rfl⟩
abbrev main_call2_cst : Ref sig .tc := ⟨.hbm, 239, rfl⟩
abbrev main_call2_v0 : Ref sig .tc := ⟨.hbm, 240, rfl⟩
abbrev main_call2_v1 : Ref sig .tc := ⟨.hbm, 241, rfl⟩
abbrev main_call2_cst_0 : Ref sig .tc := ⟨.hbm, 242, rfl⟩
abbrev main_call2_v2 : Ref sig .tc := ⟨.hbm, 243, rfl⟩
abbrev main_call2_v3 : Ref sig .tc := ⟨.hbm, 244, rfl⟩
abbrev main_call2_v4 : Ref sig .tc := ⟨.hbm, 245, rfl⟩
abbrev main_call2_v5 : Ref sig .tc := ⟨.hbm, 246, rfl⟩
abbrev main_call2_v6 : Ref sig .tc := ⟨.hbm, 247, rfl⟩
abbrev main_call2_v7 : Ref sig .tc := ⟨.hbm, 248, rfl⟩
abbrev main_call2_cst_1 : Ref sig .tc := ⟨.hbm, 249, rfl⟩
abbrev main_call2_v8 : Ref sig .tc := ⟨.hbm, 250, rfl⟩
abbrev main_call2_cst_2 : Ref sig .tc := ⟨.hbm, 251, rfl⟩
abbrev main_call2_v9 : Ref sig .tc := ⟨.hbm, 252, rfl⟩
abbrev main_call2_v10 : Ref sig .tc := ⟨.hbm, 253, rfl⟩
abbrev main_call2_v11 : Ref sig .tc := ⟨.hbm, 254, rfl⟩
abbrev main_call2_cst_3 : Ref sig .tc := ⟨.hbm, 255, rfl⟩
abbrev main_call2_v12 : Ref sig .tc := ⟨.hbm, 256, rfl⟩
abbrev main_call2_cst_4 : Ref sig .tc := ⟨.hbm, 257, rfl⟩
abbrev main_call2_call0_v0 : Ref sig .tc := ⟨.hbm, 258, rfl⟩
abbrev main_call2_call0_v1 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_26 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_v171 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_27 : Ref sig .tc := ⟨.hbm, 281, rfl⟩
abbrev main_v179 : Ref sig .tc := ⟨.hbm, 282, rfl⟩
abbrev main_v180 : Ref sig .tc := ⟨.hbm, 283, rfl⟩
abbrev main_c_28 : Ref sig .tc := ⟨.hbm, 284, rfl⟩
abbrev main_v181 : Ref sig .tc := ⟨.hbm, 285, rfl⟩
abbrev main_v182 : Ref sig .tc := ⟨.hbm, 286, rfl⟩
abbrev main_c_29 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_cst_30 : Ref sig .tc := ⟨.hbm, 293, rfl⟩
abbrev main_v188 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_cst_31 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_v200 : Ref sig .tc := ⟨.hbm, 307, rfl⟩
abbrev main_v201 : Ref sig .tc := ⟨.hbm, 308, rfl⟩
abbrev main_v202 : Ref sig .tc := ⟨.hbm, 309, rfl⟩
abbrev main_v203 : Ref sig .tc := ⟨.hbm, 310, rfl⟩
abbrev main_v204 : Ref sig .tc := ⟨.hbm, 311, rfl⟩
abbrev main_cst_32 : Ref sig .tc := ⟨.hbm, 312, rfl⟩
abbrev main_v205 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_cst_33 : Ref sig .tc := ⟨.hbm, 323, rfl⟩
abbrev main_v215 : Ref sig .tc := ⟨.hbm, 324, rfl⟩
abbrev main_v216 : Ref sig .tc := ⟨.hbm, 325, rfl⟩
abbrev main_v217 : Ref sig .tc := ⟨.hbm, 326, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_0_0 : S3x128.Slices ![0, 0] S1x128
  slices_S4_S1_1 : S4.Slices ![1] S1
  slices_S4x128x128_S1x128x128_1_0_0 : S4x128x128.Slices ![1, 0, 0] S1x128x128
  slices_S4x128_S1x128_1_0 : S4x128.Slices ![1, 0] S1x128
  slices_S3x128_S1x128_1_0 : S3x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S3x128_S1x128_2_0 : S3x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S128x128 : S_.BroadcastsInDim S128x128 (![] : Fin 0 → Fin S128x128.rank)
  bcast_S50000_S50000x1_0 : S50000.BroadcastsInDim S50000x1 (![0] : Fin 1 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S128x128_S50000x1_S50000x128_1_0_0_1_wf : ScatterDims.WF S128x128 S50000x1 S50000x128 [1] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf

class Facts : Prop extends Facts₀ where

variable [Facts]
-- ==== Proof.K.RegM.lean ====
import proofs.«430114_j32719060861414_1_alg».proof.Proof.Gen.Kernel.Launch
import proofs.«430114_j32719060861414_1_alg».proof.Proof.Gen.Kernel.Skeleton
import proofs.«430114_j32719060861414_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body's one condition: the tile's index is zero
abbrev mlpCond (i : grid0.Coords) : Prop :=
  (Scalar.cmpi .ne (Scalar.extui (Scalar.cmpi .eq (BitVec.ofNat 32 (i 0).val) 0#32)) 0#32) = 1#1

theorem mlpCond_iff : ∀ t : Fin grid0.N, mlpCond (grid0.coords t) ↔ t.val = 0 := by decide +kernel

theorem mlp_hz : (![0, 0] : Fin 2 → Nat) = fun _ => 0 := funext fun a => by fin_cases a <;> rfl

-- reading back a list of writes whose newest piece covers the whole shape gives that piece's payload
theorem mlp_read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h inb]

set_option maxHeartbeats 2000000 in
-- the body's triple under a frame Φ ∗ O, each buffer's contents given up to an equation; its two branches differ only in the rows u, v
theorem mlp_tile {k : _} (hk : k = @cc0__mlp_stats_kernel F _) {c : Dev nD} {E : Set ℕ} {i : grid0.Coords}
    {arg1 : Memref sig .tc .vmem S10000x128 .f32} {harg1 : arg1.IsWhole} {arg2 : Memref sig .tc .vmem S128x128 .f32} {harg2 : arg2.IsWhole}
    {arg3 : Memref sig .tc .vmem S1x128 .f32} {harg3 : arg3.IsWhole} {arg4 : Memref sig .tc .vmem S128x128 .f32} {harg4 : arg4.IsWhole}
    {arg5 : Memref sig .tc .vmem S1x128 .f32} {harg5 : arg5.IsWhole} {arg6 : Memref sig .tc .vmem S10000x128 .f32} {harg6 : arg6.IsWhole}
    {arg7 : Memref sig .tc .vmem S1x128 .f32} {harg7 : arg7.IsWhole} {arg8 : Memref sig .tc .vmem S1x128 .f32} {harg8 : arg8.IsWhole}
    (x0 : Vec F S10000x128 .f32) (x1 : Vec F S128x128 .f32) (x2 : Vec F S1x128 .f32) (x3 : Vec F S128x128 .f32) (x4 : Vec F S1x128 .f32)
    (u v : Vec F S1x128 .f32)
    {B0 B5 : Vec F S10000x128 .f32 → Vec F S10000x128 .f32} {B1 B3 : Vec F S128x128 .f32 → Vec F S128x128 .f32}
    {B2 B4 B6 B7 : Vec F S1x128 .f32 → Vec F S1x128 .f32}
    (h0 : ∀ d, B0 d = x0) (h1 : ∀ d, B1 d = x1) (h2 : ∀ d, B2 d = x2) (h3 : ∀ d, B3 d = x3) (h4 : ∀ d, B4 d = x4)
    (h : mlpCond i ∧ u = k0_pay2 ∧ v = k0_pay3 ∨ ¬mlpCond i ∧ (∀ d, B6 d = u) ∧ ∀ d, B7 d = v) {Φ O : sProp 𝕄} :
    iprop(Φ ∗ O ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d))
        ∗ (∃ d, owns (c : Thread nD τ) arg7 fullShare (B6 d)) ∗ (∃ d, owns (c : Thread nD τ) arg8 fullShare (B7 d)))
      ⊢ wp frame (wpE (defs₀ (F := F)) Variants.none c none) E (k i arg1 harg1 arg2 harg2 arg3 harg3 arg4 harg4 arg5 harg5 arg6 harg6 arg7 harg7 arg8 harg8) fun _ =>
        iprop(Φ ∗ O ∗ owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ owns (c : Thread nD τ) arg6 fullShare (k0_pay4 x0 x1 x2 x3 x4)
          ∗ owns (c : Thread nD τ) arg7 fullShare (k0_pay5 x0 x1 x2 x3 x4 u)
          ∗ owns (c : Thread nD τ) arg8 fullShare (k0_pay1 (k0_pay6 v) (k0_pay7 x0 x1 x2 x3 x4))) := by
  subst hk
  simp only [h0, h1, h2, h3, h4, cc0__mlp_stats_kernel_eq_skeleton]; unfold cc0__mlp_stats_kernel_skel
  simp only [k0_part1_eq_skeleton]
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩, ⟨%d6, %f7, %hf7, H7⟩, ⟨%d7, %f8, %hf8, H8⟩⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  obtain ⟨hc, rfl, rfl⟩ | ⟨hc, h6, h7⟩ := h
  on_goal 2 => obtain rfl := h6 d6; obtain rfl := h7 d7
  all_goals
    sl_exec (disch := first | exact hc)
    sl_step
    iframe HΦ Ho
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      sl_unfold_words
      rw [mlp_read_writes_whole _ _ mlp_hz]
      simp only [View.readAt_eq_ld, View.readCov_unit_zero (S := S1x128) _ mlp_hz, harg1.read_unread, harg2.read_unread, harg3.read_unread,
        harg4.read_unread, harg5.read_unread, harg7.read_unread, harg8.read_unread, View.ld_unit_zero (S := S10000x128) mlp_hz, View.ld_unit_zero (S := S128x128) mlp_hz,
        View.ld_unit_zero (S := S1x128) mlp_hz]
    isplitl [H7]
    · iexists _; isplitr
      swap; · iexact H7
      ipureintro
      sl_unfold_words
      rw [mlp_read_writes_whole _ _ mlp_hz]
      simp only [View.readAt_eq_ld, View.readCov_unit_zero (S := S1x128) _ mlp_hz, harg1.read_unread, harg2.read_unread, harg3.read_unread,
        harg4.read_unread, harg5.read_unread, harg7.read_unread, harg8.read_unread, View.ld_unit_zero (S := S10000x128) mlp_hz, View.ld_unit_zero (S := S128x128) mlp_hz,
        View.ld_unit_zero (S := S1x128) mlp_hz]
    iexists _; isplitr
    swap; · iexact H8
    ipureintro
    sl_unfold_words
    rw [mlp_read_writes_whole _ _ mlp_hz]
    simp only [View.readAt_eq_ld, View.readCov_unit_zero (S := S1x128) _ mlp_hz, harg1.read_unread, harg2.read_unread, harg3.read_unread,
      harg4.read_unread, harg5.read_unread, harg7.read_unread, harg8.read_unread, View.ld_unit_zero (S := S10000x128) mlp_hz, View.ld_unit_zero (S := S128x128) mlp_hz,
      View.ld_unit_zero (S := S1x128) mlp_hz]

theorem mlp_acc {cfg : Cfg sig Λ₀} {c : Dev nD} (dat : Dat τ (Elt F) Unit ℕ (UR sig nD τ) ℕ cfg c) (w : Fin cfg.W)
    (hw : (cfg.win w).isOut = true) (hN : cfg.N = 5) (hfl : ∀ t : Fin cfg.N, (cfg.win w).flush t = true ↔ t.val % 5 = 4)
    (hlive : ∀ i, cfg.idle w i = false) (hclip : ∀ (i : cfg.grid.Coords) a, (cfg.win w).clip i a = none)
    (n : ℕ) (hn : n + 1 < cfg.N) (d) : dat.before w ⟨n + 1, hn⟩ d = dat.after w ⟨n, Nat.lt_of_succ_lt hn⟩ :=
  dat.before_out_kept w hw ⟨n + 1, hn⟩ n.succ_ne_zero
    (Bool.eq_false_iff.mpr fun h => by have := (hfl _).mp h; dsimp only at this; omega) hlive hclip d

end Cert.Kernel.Hand

end
-- ==== Proof.K.RegM0.lean ====
import proofs.«430114_j32719060861414_1_alg».proof.Proof.K.RegM

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S10000x128 .f32 := iblk0 V c 0 t
abbrev w1b0 (c : Dev nD) (t : Fin cfg0.N) : Vec F S128x128 .f32 := iblk0 V c 1 t
abbrev b1b0 (c : Dev nD) (t : Fin cfg0.N) : Vec F S1x128 .f32 := iblk0 V c 2 t
abbrev w2b0 (c : Dev nD) (t : Fin cfg0.N) : Vec F S128x128 .f32 := iblk0 V c 3 t
abbrev b2b0 (c : Dev nD) (t : Fin cfg0.N) : Vec F S1x128 .f32 := iblk0 V c 4 t

def z0 (c : Dev nD) (t : Fin cfg0.N) : Vec F S10000x128 .f32 :=
  k0_pay4 (xb0 V c t) (w1b0 V c t) (b1b0 V c t) (w2b0 V c t) (b2b0 V c t)

def sum0 (c : Dev nD) : (n : ℕ) → n < cfg0.N → Vec F S1x128 .f32
  | 0, hn => k0_pay5 (xb0 V c ⟨0, hn⟩) (w1b0 V c ⟨0, hn⟩) (b1b0 V c ⟨0, hn⟩) (w2b0 V c ⟨0, hn⟩) (b2b0 V c ⟨0, hn⟩) (k0_pay2 (F := F))
  | n + 1, hn => k0_pay5 (xb0 V c ⟨n + 1, hn⟩) (w1b0 V c ⟨n + 1, hn⟩) (b1b0 V c ⟨n + 1, hn⟩) (w2b0 V c ⟨n + 1, hn⟩) (b2b0 V c ⟨n + 1, hn⟩)
      (sum0 c n (Nat.lt_of_succ_lt hn))

def sumsq0 (c : Dev nD) : (n : ℕ) → n < cfg0.N → Vec F S1x128 .f32
  | 0, hn => k0_pay1 (k0_pay6 (k0_pay3 (F := F)))
      (k0_pay7 (xb0 V c ⟨0, hn⟩) (w1b0 V c ⟨0, hn⟩) (b1b0 V c ⟨0, hn⟩) (w2b0 V c ⟨0, hn⟩) (b2b0 V c ⟨0, hn⟩))
  | n + 1, hn => k0_pay1 (k0_pay6 (sumsq0 c n (Nat.lt_of_succ_lt hn)))
      (k0_pay7 (xb0 V c ⟨n + 1, hn⟩) (w1b0 V c ⟨n + 1, hn⟩) (b1b0 V c ⟨n + 1, hn⟩) (w2b0 V c ⟨n + 1, hn⟩) (b2b0 V c ⟨n + 1, hn⟩))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => z0 V c t
    | ⟨6, _⟩ => sum0 V c t.val t.isLt
    | ⟨7, _⟩ => sumsq0 V c t.val t.isLt
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem hin0 (c : Dev nD) : Pipeline.ΦA spec0 c ⊢ (dat0 V c).Φ 0 := .rfl
theorem hout0 (c : Dev nD) : (dat0 V c).Φ (Fin.last cfg0.N) ⊢ Pipeline.ΦA spec0 c := .rfl
theorem after0_5 (c : Dev nD) (t : Fin cfg0.N) : (dat0 V c).after 5 t = z0 V c t := rfl
theorem after0_6 (c : Dev nD) (t : Fin cfg0.N) : (dat0 V c).after 6 t = sum0 V c t.val t.isLt := rfl
theorem after0_7 (c : Dev nD) (t : Fin cfg0.N) : (dat0 V c).after 7 t = sumsq0 V c t.val t.isLt := rfl

set_option maxHeartbeats 1600000 in
theorem body_obligation0 (c : Dev nD) : BodyObligation (dat0 (F := F) V c) (defs₀ (F := F)) Variants.none () Set.univ := fun t => by
  rw [bigSep_W0, bigSep_W0]
  show _ ⊢ wp _ _ _ (bodyAt0 t) _
  obtain ⟨_ | n, hn⟩ := t
  · refine mlp_tile (k := cc0__mlp_stats_kernel) rfl _ _ _ _ _ k0_pay2 k0_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc0__mlp_stats_kernel) rfl _ _ _ _ _ _ _ ?_ ?_ ?_ ?_ ?_ (.inr ⟨fun h => n.succ_ne_zero ((mlpCond_iff ⟨n + 1, hn⟩).1 h),
        mlp_acc _ 6 rfl N_0 flush0_6 (fun _ => rfl) (fun _ _ => rfl) n hn,
        mlp_acc _ 7 rfl N_0 flush0_7 (fun _ => rfl) (fun _ _ => rfl) n hn⟩) <;>
      (intro d; apply Dat.before_in_eq_fetched <;> intros <;> rfl)

end Cert.Kernel.Hand

end
-- ==== Proof.K.RegB.lean ====
import proofs.«430114_j32719060861414_1_alg».proof.Proof.Gen.Kernel.Launch
import proofs.«430114_j32719060861414_1_alg».proof.Proof.Gen.Kernel.Skeleton
import proofs.«430114_j32719060861414_1_alg».proof.Proof.Gen.Kernel.Points
import Idealize.ShloMosaic.Lib.Pipeline.FrameBody
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev regB_rz : Rect S10000x128 := Rect.unit (s := S10000x128) ![0, 0] S10000x128.size inb_S10000x128_S10000x128_0_0
noncomputable abbrev regB_rv : Rect S1x128 := Rect.unit (s := S1x128) ![0, 0] S1x128.size inb_S1x128_S1x128_0_0

-- a single write over the whole index set decides every later read
set_option maxHeartbeats 1000000 in
theorem regB_sound (c : Dev nD) (E : Set ℕ) (i : grid1.Coords) {a1 a6 : Memref sig .tc .vmem S10000x128 .f32}
    {a2 a3 a4 a5 : Memref sig .tc .vmem S1x128 .f32} (h1 : a1.IsWhole) (h2 : a2.IsWhole) (h3 : a3.IsWhole) (h4 : a4.IsWhole)
    (h5 : a5.IsWhole) (h6 : a6.IsWhole) (xz : Vec F S10000x128 .f32) (xm xv xg xb : Vec F S1x128 .f32) (out : Vec F S10000x128 .f32)
    (hout : out = View.canon [⟨regB_rz, k1_pay1 (View.ld xz regB_rz) (View.ld xv regB_rv) (View.ld xm regB_rv) (View.ld xg regB_rv) (View.ld xb regB_rv)⟩])
    (K : PUnit → sProp 𝕄) :
    iprop(owns (c : Thread nD τ) a1 fullShare xz ∗ owns (c : Thread nD τ) a2 fullShare xm ∗ owns (c : Thread nD τ) a3 fullShare xv
        ∗ owns (c : Thread nD τ) a4 fullShare xg ∗ owns (c : Thread nD τ) a5 fullShare xb ∗ (∃ d, owns (c : Thread nD τ) a6 fullShare d)
        ∗ (iprop(owns (c : Thread nD τ) a1 fullShare xz ∗ owns (c : Thread nD τ) a2 fullShare xm ∗ owns (c : Thread nD τ) a3 fullShare xv
            ∗ owns (c : Thread nD τ) a4 fullShare xg ∗ owns (c : Thread nD τ) a5 fullShare xb
            ∗ owns (c : Thread nD τ) a6 fullShare out) -∗ K ⟨⟩))
      ⊢ wp frame (wpE (defs₀ (F := F)) Variants.none c none) E (cc1__bn_relu_kernel i a1 h1 a2 h2 a3 h3 a4 h4 a5 h5 a6 h6) K := by
  subst hout
  simp only [cc1__bn_relu_kernel_eq_skeleton]; unfold cc1__bn_relu_kernel_skel owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x128.size (by rfl))

end Cert.Kernel.Hand

end
-- ==== Proof.K.RegB1.lean ====
import proofs.«430114_j32719060861414_1_alg».proof.Proof.K.RegB

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev rz1 : Rect S10000x128 := Rect.unit (s := S10000x128) ![0, 0] S10000x128.size inb_S10000x128_S10000x128_0_0
noncomputable abbrev rv1 : Rect S1x128 := Rect.unit (s := S1x128) ![0, 0] S1x128.size inb_S1x128_S1x128_0_0

def out1_5 (xz : Vec F S10000x128 .f32) (xm xv xg xb : Vec F S1x128 .f32) : Vec F S10000x128 .f32 :=
  View.canon [⟨rz1, k1_pay1 (View.ld xz rz1) (View.ld xv rv1) (View.ld xm rv1) (View.ld xg rv1) (View.ld xb rv1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t) : (dat1 V c).owed t = 0 := rfl
theorem recorded_eq1 (c : Dev nD) (t) : (dat1 V c).recorded t = Set.univ := rfl
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

-- every input is met at its own block of the entry contents, at every grid point
theorem before1 (c : Dev nD) : ∀ w : Fin cfg1.W, w ≠ 5 → ∀ t d, (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl)
  | ⟨5, _⟩, h => absurd rfl h

theorem body_obligation1 (c : Dev nD) : BodyObligation (dat1 (F := F) V c) (defs₀ (F := F)) Variants.none () Set.univ := fun t => by
  rw [bigSep_W1, bigSep_W1]
  simp +decide only [before1 V c]
  rw [show (dat1 V c).Φ t.succ = (dat1 V c).Φ t.castSucc from rfl, show (dat1 V c).owesAt () t.succ = (dat1 V c).owesAt () t.castSucc from rfl]
  refine .trans ?_ (regB_sound c Set.univ (grid1.coords t) (hstage1_0 _) (hstage1_1 _) (hstage1_2 _) (hstage1_3 _) (hstage1_4 _) (hstage1_5 _)
    ((dat1 V c).after 0 t) ((dat1 V c).after 1 t) ((dat1 V c).after 2 t) ((dat1 V c).after 3 t) ((dat1 V c).after 4 t) _ (after1_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.Kernel.Hand

end
-- ==== Proof.K.RegM2.lean ====
import proofs.«430114_j32719060861414_1_alg».proof.Proof.K.RegM

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S10000x128 .f32 := iblk2 V c 0 t
abbrev w1b2 (c : Dev nD) (t : Fin cfg2.N) : Vec F S128x128 .f32 := iblk2 V c 1 t
abbrev b1b2 (c : Dev nD) (t : Fin cfg2.N) : Vec F S1x128 .f32 := iblk2 V c 2 t
abbrev w2b2 (c : Dev nD) (t : Fin cfg2.N) : Vec F S128x128 .f32 := iblk2 V c 3 t
abbrev b2b2 (c : Dev nD) (t : Fin cfg2.N) : Vec F S1x128 .f32 := iblk2 V c 4 t

def z2 (c : Dev nD) (t : Fin cfg2.N) : Vec F S10000x128 .f32 :=
  k2_pay4 (xb2 V c t) (w1b2 V c t) (b1b2 V c t) (w2b2 V c t) (b2b2 V c t)

def sum2 (c : Dev nD) : (n : ℕ) → n < cfg2.N → Vec F S1x128 .f32
  | 0, hn => k2_pay5 (xb2 V c ⟨0, hn⟩) (w1b2 V c ⟨0, hn⟩) (b1b2 V c ⟨0, hn⟩) (w2b2 V c ⟨0, hn⟩) (b2b2 V c ⟨0, hn⟩) (k2_pay2 (F := F))
  | n + 1, hn => k2_pay5 (xb2 V c ⟨n + 1, hn⟩) (w1b2 V c ⟨n + 1, hn⟩) (b1b2 V c ⟨n + 1, hn⟩) (w2b2 V c ⟨n + 1, hn⟩) (b2b2 V c ⟨n + 1, hn⟩)
      (sum2 c n (Nat.lt_of_succ_lt hn))

def sumsq2 (c : Dev nD) : (n : ℕ) → n < cfg2.N → Vec F S1x128 .f32
  | 0, hn => k2_pay1 (k2_pay6 (k2_pay3 (F := F)))
      (k2_pay7 (xb2 V c ⟨0, hn⟩) (w1b2 V c ⟨0, hn⟩) (b1b2 V c ⟨0, hn⟩) (w2b2 V c ⟨0, hn⟩) (b2b2 V c ⟨0, hn⟩))
  | n + 1, hn => k2_pay1 (k2_pay6 (sumsq2 c n (Nat.lt_of_succ_lt hn)))
      (k2_pay7 (xb2 V c ⟨n + 1, hn⟩) (w1b2 V c ⟨n + 1, hn⟩) (b1b2 V c ⟨n + 1, hn⟩) (w2b2 V c ⟨n + 1, hn⟩) (b2b2 V c ⟨n + 1, hn⟩))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => z2 V c t
    | ⟨6, _⟩ => sum2 V c t.val t.isLt
    | ⟨7, _⟩ => sumsq2 V c t.val t.isLt
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem hin2 (c : Dev nD) : Pipeline.ΦA spec2 c ⊢ (dat2 V c).Φ 0 := .rfl
theorem hout2 (c : Dev nD) : (dat2 V c).Φ (Fin.last cfg2.N) ⊢ Pipeline.ΦA spec2 c := .rfl
theorem after2_5 (c : Dev nD) (t : Fin cfg2.N) : (dat2 V c).after 5 t = z2 V c t := rfl
theorem after2_6 (c : Dev nD) (t : Fin cfg2.N) : (dat2 V c).after 6 t = sum2 V c t.val t.isLt := rfl
theorem after2_7 (c : Dev nD) (t : Fin cfg2.N) : (dat2 V c).after 7 t = sumsq2 V c t.val t.isLt := rfl

set_option maxHeartbeats 1600000 in
theorem body_obligation2 (c : Dev nD) : BodyObligation (dat2 (F := F) V c) (defs₀ (F := F)) Variants.none () Set.univ := fun t => by
  rw [bigSep_W2, bigSep_W2]
  show _ ⊢ wp _ _ _ (bodyAt2 t) _
  obtain ⟨_ | n, hn⟩ := t
  · refine mlp_tile (k := cc2__mlp_stats_kernel) rfl _ _ _ _ _ k2_pay2 k2_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc2__mlp_stats_kernel) rfl _ _ _ _ _ _ _ ?_ ?_ ?_ ?_ ?_ (.inr ⟨fun h => n.succ_ne_zero ((mlpCond_iff ⟨n + 1, hn⟩).1 h),
        mlp_acc _ 6 rfl N_2 flush2_6 (fun _ => rfl) (fun _ _ => rfl) n hn,
        mlp_acc _ 7 rfl N_2 flush2_7 (fun _ => rfl) (fun _ _ => rfl) n hn⟩) <;>
      (intro d; apply Dat.before_in_eq_fetched <;> intros <;> rfl)

end Cert.Kernel.Hand

end
-- ==== Proof.K.RegB3.lean ====
import proofs.«430114_j32719060861414_1_alg».proof.Proof.K.RegB

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable abbrev rz3 : Rect S10000x128 := Rect.unit (s := S10000x128) ![0, 0] S10000x128.size inb_S10000x128_S10000x128_0_0
noncomputable abbrev rv3 : Rect S1x128 := Rect.unit (s := S1x128) ![0, 0] S1x128.size inb_S1x128_S1x128_0_0

def out3_5 (xz : Vec F S10000x128 .f32) (xm xv xg xb : Vec F S1x128 .f32) : Vec F S10000x128 .f32 :=
  View.canon [⟨rz3, k3_pay1 (View.ld xz rz3) (View.ld xv rv3) (View.ld xm rv3) (View.ld xg rv3) (View.ld xb rv3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t) : (dat3 V c).owed t = 0 := rfl
theorem recorded_eq3 (c : Dev nD) (t) : (dat3 V c).recorded t = Set.univ := rfl
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

-- every input is met at its own block of the entry contents, at every grid point
theorem before3 (c : Dev nD) : ∀ w : Fin cfg3.W, w ≠ 5 → ∀ t d, (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl)
  | ⟨5, _⟩, h => absurd rfl h

theorem body_obligation3 (c : Dev nD) : BodyObligation (dat3 (F := F) V c) (defs₀ (F := F)) Variants.none () Set.univ := fun t => by
  rw [bigSep_W3, bigSep_W3]
  simp +decide only [before3 V c]
  rw [show (dat3 V c).Φ t.succ = (dat3 V c).Φ t.castSucc from rfl, show (dat3 V c).owesAt () t.succ = (dat3 V c).owesAt () t.castSucc from rfl]
  refine .trans ?_ (regB_sound c Set.univ (grid3.coords t) (hstage3_0 _) (hstage3_1 _) (hstage3_2 _) (hstage3_3 _) (hstage3_4 _) (hstage3_5 _)
    ((dat3 V c).after 0 t) ((dat3 V c).after 1 t) ((dat3 V c).after 2 t) ((dat3 V c).after 3 t) ((dat3 V c).after 4 t) _ (after3_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.Kernel.Hand

end
-- ==== Proof.K.RegM4.lean ====
import proofs.«430114_j32719060861414_1_alg».proof.Proof.K.RegM

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xb4 (c : Dev nD) (t : Fin cfg4.N) : Vec F S10000x128 .f32 := iblk4 V c 0 t
abbrev w1b4 (c : Dev nD) (t : Fin cfg4.N) : Vec F S128x128 .f32 := iblk4 V c 1 t
abbrev b1b4 (c : Dev nD) (t : Fin cfg4.N) : Vec F S1x128 .f32 := iblk4 V c 2 t
abbrev w2b4 (c : Dev nD) (t : Fin cfg4.N) : Vec F S128x128 .f32 := iblk4 V c 3 t
abbrev b2b4 (c : Dev nD) (t : Fin cfg4.N) : Vec F S1x128 .f32 := iblk4 V c 4 t

def z4 (c : Dev nD) (t : Fin cfg4.N) : Vec F S10000x128 .f32 :=
  k4_pay4 (xb4 V c t) (w1b4 V c t) (b1b4 V c t) (w2b4 V c t) (b2b4 V c t)

def sum4 (c : Dev nD) : (n : ℕ) → n < cfg4.N → Vec F S1x128 .f32
  | 0, hn => k4_pay5 (xb4 V c ⟨0, hn⟩) (w1b4 V c ⟨0, hn⟩) (b1b4 V c ⟨0, hn⟩) (w2b4 V c ⟨0, hn⟩) (b2b4 V c ⟨0, hn⟩) (k4_pay2 (F := F))
  | n + 1, hn => k4_pay5 (xb4 V c ⟨n + 1, hn⟩) (w1b4 V c ⟨n + 1, hn⟩) (b1b4 V c ⟨n + 1, hn⟩) (w2b4 V c ⟨n + 1, hn⟩) (b2b4 V c ⟨n + 1, hn⟩)
      (sum4 c n (Nat.lt_of_succ_lt hn))

def sumsq4 (c : Dev nD) : (n : ℕ) → n < cfg4.N → Vec F S1x128 .f32
  | 0, hn => k4_pay1 (k4_pay6 (k4_pay3 (F := F)))
      (k4_pay7 (xb4 V c ⟨0, hn⟩) (w1b4 V c ⟨0, hn⟩) (b1b4 V c ⟨0, hn⟩) (w2b4 V c ⟨0, hn⟩) (b2b4 V c ⟨0, hn⟩))
  | n + 1, hn => k4_pay1 (k4_pay6 (sumsq4 c n (Nat.lt_of_succ_lt hn)))
      (k4_pay7 (xb4 V c ⟨n + 1, hn⟩) (w1b4 V c ⟨n + 1, hn⟩) (b1b4 V c ⟨n + 1, hn⟩) (w2b4 V c ⟨n + 1, hn⟩) (b2b4 V c ⟨n + 1, hn⟩))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => z4 V c t
    | ⟨6, _⟩ => sum4 V c t.val t.isLt
    | ⟨7, _⟩ => sumsq4 V c t.val t.isLt
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl
theorem hin4 (c : Dev nD) : Pipeline.ΦA spec4 c ⊢ (dat4 V c).Φ 0 := .rfl
theorem hout4 (c : Dev nD) : (dat4 V c).Φ (Fin.last cfg4.N) ⊢ Pipeline.ΦA spec4 c := .rfl
theorem after4_5 (c : Dev nD) (t : Fin cfg4.N) : (dat4 V c).after 5 t = z4 V c t := rfl
theorem after4_6 (c : Dev nD) (t : Fin cfg4.N) : (dat4 V c).after 6 t = sum4 V c t.val t.isLt := rfl
theorem after4_7 (c : Dev nD) (t : Fin cfg4.N) : (dat4 V c).after 7 t = sumsq4 V c t.val t.isLt := rfl

set_option maxHeartbeats 1600000 in
theorem body_obligation4 (c : Dev nD) : BodyObligation (dat4 (F := F) V c) (defs₀ (F := F)) Variants.none () Set.univ := fun t => by
  rw [bigSep_W4, bigSep_W4]
  show _ ⊢ wp _ _ _ (bodyAt4 t) _
  obtain ⟨_ | n, hn⟩ := t
  · refine mlp_tile (k := cc4__mlp_stats_kernel) rfl _ _ _ _ _ k4_pay2 k4_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc4__mlp_stats_kernel) rfl _ _ _ _ _ _ _ ?_ ?_ ?_ ?_ ?_ (.inr ⟨fun h => n.succ_ne_zero ((mlpCond_iff ⟨n + 1, hn⟩).1 h),
        mlp_acc _ 6 rfl N_4 flush4_6 (fun _ => rfl) (fun _ _ => rfl) n hn,
        mlp_acc _ 7 rfl N_4 flush4_7 (fun _ => rfl) (fun _ _ => rfl) n hn⟩) <;>
      (intro d; apply Dat.before_in_eq_fetched <;> intros <;> rfl)

end Cert.Kernel.Hand

end
-- ==== Proof.K.RegB5.lean ====
import proofs.«430114_j32719060861414_1_alg».proof.Proof.K.RegB

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev rz5 : Rect S10000x128 := Rect.unit (s := S10000x128) ![0, 0] S10000x128.size inb_S10000x128_S10000x128_0_0
noncomputable abbrev rv5 : Rect S1x128 := Rect.unit (s := S1x128) ![0, 0] S1x128.size inb_S1x128_S1x128_0_0

def out5_5 (xz : Vec F S10000x128 .f32) (xm xv xg xb : Vec F S1x128 .f32) : Vec F S10000x128 .f32 :=
  View.canon [⟨rz5, k5_pay1 (View.ld xz rz5) (View.ld xv rv5) (View.ld xm rv5) (View.ld xg rv5) (View.ld xb rv5)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl
theorem q_eq5 (c : Dev nD) (w : Fin cfg5.W) : (dat5 V c).q w = fullShare := rfl
theorem owed_eq5 (c : Dev nD) (t) : (dat5 V c).owed t = 0 := rfl
theorem recorded_eq5 (c : Dev nD) (t) : (dat5 V c).recorded t = Set.univ := rfl
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

-- every input is met at its own block of the entry contents, at every grid point
theorem before5 (c : Dev nD) : ∀ w : Fin cfg5.W, w ≠ 5 → ∀ t d, (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl)
  | ⟨5, _⟩, h => absurd rfl h

theorem body_obligation5 (c : Dev nD) : BodyObligation (dat5 (F := F) V c) (defs₀ (F := F)) Variants.none () Set.univ := fun t => by
  rw [bigSep_W5, bigSep_W5]
  simp +decide only [before5 V c]
  rw [show (dat5 V c).Φ t.succ = (dat5 V c).Φ t.castSucc from rfl, show (dat5 V c).owesAt () t.succ = (dat5 V c).owesAt () t.castSucc from rfl]
  refine .trans ?_ (regB_sound c Set.univ (grid5.coords t) (hstage5_0 _) (hstage5_1 _) (hstage5_2 _) (hstage5_3 _) (hstage5_4 _) (hstage5_5 _)
    ((dat5 V c).after 0 t) ((dat5 V c).after 1 t) ((dat5 V c).after 2 t) ((dat5 V c).after 3 t) ((dat5 V c).after 4 t) _ (after5_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.Kernel.Hand

end
-- ==== Proof.K.RegM6.lean ====
import proofs.«430114_j32719060861414_1_alg».proof.Proof.K.RegM

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xb6 (c : Dev nD) (t : Fin cfg6.N) : Vec F S10000x128 .f32 := iblk6 V c 0 t
abbrev w1b6 (c : Dev nD) (t : Fin cfg6.N) : Vec F S128x128 .f32 := iblk6 V c 1 t
abbrev b1b6 (c : Dev nD) (t : Fin cfg6.N) : Vec F S1x128 .f32 := iblk6 V c 2 t
abbrev w2b6 (c : Dev nD) (t : Fin cfg6.N) : Vec F S128x128 .f32 := iblk6 V c 3 t
abbrev b2b6 (c : Dev nD) (t : Fin cfg6.N) : Vec F S1x128 .f32 := iblk6 V c 4 t

def z6 (c : Dev nD) (t : Fin cfg6.N) : Vec F S10000x128 .f32 :=
  k6_pay4 (xb6 V c t) (w1b6 V c t) (b1b6 V c t) (w2b6 V c t) (b2b6 V c t)

def sum6 (c : Dev nD) : (n : ℕ) → n < cfg6.N → Vec F S1x128 .f32
  | 0, hn => k6_pay5 (xb6 V c ⟨0, hn⟩) (w1b6 V c ⟨0, hn⟩) (b1b6 V c ⟨0, hn⟩) (w2b6 V c ⟨0, hn⟩) (b2b6 V c ⟨0, hn⟩) (k6_pay2 (F := F))
  | n + 1, hn => k6_pay5 (xb6 V c ⟨n + 1, hn⟩) (w1b6 V c ⟨n + 1, hn⟩) (b1b6 V c ⟨n + 1, hn⟩) (w2b6 V c ⟨n + 1, hn⟩) (b2b6 V c ⟨n + 1, hn⟩)
      (sum6 c n (Nat.lt_of_succ_lt hn))

def sumsq6 (c : Dev nD) : (n : ℕ) → n < cfg6.N → Vec F S1x128 .f32
  | 0, hn => k6_pay1 (k6_pay6 (k6_pay3 (F := F)))
      (k6_pay7 (xb6 V c ⟨0, hn⟩) (w1b6 V c ⟨0, hn⟩) (b1b6 V c ⟨0, hn⟩) (w2b6 V c ⟨0, hn⟩) (b2b6 V c ⟨0, hn⟩))
  | n + 1, hn => k6_pay1 (k6_pay6 (sumsq6 c n (Nat.lt_of_succ_lt hn)))
      (k6_pay7 (xb6 V c ⟨n + 1, hn⟩) (w1b6 V c ⟨n + 1, hn⟩) (b1b6 V c ⟨n + 1, hn⟩) (w2b6 V c ⟨n + 1, hn⟩) (b2b6 V c ⟨n + 1, hn⟩))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => z6 V c t
    | ⟨6, _⟩ => sum6 V c t.val t.isLt
    | ⟨7, _⟩ => sumsq6 V c t.val t.isLt
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem after6_5 (c : Dev nD) (t : Fin cfg6.N) : (dat6 V c).after 5 t = z6 V c t := rfl
theorem after6_6 (c : Dev nD) (t : Fin cfg6.N) : (dat6 V c).after 6 t = sum6 V c t.val t.isLt := rfl
theorem after6_7 (c : Dev nD) (t : Fin cfg6.N) : (dat6 V c).after 7 t = sumsq6 V c t.val t.isLt := rfl

set_option maxHeartbeats 1600000 in
theorem body_obligation6 (c : Dev nD) : BodyObligation (dat6 (F := F) V c) (defs₀ (F := F)) Variants.none () Set.univ := fun t => by
  rw [bigSep_W6, bigSep_W6]
  show _ ⊢ wp _ _ _ (bodyAt6 t) _
  obtain ⟨_ | n, hn⟩ := t
  · refine mlp_tile (k := cc6__mlp_stats_kernel) rfl _ _ _ _ _ k6_pay2 k6_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc6__mlp_stats_kernel) rfl _ _ _ _ _ _ _ ?_ ?_ ?_ ?_ ?_ (.inr ⟨fun h => n.succ_ne_zero ((mlpCond_iff ⟨n + 1, hn⟩).1 h),
        mlp_acc _ 6 rfl N_6 flush6_6 (fun _ => rfl) (fun _ _ => rfl) n hn,
        mlp_acc _ 7 rfl N_6 flush6_7 (fun _ => rfl) (fun _ _ => rfl) n hn⟩) <;>
      (intro d; apply Dat.before_in_eq_fetched <;> intros <;> rfl)

end Cert.Kernel.Hand

end
-- ==== Proof.K.RegP7.lean ====
import proofs.«430114_j32719060861414_1_alg».proof.Proof.Gen.Kernel.Launch
import proofs.«430114_j32719060861414_1_alg».proof.Proof.Gen.Kernel.Skeleton
import proofs.«430114_j32719060861414_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

noncomputable abbrev hblk7 (c : Dev nD) (t : Fin cfg7.N) : Vec F S10000x128 .f32 := iblk7 V c 0 t
noncomputable abbrev bblk7 (c : Dev nD) (t : Fin cfg7.N) : Vec F S10000x1 .i32 := iblk7 V c 1 t

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 5 = 0 :=
  (by decide +kernel : ∀ t : Fin grid7.N, cond7_0 (grid7.coords t) ↔ t.val % 5 = 0)

abbrev cond7_1 (i : grid7.Coords) : Prop := k7_cond2 i = 1#1
theorem hcond7_1 : ∀ t : Fin cfg7.N, cond7_1 (grid7.coords t) ↔ t.val % 5 = 4 :=
  (by decide +kernel : ∀ t : Fin grid7.N, cond7_1 (grid7.coords t) ↔ t.val % 5 = 4)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → idle7 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → idle7 2 (grid7.coords t) = false := by decide +kernel

theorem hz7 : (![0, 0] : Fin 2 → Nat) = fun _ => 0 := funext fun a => by fin_cases a <;> rfl

-- one statement for every grid point: the running sum starts from zero at the first point and is the output at the last
set_option maxHeartbeats 1000000 in
theorem sound_kernel7 (c : Dev nD) (E : Set ℕ) (i : grid7.Coords) {a1 : Memref sig .tc .vmem S10000x128 .f32}
    {a2 : Memref sig .tc .vmem S10000x1 .i32} {a3 a4 : Memref sig .tc .vmem S128x128 .f32}
    (h1 : a1.IsWhole) (h2 : a2.IsWhole) (h3 : a3.IsWhole) (h4 : a4.IsWhole) (hc : ¬(cond7_0 i ∧ cond7_1 i))
    (x0 : Vec F S10000x128 .f32) (x1 : Vec F S10000x1 .i32) (d xs : Vec F S128x128 .f32) (K : PUnit → sProp 𝕄) :
    iprop(owns (c : Thread nD τ) a1 fullShare x0 ∗ owns (c : Thread nD τ) a2 fullShare x1 ∗ owns (c : Thread nD τ) a3 fullShare d
        ∗ owns (c : Thread nD τ) a4 fullShare xs
        ∗ (iprop(owns (c : Thread nD τ) a1 fullShare x0 ∗ owns (c : Thread nD τ) a2 fullShare x1
            ∗ owns (c : Thread nD τ) a3 fullShare (if cond7_1 i then k7_pay2 x1 x0 xs else d)
            ∗ owns (c : Thread nD τ) a4 fullShare (k7_pay2 x1 x0 (if cond7_0 i then k7_pay1 (F := F) else xs))) -∗ K ⟨⟩))
      ⊢ wp frame (wpE (defs₀ (F := F)) Variants.none c none) E (cc7__pool_kernel i a1 h1 a2 h2 a3 h3 a4 h4) K := by
  simp only [cc7__pool_kernel_eq_skeleton]; unfold cc7__pool_kernel_skel owns
  iintro ⟨⟨%f0, %e0, H0⟩, ⟨%f1, %e1, H1⟩, ⟨%f3, %e3, H3⟩, ⟨%fs, %es, HS⟩, Hk⟩
  subst e0 e1 e3 es
  by_cases hc0 : cond7_0 i <;> by_cases hc1 : cond7_1 i
  · exact absurd ⟨hc0, hc1⟩ hc
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H3]
    · iexists _; isplitr
      swap; · iexact H3
      ipureintro
      first
      | rfl
      | (sl_unfold_words
         rw [View.read_writes_eq_canon _ _ _ (fun y => ⟨_, List.mem_cons_self .., View.mem_set_unit_zero hz7 inb_S128x128_S128x128_0_0 y⟩)]
         rw [View.canon_cons_unit_zero (S := S128x128) hz7]
         simp only [View.readAt_eq_ld, View.readCov_unit_zero (S := S128x128) _ hz7, View.ld_unit_zero (S := S10000x128) hz7,
           View.ld_unit_zero (S := S10000x1) hz7, View.ld_unit_zero (S := S128x128) hz7])
    iexists _; isplitr
    swap; · iexact HS
    ipureintro
    try sl_unfold_words
    rw [View.read_writes_eq_canon _ _ _ (fun y => ⟨_, List.mem_cons_self .., View.mem_set_unit_zero hz7 inb_S128x128_S128x128_0_0 y⟩)]
    rw [View.canon_cons_unit_zero (S := S128x128) hz7]
    simp only [View.readAt_eq_ld, View.readCov_unit_zero (S := S128x128) _ hz7, View.ld_unit_zero (S := S10000x128) hz7,
      View.ld_unit_zero (S := S10000x1) hz7, View.ld_unit_zero (S := S128x128) hz7]

def scr7 (c : Dev nD) : (n : ℕ) → n < cfg7.N → Vec F S128x128 .f32
  | 0, hn => k7_pay2 (bblk7 V c ⟨0, hn⟩) (hblk7 V c ⟨0, hn⟩) (k7_pay1 (F := F))
  | n + 1, hn => k7_pay2 (bblk7 V c ⟨n + 1, hn⟩) (hblk7 V c ⟨n + 1, hn⟩) (scr7 c n (Nat.lt_of_succ_lt hn))

noncomputable abbrev scM7 : Memref sig .tc .vmem S128x128 .f32 := Memref.whole cc7_scratch0

noncomputable abbrev restBut7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ restBut7 (F := F) c) ∗ (∃ r, prngReg c r)) := by
  unfold Pipeline.ΦA; rw [scopedRest7_split]; simp only [scM7, owns_whole]; try rfl

-- from the second point on, the invariant names the running sum after the point before
noncomputable def PhiS7 (c : Dev nD) : (n : ℕ) → n ≤ cfg7.N → sProp 𝕄
  | 0, _ => Pipeline.ΦA spec7 c
  | n + 1, hn => iprop(iprop(owns (c : Thread nD τ) scM7 fullShare (scr7 V c n hn) ∗ restBut7 (F := F) c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => scr7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t) : (dat7 V c).owed t = 0 := by
  dsimp only [dat7]
theorem recorded_eq7 (c : Dev nD) (t) : (dat7 V c).recorded t = Set.univ := rfl

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = scr7 V c t.val t.isLt := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

-- the running sum after point t is t's product added to the sum the invariant names (to zero at the first point)
theorem PhiS7_open (c : Dev nD) : ∀ t : Fin cfg7.N,
    PhiS7 V c t.val (Nat.le_of_lt t.isLt) ⊢ iprop(∃ xs, ⌜scr7 V c t.val t.isLt
        = k7_pay2 (bblk7 V c t) (hblk7 V c t) (if cond7_0 (grid7.coords t) then k7_pay1 (F := F) else xs)⌝
      ∗ iprop(owns (c : Thread nD τ) scM7 fullShare xs ∗ restBut7 (F := F) c) ∗ (∃ r, prngReg c r))
  | ⟨0, h⟩ => by
    show Pipeline.ΦA spec7 c ⊢ _
    rw [PhiA7_eq]
    iintro ⟨⟨⟨%d, HS⟩, HR⟩, Hg⟩
    iexists d; isplitr; · ipureintro; rw [if_pos ((hcond7_0 ⟨0, h⟩).mpr rfl)]; rfl
    isplitr [Hg]
    · isplitl [HS]; · iexact HS
      iexact HR
    iexact Hg
  | ⟨n + 1, h⟩ => by
    simp only [PhiS7]
    iintro H
    iexists _; isplitr
    · ipureintro
      rw [if_neg (fun hc => by have : (n + 1) % 5 = 0 := (hcond7_0 ⟨n + 1, h⟩).mp hc; have : n + 1 < 5 := lt_of_lt_of_eq h N_7; omega)]; rfl
    iexact H

theorem body_obligation7 (c : Dev nD) : BodyObligation (dat7 (F := F) V c) (defs₀ (F := F)) Variants.none () Set.univ := fun t => by
  have hc : ¬(cond7_0 (grid7.coords t) ∧ cond7_1 (grid7.coords t)) := fun h => by
    have := (hcond7_0 t).mp h.1; have := (hcond7_1 t).mp h.2; omega
  rw [bigSep_W7, bigSep_W7]
  show _ ⊢ wp _ _ _ (bodyAt7 t) _
  unfold bodyAt7
  simp only [before7_0, before7_1, liveAt7_0 t, liveAt7_1 t, after7_0, after7_1, after7_2]
  rw [show (dat7 V c).owesAt () t.succ = (dat7 V c).owesAt () t.castSucc from rfl,
    show (dat7 V c).Φ t.succ = iprop(iprop(owns (c : Thread nD τ) scM7 fullShare (scr7 V c t.val t.isLt) ∗ restBut7 (F := F) c) ∗ (∃ r, prngReg c r)) from rfl,
    PhiS7_castSucc V c t]
  iintro ⟨HΦ, Ho, ⟨%d0, H0⟩, ⟨%d1, H1⟩, ⟨%d2, H2⟩⟩
  ihave HΦ := (PhiS7_open V c t) $$ HΦ
  icases HΦ with ⟨%xs, %hxs, ⟨HS, HR⟩, Hg⟩
  rw [hxs]
  iapply (sound_kernel7 c Set.univ _ _ _ _ _ hc (hblk7 V c t) (bblk7 V c t) _ xs _)
  isplitl [H0]; · iexact H0
  isplitl [H1]; · iexact H1
  isplitl [H2]; · iexact H2
  isplitl [HS]; · iexact HS
  iintro ⟨H0, H1, H2, HS⟩
  isplitl [HS HR Hg]
  · isplitr [Hg]
    · isplitl [HS]; · iexact HS
      iexact HR
    iexact Hg
  isplitl [Ho]; · iexact Ho
  isplitl [H0]; · iexact H0
  isplitl [H1]; · iexact H1
  by_cases h1 : cond7_1 (grid7.coords t)
  · simp only [liveAt7_2 t h1, if_pos h1, if_neg (fun h0 => hc ⟨h0, h1⟩)]; iexact H2
  · simp only [idleAt7_2 t h1, noFlush7_2 t h1, if_neg h1]; iexists _; iexact H2

theorem hin7 (c : Dev nD) : Pipeline.ΦA spec7 c ⊢ (dat7 V c).Φ 0 := .rfl

theorem hout7 (c : Dev nD) : (dat7 V c).Φ (Fin.last cfg7.N) ⊢ Pipeline.ΦA spec7 c := by
  rw [PhiA7_eq]
  show iprop(iprop(owns (c : Thread nD τ) scM7 fullShare (scr7 V c 4 (by decide)) ∗ restBut7 (F := F) c) ∗ (∃ r, prngReg c r)) ⊢ _
  iintro ⟨⟨HS, HR⟩, Hg⟩
  isplitr [Hg]
  · isplitl [HS]
    · iexists _; iexact HS
    iexact HR
  iexact Hg

end Cert.Kernel.Hand

end
-- ==== Proof.K.Run.lean ====
import proofs.«430114_j32719060861414_1_alg».proof.Proof.Gen.Kernel.Regions
import proofs.«430114_j32719060861414_1_alg».proof.Proof.K.RegM0
import proofs.«430114_j32719060861414_1_alg».proof.Proof.K.RegB1
import proofs.«430114_j32719060861414_1_alg».proof.Proof.K.RegM2
import proofs.«430114_j32719060861414_1_alg».proof.Proof.K.RegB3
import proofs.«430114_j32719060861414_1_alg».proof.Proof.K.RegM4
import proofs.«430114_j32719060861414_1_alg».proof.Proof.K.RegB5
import proofs.«430114_j32719060861414_1_alg».proof.Proof.K.RegM6
import proofs.«430114_j32719060861414_1_alg».proof.Proof.K.RegP7
import Idealize.ShloMosaic.Lib.Pipeline.FrameSuffix
import Idealize.ShloMosaic.Lib.Pipeline.RegionsLoop

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

attribute [local irreducible] StableHlo.after

abbrev runL : GSem nD τ sig → Finset Unit := fun _ => ∅
abbrev runLv : GSem nD τ sig → Unit → ℕ := fun _ _ => 0
abbrev runR (c : Dev nD) : sProp 𝕄 := iprop((∃ r, prngReg c r) ∗ ∃ W, owes (c : Thread nD τ) (0 : CellTallies nD τ sig Unit) W)

-- For reading the valuation after a region, which is such a chain of updates, at any ref.
theorem foldl_update {α : Type} [DecidableEq α] {β : α → Type} (g : ∀ a, β a) (r : α) : ∀ (l : List α) (f : ∀ a, β a),
    l.foldl (fun h a => Function.update h a (g a)) f r = if r ∈ l then g r else f r
  | [], f => (if_neg List.not_mem_nil).symm
  | a :: l, f => by
    rw [List.foldl_cons, foldl_update g r l]
    by_cases h : r ∈ l
    · rw [if_pos h, if_pos (List.mem_cons_of_mem a h)]
    by_cases e : r = a
    · subst e; rw [if_neg h, if_pos List.mem_cons_self, Function.update_self]
    · rw [if_neg h, if_neg (List.not_mem_cons_of_ne_of_not_mem e h), Function.update_of_ne e]

-- The two facts `mkReg` needs of the valuation a region is left at.
def Leaves {cfg : Pipeline.Cfg sig Λ₀} {c : Dev nD} (D : Dat τ (Elt F) Unit ℕ (UR sig nD τ) ℕ cfg c) (Vin Vout : Valuation τ sig (Elt F)) : Prop :=
  (∀ w, D.arrAt w cfg.N = Vout (Pipeline.arrRef cfg.spec w)) ∧
    ∀ b : Ref sig .tc, b ∉ Finset.univ.image (Pipeline.arrRef cfg.spec) → Vout b = Vin b

-- By cases on whether the ref lies in `O`: there the fold reads `withArrays`, elsewhere `Vin`.
theorem leaves_of {cfg : Pipeline.Cfg sig Λ₀} {c : Dev nD} (D : Dat τ (Elt F) Unit ℕ (UR sig nD τ) ℕ cfg c) (Vin : Valuation τ sig (Elt F))
    (O : List (Ref sig .tc)) (hinj : Function.Injective (Pipeline.arrRef cfg.spec)) (hA : ∀ w, D.A w = Vin (Pipeline.arrRef cfg.spec w))
    (hd : ∀ w, Pipeline.arrRef cfg.spec w ∉ O → (cfg.win w).isOut = false) :
    Leaves D Vin ((O.map (Proc.devRef .tc)).foldl (fun V r => Function.update V r (Pipeline.withArrays cfg.spec c Vin (D.arrAt · cfg.N) r)) Vin) := by
  refine ⟨fun w => ?_, fun b hb => ?_⟩ <;> rw [foldl_update]
  · by_cases h : Pipeline.arrRef cfg.spec w ∈ O
    · rw [if_pos (List.mem_map_of_mem h)]; exact (Pipeline.withArrays_arr _ hinj c Vin (D.arrAt · cfg.N) w).symm
    · rw [if_neg fun hm => h ((List.mem_map_of_injective (Proc.devRef_injective _)).1 hm)]
      exact (D.arrAt_in w (hd w h) _).trans (hA w)
  · by_cases h : (Proc.devRef .tc b : DevRef τ sig) ∈ O.map (Proc.devRef .tc)
    · rw [if_pos h]; exact Pipeline.withArrays_of_ne _ c _ _ b fun w e => hb (Finset.mem_image.mpr ⟨w, Finset.mem_univ _, e⟩)
    · rw [if_neg h]

section Record

variable (pdats : (p : Fin 8) → (c : Dev nD) → Dat τ (Elt F) Unit ℕ (UR sig nD τ) ℕ (cfgs p) c)

set_option backward.isDefEq.respectTransparency.types false in
def mkReg (p : Fin 8) (lf : Pipeline.LaunchFacts (nD := nD) (τ := τ) cfgs p)
    (Vin Vout : Dev nD → Valuation τ sig (Elt F))
    (hbody : ∀ c, Pipeline.BodyObligation (pdats p c) (defs₀ (F := F)) Variants.none () Set.univ)
    (hA : ∀ c w, (pdats p c).A w = Vin c (Pipeline.arrRef (cfgs p).spec w))
    (hq : ∀ c w, (pdats p c).q w = fullShare)
    (howed : ∀ c t, (pdats p c).owed t = 0)
    (hrec : ∀ c t, (pdats p c).recorded t = Set.univ)
    (hin : ∀ c, Pipeline.ΦA (cfgs p).spec c ⊢ (pdats p c).Φ 0)
    (hout : ∀ c, (pdats p c).Φ (Fin.last (cfgs p).N) ⊢ Pipeline.ΦA (cfgs p).spec c)
    (hL : ∀ c, Leaves (pdats p c) (Vin c) (Vout c)) :
    RegionSeg (pcfgs (F := F)) adm pdats () defs₀ Variants.none runL runLv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (cfgs p).N) (hL c).1 (hL c).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Record

variable (m : (ℓ : Loc nD τ sig) → Buf (Elt F) ℓ)

-- One step of `outs`: each region's exit is defined from the exits before it.
def exitAt {cfg : Pipeline.Cfg sig Λ₀} (o : Outs (F := F)) (J₀ : ℕ) (D : ∀ c : Dev nD, Dat τ (Elt F) Unit ℕ (UR sig nD τ) ℕ cfg c)
    (Vin : Dev nD → Valuation τ sig (Elt F)) : Outs (F := F) := fun J r c =>
  if J = J₀ then Pipeline.withArrays cfg.spec c (Vin c) ((D c).arrAt · cfg.N) r else o J r c

def outs0 : Outs (F := F) := exitAt (fun _ r c => m ((c : Thread nD τ).loc r)) 2 (dat0 fun c b => V1 m c b) (V1 m)
def outs1 : Outs (F := F) := exitAt (outs0 m) 4 (dat1 fun c b => V3 m (outs0 m) c b) (V3 m (outs0 m))
def outs2 : Outs (F := F) := exitAt (outs1 m) 6 (dat2 fun c b => V5 m (outs1 m) c b) (V5 m (outs1 m))
def outs3 : Outs (F := F) := exitAt (outs2 m) 8 (dat3 fun c b => V7 m (outs2 m) c b) (V7 m (outs2 m))
def outs4 : Outs (F := F) := exitAt (outs3 m) 10 (dat4 fun c b => V9 m (outs3 m) c b) (V9 m (outs3 m))
def outs5 : Outs (F := F) := exitAt (outs4 m) 12 (dat5 fun c b => V11 m (outs4 m) c b) (V11 m (outs4 m))
def outs6 : Outs (F := F) := exitAt (outs5 m) 14 (dat6 fun c b => V13 m (outs5 m) c b) (V13 m (outs5 m))
def outs7 : Outs (F := F) := exitAt (outs6 m) 16 (dat7 fun c b => V15 m (outs6 m) c b) (V15 m (outs6 m))
abbrev outs : Outs (F := F) := outs7 m

abbrev entry0 : (c : Dev nD) → (b : Ref sig .tc) → Buf (Elt F) ((c : Thread nD τ).loc b) := fun c b => V1 m c b
abbrev entry1 : (c : Dev nD) → (b : Ref sig .tc) → Buf (Elt F) ((c : Thread nD τ).loc b) := fun c b => V3 m (outs m) c b
abbrev entry2 : (c : Dev nD) → (b : Ref sig .tc) → Buf (Elt F) ((c : Thread nD τ).loc b) := fun c b => V5 m (outs m) c b
abbrev entry3 : (c : Dev nD) → (b : Ref sig .tc) → Buf (Elt F) ((c : Thread nD τ).loc b) := fun c b => V7 m (outs m) c b
abbrev entry4 : (c : Dev nD) → (b : Ref sig .tc) → Buf (Elt F) ((c : Thread nD τ).loc b) := fun c b => V9 m (outs m) c b
abbrev entry5 : (c : Dev nD) → (b : Ref sig .tc) → Buf (Elt F) ((c : Thread nD τ).loc b) := fun c b => V11 m (outs m) c b
abbrev entry6 : (c : Dev nD) → (b : Ref sig .tc) → Buf (Elt F) ((c : Thread nD τ).loc b) := fun c b => V13 m (outs m) c b
abbrev entry7 : (c : Dev nD) → (b : Ref sig .tc) → Buf (Elt F) ((c : Thread nD τ).loc b) := fun c b => V15 m (outs m) c b

def pdats : (p : Fin 8) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c

theorem leaves0 (c : Dev nD) : Leaves (dat0 (entry0 m) c) (V1 m c) (V2 m (outs m) c) :=
  leaves_of _ _ [main_v30_0, main_v30_1, main_v30_2] launch0.win.arr_inj (A_eq0 _ c) (by decide)
def segR0 :=
  mkReg (pdats m) 0 launch0 (V1 m) (V2 m (outs m)) (body_obligation0 _) (A_eq0 _) (q_eq0 _) (owed_eq0 _) (recorded_eq0 _)
    (hin0 _) (hout0 _) (leaves0 m)

theorem leaves1 (c : Dev nD) : Leaves (dat1 (entry1 m) c) (V3 m (outs m) c) (V4 m (outs m) c) :=
  leaves_of _ _ [main_v47] launch1.win.arr_inj (A_eq1 _ c) (by decide)
def segR1 :=
  mkReg (pdats m) 1 launch1 (V3 m (outs m)) (V4 m (outs m)) (body_obligation1 _) (A_eq1 _) (q_eq1 _) (owed_eq1 _) (recorded_eq1 _)
    (hin1 _) (hout1 _) (leaves1 m)

theorem leaves2 (c : Dev nD) : Leaves (dat2 (entry2 m) c) (V5 m (outs m) c) (V6 m (outs m) c) :=
  leaves_of _ _ [main_v74_0, main_v74_1, main_v74_2] launch2.win.arr_inj (A_eq2 _ c) (by decide)
def segR2 :=
  mkReg (pdats m) 2 launch2 (V5 m (outs m)) (V6 m (outs m)) (body_obligation2 _) (A_eq2 _) (q_eq2 _) (owed_eq2 _) (recorded_eq2 _)
    (hin2 _) (hout2 _) (leaves2 m)

theorem leaves3 (c : Dev nD) : Leaves (dat3 (entry3 m) c) (V7 m (outs m) c) (V8 m (outs m) c) :=
  leaves_of _ _ [main_v91] launch3.win.arr_inj (A_eq3 _ c) (by decide)
def segR3 :=
  mkReg (pdats m) 3 launch3 (V7 m (outs m)) (V8 m (outs m)) (body_obligation3 _) (A_eq3 _) (q_eq3 _) (owed_eq3 _) (recorded_eq3 _)
    (hin3 _) (hout3 _) (leaves3 m)

theorem leaves4 (c : Dev nD) : Leaves (dat4 (entry4 m) c) (V9 m (outs m) c) (V10 m (outs m) c) :=
  leaves_of _ _ [main_v118_0, main_v118_1, main_v118_2] launch4.win.arr_inj (A_eq4 _ c) (by decide)
def segR4 :=
  mkReg (pdats m) 4 launch4 (V9 m (outs m)) (V10 m (outs m)) (body_obligation4 _) (A_eq4 _) (q_eq4 _) (owed_eq4 _) (recorded_eq4 _)
    (hin4 _) (hout4 _) (leaves4 m)

theorem leaves5 (c : Dev nD) : Leaves (dat5 (entry5 m) c) (V11 m (outs m) c) (V12 m (outs m) c) :=
  leaves_of _ _ [main_v135] launch5.win.arr_inj (A_eq5 _ c) (by decide)
def segR5 :=
  mkReg (pdats m) 5 launch5 (V11 m (outs m)) (V12 m (outs m)) (body_obligation5 _) (A_eq5 _) (q_eq5 _) (owed_eq5 _) (recorded_eq5 _)
    (hin5 _) (hout5 _) (leaves5 m)

theorem leaves6 (c : Dev nD) : Leaves (dat6 (entry6 m) c) (V13 m (outs m) c) (V14 m (outs m) c) :=
  leaves_of _ _ [main_v162_0, main_v162_1, main_v162_2] launch6.win.arr_inj (A_eq6 _ c) (by decide)
def segR6 :=
  mkReg (pdats m) 6 launch6 (V13 m (outs m)) (V14 m (outs m)) (body_obligation6 _) (A_eq6 _) (q_eq6 _) (owed_eq6 _) (recorded_eq6 _)
    (hin6 _) (hout6 _) (leaves6 m)

theorem leaves7 (c : Dev nD) : Leaves (dat7 (entry7 m) c) (V15 m (outs m) c) (V16 m (outs m) c) :=
  leaves_of _ _ [main_v164] launch7.win.arr_inj (A_eq7 _ c) (by decide)
def segR7 :=
  mkReg (pdats m) 7 launch7 (V15 m (outs m)) (V16 m (outs m)) (body_obligation7 _) (A_eq7 _) (q_eq7 _) (owed_eq7 _) (recorded_eq7 _)
    (hin7 _) (hout7 _) (leaves7 m)

abbrev runE : Fin 9 → Dev nD → sProp 𝕄 := fun _ c => runR c

set_option backward.isDefEq.respectTransparency.types false in
theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine frame_cond m emb₁ () Variants.none runL runLv (fun _ _ => rfl) ρ (outs m) (pdats m) 0 (fun _ => iprop(emp))
    (initOf (Pipeline.cells cfgs cellOf_inj) (Pipeline.launchToks cfgs cellOf_inj)) ?_ runE (Pipeline.initEach runL runLv fun c => ?_) (fun c => ?_)
    (segR0 m) (fun _ => .rfl) (fun _ => .rfl) (segR1 m) (fun _ => .rfl) (fun _ => .rfl) (segR2 m) (fun _ => .rfl) (fun _ => .rfl)
    (segR3 m) (fun _ => .rfl) (fun _ => .rfl) (segR4 m) (fun _ => .rfl) (fun _ => .rfl) (segR5 m) (fun _ => .rfl) (fun _ => .rfl)
    (segR6 m) (fun _ => .rfl) (fun _ => .rfl) (segR7 m) (fun _ => .rfl) (fun _ => .rfl)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · iintro ⟨⟨-, HO, -, Hp, -⟩, -⟩
    imodintro
    isplitl [Hp]; · iexists _; iexact Hp
    iexists ∅; iexact HO
  · iintro ⟨-, HO⟩; iexact HO

end Cert.Kernel.Hand

end
-- ==== Proof.KI.RegM.lean ====
import proofs.«430114_j32719060861414_1_alg».proof.Proof.Gen.KernelIdeal.Launch
import proofs.«430114_j32719060861414_1_alg».proof.Proof.Gen.KernelIdeal.Skeleton
import proofs.«430114_j32719060861414_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body's one condition: the tile's index is zero
abbrev mlpCond (i : grid0.Coords) : Prop :=
  (Scalar.cmpi .ne (Scalar.extui (Scalar.cmpi .eq (BitVec.ofNat 32 (i 0).val) 0#32)) 0#32) = 1#1

theorem mlpCond_iff : ∀ t : Fin grid0.N, mlpCond (grid0.coords t) ↔ t.val = 0 := by decide +kernel

theorem mlp_hz : (![0, 0] : Fin 2 → Nat) = fun _ => 0 := funext fun a => by fin_cases a <;> rfl

-- reading back a list of writes whose newest piece covers the whole shape gives that piece's payload
theorem mlp_read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons.mpr (Or.inl rfl), View.mem_set_unit_zero h inb y⟩),
    View.canon_cons_unit_zero h inb]

set_option maxHeartbeats 2000000 in
-- the body's triple under a frame Φ ∗ O, each buffer's contents given up to an equation; its two branches differ only in the rows u, v
theorem mlp_tile {k : _} (hk : k = @cc0__mlp_stats_kernel F _) {c : Dev nD} {E : Set ℕ} {i : grid0.Coords}
    {arg1 : Memref sig .tc .vmem S10000x128 .f32} {harg1 : arg1.IsWhole} {arg2 : Memref sig .tc .vmem S128x128 .f32} {harg2 : arg2.IsWhole}
    {arg3 : Memref sig .tc .vmem S1x128 .f32} {harg3 : arg3.IsWhole} {arg4 : Memref sig .tc .vmem S128x128 .f32} {harg4 : arg4.IsWhole}
    {arg5 : Memref sig .tc .vmem S1x128 .f32} {harg5 : arg5.IsWhole} {arg6 : Memref sig .tc .vmem S10000x128 .f32} {harg6 : arg6.IsWhole}
    {arg7 : Memref sig .tc .vmem S1x128 .f32} {harg7 : arg7.IsWhole} {arg8 : Memref sig .tc .vmem S1x128 .f32} {harg8 : arg8.IsWhole}
    (x0 : Vec F S10000x128 .f32) (x1 : Vec F S128x128 .f32) (x2 : Vec F S1x128 .f32) (x3 : Vec F S128x128 .f32) (x4 : Vec F S1x128 .f32)
    (u v : Vec F S1x128 .f32)
    {B0 B5 : Vec F S10000x128 .f32 → Vec F S10000x128 .f32} {B1 B3 : Vec F S128x128 .f32 → Vec F S128x128 .f32}
    {B2 B4 B6 B7 : Vec F S1x128 .f32 → Vec F S1x128 .f32}
    (h0 : ∀ d, B0 d = x0) (h1 : ∀ d, B1 d = x1) (h2 : ∀ d, B2 d = x2) (h3 : ∀ d, B3 d = x3) (h4 : ∀ d, B4 d = x4)
    (h : mlpCond i ∧ u = k0_pay2 ∧ v = k0_pay3 ∨ ¬mlpCond i ∧ (∀ d, B6 d = u) ∧ ∀ d, B7 d = v) {Φ O : sProp 𝕄} :
    iprop(Φ ∗ O ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d))
        ∗ (∃ d, owns (c : Thread nD τ) arg7 fullShare (B6 d)) ∗ (∃ d, owns (c : Thread nD τ) arg8 fullShare (B7 d)))
      ⊢ wp frame (wpE (defs₀ (F := F)) Variants.none c none) E (k i arg1 harg1 arg2 harg2 arg3 harg3 arg4 harg4 arg5 harg5 arg6 harg6 arg7 harg7 arg8 harg8) fun _ =>
        iprop(Φ ∗ O ∗ owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4
          ∗ owns (c : Thread nD τ) arg6 fullShare (k0_pay4 x0 x1 x2 x3 x4)
          ∗ owns (c : Thread nD τ) arg7 fullShare (k0_pay5 x0 x1 x2 x3 x4 u)
          ∗ owns (c : Thread nD τ) arg8 fullShare (k0_pay1 (k0_pay6 v) (k0_pay7 x0 x1 x2 x3 x4))) := by
  subst hk
  simp only [h0, h1, h2, h3, h4, cc0__mlp_stats_kernel_eq_skeleton]; unfold cc0__mlp_stats_kernel_skel
  simp only [k0_part1_eq_skeleton]
  unfold owns
  iintro ⟨HΦ, Ho, ⟨%d0, %f1, %hf1, H1⟩, ⟨%d1, %f2, %hf2, H2⟩, ⟨%d2, %f3, %hf3, H3⟩, ⟨%d3, %f4, %hf4, H4⟩, ⟨%d4, %f5, %hf5, H5⟩, ⟨%d5, %f6, -, H6⟩, ⟨%d6, %f7, %hf7, H7⟩, ⟨%d7, %f8, %hf8, H8⟩⟩
  obtain rfl := harg1.eq_unread hf1; obtain rfl := harg2.eq_unread hf2; obtain rfl := harg3.eq_unread hf3
  obtain rfl := harg4.eq_unread hf4; obtain rfl := harg5.eq_unread hf5
  obtain rfl := harg7.eq_unread hf7; obtain rfl := harg8.eq_unread hf8
  obtain ⟨hc, rfl, rfl⟩ | ⟨hc, h6, h7⟩ := h
  on_goal 2 => obtain rfl := h6 d6; obtain rfl := h7 d7
  all_goals
    sl_exec (disch := first | exact hc)
    sl_step
    iframe HΦ Ho
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr
      swap; · iexact H6
      ipureintro
      sl_unfold_words
      rw [mlp_read_writes_whole _ _ mlp_hz]
      simp only [View.readAt_eq_ld, View.readCov_unit_zero (S := S1x128) _ mlp_hz, harg1.read_unread, harg2.read_unread, harg3.read_unread,
        harg4.read_unread, harg5.read_unread, harg7.read_unread, harg8.read_unread, View.ld_unit_zero (S := S10000x128) mlp_hz, View.ld_unit_zero (S := S128x128) mlp_hz,
        View.ld_unit_zero (S := S1x128) mlp_hz]
    isplitl [H7]
    · iexists _; isplitr
      swap; · iexact H7
      ipureintro
      sl_unfold_words
      rw [mlp_read_writes_whole _ _ mlp_hz]
      simp only [View.readAt_eq_ld, View.readCov_unit_zero (S := S1x128) _ mlp_hz, harg1.read_unread, harg2.read_unread, harg3.read_unread,
        harg4.read_unread, harg5.read_unread, harg7.read_unread, harg8.read_unread, View.ld_unit_zero (S := S10000x128) mlp_hz, View.ld_unit_zero (S := S128x128) mlp_hz,
        View.ld_unit_zero (S := S1x128) mlp_hz]
    iexists _; isplitr
    swap; · iexact H8
    ipureintro
    sl_unfold_words
    rw [mlp_read_writes_whole _ _ mlp_hz]
    simp only [View.readAt_eq_ld, View.readCov_unit_zero (S := S1x128) _ mlp_hz, harg1.read_unread, harg2.read_unread, harg3.read_unread,
      harg4.read_unread, harg5.read_unread, harg7.read_unread, harg8.read_unread, View.ld_unit_zero (S := S10000x128) mlp_hz, View.ld_unit_zero (S := S128x128) mlp_hz,
      View.ld_unit_zero (S := S1x128) mlp_hz]

theorem mlp_acc {cfg : Cfg sig Λ₀} {c : Dev nD} (dat : Dat τ (Elt F) Unit ℕ (UR sig nD τ) ℕ cfg c) (w : Fin cfg.W)
    (hw : (cfg.win w).isOut = true) (hN : cfg.N = 5) (hfl : ∀ t : Fin cfg.N, (cfg.win w).flush t = true ↔ t.val % 5 = 4)
    (hlive : ∀ i, cfg.idle w i = false) (hclip : ∀ (i : cfg.grid.Coords) a, (cfg.win w).clip i a = none)
    (n : ℕ) (hn : n + 1 < cfg.N) (d) : dat.before w ⟨n + 1, hn⟩ d = dat.after w ⟨n, Nat.lt_of_succ_lt hn⟩ :=
  dat.before_out_kept w hw ⟨n + 1, hn⟩ n.succ_ne_zero
    (Bool.eq_false_iff.mpr fun h => by have := (hfl _).mp h; dsimp only at this; omega) hlive hclip d

end Cert.KernelIdeal.Hand

end
-- ==== Proof.KI.RegM0.lean ====
import proofs.«430114_j32719060861414_1_alg».proof.Proof.KI.RegM

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev xb0 (c : Dev nD) (t : Fin cfg0.N) : Vec F S10000x128 .f32 := iblk0 V c 0 t
abbrev w1b0 (c : Dev nD) (t : Fin cfg0.N) : Vec F S128x128 .f32 := iblk0 V c 1 t
abbrev b1b0 (c : Dev nD) (t : Fin cfg0.N) : Vec F S1x128 .f32 := iblk0 V c 2 t
abbrev w2b0 (c : Dev nD) (t : Fin cfg0.N) : Vec F S128x128 .f32 := iblk0 V c 3 t
abbrev b2b0 (c : Dev nD) (t : Fin cfg0.N) : Vec F S1x128 .f32 := iblk0 V c 4 t

def z0 (c : Dev nD) (t : Fin cfg0.N) : Vec F S10000x128 .f32 :=
  k0_pay4 (xb0 V c t) (w1b0 V c t) (b1b0 V c t) (w2b0 V c t) (b2b0 V c t)

def sum0 (c : Dev nD) : (n : ℕ) → n < cfg0.N → Vec F S1x128 .f32
  | 0, hn => k0_pay5 (xb0 V c ⟨0, hn⟩) (w1b0 V c ⟨0, hn⟩) (b1b0 V c ⟨0, hn⟩) (w2b0 V c ⟨0, hn⟩) (b2b0 V c ⟨0, hn⟩) (k0_pay2 (F := F))
  | n + 1, hn => k0_pay5 (xb0 V c ⟨n + 1, hn⟩) (w1b0 V c ⟨n + 1, hn⟩) (b1b0 V c ⟨n + 1, hn⟩) (w2b0 V c ⟨n + 1, hn⟩) (b2b0 V c ⟨n + 1, hn⟩)
      (sum0 c n (Nat.lt_of_succ_lt hn))

def sumsq0 (c : Dev nD) : (n : ℕ) → n < cfg0.N → Vec F S1x128 .f32
  | 0, hn => k0_pay1 (k0_pay6 (k0_pay3 (F := F)))
      (k0_pay7 (xb0 V c ⟨0, hn⟩) (w1b0 V c ⟨0, hn⟩) (b1b0 V c ⟨0, hn⟩) (w2b0 V c ⟨0, hn⟩) (b2b0 V c ⟨0, hn⟩))
  | n + 1, hn => k0_pay1 (k0_pay6 (sumsq0 c n (Nat.lt_of_succ_lt hn)))
      (k0_pay7 (xb0 V c ⟨n + 1, hn⟩) (w1b0 V c ⟨n + 1, hn⟩) (b1b0 V c ⟨n + 1, hn⟩) (w2b0 V c ⟨n + 1, hn⟩) (b2b0 V c ⟨n + 1, hn⟩))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => z0 V c t
    | ⟨6, _⟩ => sum0 V c t.val t.isLt
    | ⟨7, _⟩ => sumsq0 V c t.val t.isLt
  Φ _ := Pipeline.ΦA spec0 c
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem hin0 (c : Dev nD) : Pipeline.ΦA spec0 c ⊢ (dat0 V c).Φ 0 := .rfl
theorem hout0 (c : Dev nD) : (dat0 V c).Φ (Fin.last cfg0.N) ⊢ Pipeline.ΦA spec0 c := .rfl
theorem after0_5 (c : Dev nD) (t : Fin cfg0.N) : (dat0 V c).after 5 t = z0 V c t := rfl
theorem after0_6 (c : Dev nD) (t : Fin cfg0.N) : (dat0 V c).after 6 t = sum0 V c t.val t.isLt := rfl
theorem after0_7 (c : Dev nD) (t : Fin cfg0.N) : (dat0 V c).after 7 t = sumsq0 V c t.val t.isLt := rfl

set_option maxHeartbeats 1600000 in
theorem body_obligation0 (c : Dev nD) : BodyObligation (dat0 (F := F) V c) (defs₀ (F := F)) Variants.none () Set.univ := fun t => by
  rw [bigSep_W0, bigSep_W0]
  show _ ⊢ wp _ _ _ (bodyAt0 t) _
  obtain ⟨_ | n, hn⟩ := t
  · refine mlp_tile (k := cc0__mlp_stats_kernel) rfl _ _ _ _ _ k0_pay2 k0_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc0__mlp_stats_kernel) rfl _ _ _ _ _ _ _ ?_ ?_ ?_ ?_ ?_ (.inr ⟨fun h => n.succ_ne_zero ((mlpCond_iff ⟨n + 1, hn⟩).1 h),
        mlp_acc _ 6 rfl N_0 flush0_6 (fun _ => rfl) (fun _ _ => rfl) n hn,
        mlp_acc _ 7 rfl N_0 flush0_7 (fun _ => rfl) (fun _ _ => rfl) n hn⟩) <;>
      (intro d; apply Dat.before_in_eq_fetched <;> intros <;> rfl)

end Cert.KernelIdeal.Hand

end
-- ==== Proof.KI.RegB.lean ====
import proofs.«430114_j32719060861414_1_alg».proof.Proof.Gen.KernelIdeal.Launch
import proofs.«430114_j32719060861414_1_alg».proof.Proof.Gen.KernelIdeal.Skeleton
import proofs.«430114_j32719060861414_1_alg».proof.Proof.Gen.KernelIdeal.Points
import Idealize.ShloMosaic.Lib.Pipeline.FrameBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

noncomputable abbrev regB_rz : Rect S10000x128 := Rect.unit (s := S10000x128) ![0, 0] S10000x128.size inb_S10000x128_S10000x128_0_0
noncomputable abbrev regB_rv : Rect S1x128 := Rect.unit (s := S1x128) ![0, 0] S1x128.size inb_S1x128_S1x128_0_0

-- a single write over the whole index set decides every later read
set_option maxHeartbeats 1000000 in
theorem regB_sound (c : Dev nD) (E : Set ℕ) (i : grid1.Coords) {a1 a6 : Memref sig .tc .vmem S10000x128 .f32}
    {a2 a3 a4 a5 : Memref sig .tc .vmem S1x128 .f32} (h1 : a1.IsWhole) (h2 : a2.IsWhole) (h3 : a3.IsWhole) (h4 : a4.IsWhole)
    (h5 : a5.IsWhole) (h6 : a6.IsWhole) (xz : Vec F S10000x128 .f32) (xm xv xg xb : Vec F S1x128 .f32) (out : Vec F S10000x128 .f32)
    (hout : out = View.canon [⟨regB_rz, k1_pay1 (View.ld xz regB_rz) (View.ld xv regB_rv) (View.ld xm regB_rv) (View.ld xg regB_rv) (View.ld xb regB_rv)⟩])
    (K : PUnit → sProp 𝕄) :
    iprop(owns (c : Thread nD τ) a1 fullShare xz ∗ owns (c : Thread nD τ) a2 fullShare xm ∗ owns (c : Thread nD τ) a3 fullShare xv
        ∗ owns (c : Thread nD τ) a4 fullShare xg ∗ owns (c : Thread nD τ) a5 fullShare xb ∗ (∃ d, owns (c : Thread nD τ) a6 fullShare d)
        ∗ (iprop(owns (c : Thread nD τ) a1 fullShare xz ∗ owns (c : Thread nD τ) a2 fullShare xm ∗ owns (c : Thread nD τ) a3 fullShare xv
            ∗ owns (c : Thread nD τ) a4 fullShare xg ∗ owns (c : Thread nD τ) a5 fullShare xb
            ∗ owns (c : Thread nD τ) a6 fullShare out) -∗ K ⟨⟩))
      ⊢ wp frame (wpE (defs₀ (F := F)) Variants.none c none) E (cc1__bn_relu_kernel i a1 h1 a2 h2 a3 h3 a4 h4 a5 h5 a6 h6) K := by
  subst hout
  simp only [cc1__bn_relu_kernel_eq_skeleton]; unfold cc1__bn_relu_kernel_skel owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S10000x128.size (by rfl))

end Cert.KernelIdeal.Hand

end
-- ==== Proof.KI.RegB1.lean ====
import proofs.«430114_j32719060861414_1_alg».proof.Proof.KI.RegB

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

noncomputable abbrev rz1 : Rect S10000x128 := Rect.unit (s := S10000x128) ![0, 0] S10000x128.size inb_S10000x128_S10000x128_0_0
noncomputable abbrev rv1 : Rect S1x128 := Rect.unit (s := S1x128) ![0, 0] S1x128.size inb_S1x128_S1x128_0_0

def out1_5 (xz : Vec F S10000x128 .f32) (xm xv xg xb : Vec F S1x128 .f32) : Vec F S10000x128 .f32 :=
  View.canon [⟨rz1, k1_pay1 (View.ld xz rz1) (View.ld xv rv1) (View.ld xm rv1) (View.ld xg rv1) (View.ld xb rv1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := rfl
theorem q_eq1 (c : Dev nD) (w : Fin cfg1.W) : (dat1 V c).q w = fullShare := rfl
theorem owed_eq1 (c : Dev nD) (t) : (dat1 V c).owed t = 0 := rfl
theorem recorded_eq1 (c : Dev nD) (t) : (dat1 V c).recorded t = Set.univ := rfl
theorem after1_5 (c : Dev nD) (t : Fin cfg1.N) : (dat1 V c).after 5 t =
    out1_5 (iblk1 V c 0 t) (iblk1 V c 1 t) (iblk1 V c 2 t) (iblk1 V c 3 t) (iblk1 V c 4 t) := by dsimp only [dat1]

-- every input is met at its own block of the entry contents, at every grid point
theorem before1 (c : Dev nD) : ∀ w : Fin cfg1.W, w ≠ 5 → ∀ t d, (dat1 V c).before w t d = (dat1 V c).after w t
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl)
  | ⟨5, _⟩, h => absurd rfl h

theorem body_obligation1 (c : Dev nD) : BodyObligation (dat1 (F := F) V c) (defs₀ (F := F)) Variants.none () Set.univ := fun t => by
  rw [bigSep_W1, bigSep_W1]
  simp +decide only [before1 V c]
  rw [show (dat1 V c).Φ t.succ = (dat1 V c).Φ t.castSucc from rfl, show (dat1 V c).owesAt () t.succ = (dat1 V c).owesAt () t.castSucc from rfl]
  refine .trans ?_ (regB_sound c Set.univ (grid1.coords t) (hstage1_0 _) (hstage1_1 _) (hstage1_2 _) (hstage1_3 _) (hstage1_4 _) (hstage1_5 _)
    ((dat1 V c).after 0 t) ((dat1 V c).after 1 t) ((dat1 V c).after 2 t) ((dat1 V c).after 3 t) ((dat1 V c).after 4 t) _ (after1_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin1 (c : Dev nD) : Pipeline.ΦA spec1 c ⊢ (dat1 V c).Φ 0 := .rfl
theorem hout1 (c : Dev nD) : (dat1 V c).Φ (Fin.last cfg1.N) ⊢ Pipeline.ΦA spec1 c := .rfl

end Cert.KernelIdeal.Hand

end
-- ==== Proof.KI.RegM2.lean ====
import proofs.«430114_j32719060861414_1_alg».proof.Proof.KI.RegM

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev xb2 (c : Dev nD) (t : Fin cfg2.N) : Vec F S10000x128 .f32 := iblk2 V c 0 t
abbrev w1b2 (c : Dev nD) (t : Fin cfg2.N) : Vec F S128x128 .f32 := iblk2 V c 1 t
abbrev b1b2 (c : Dev nD) (t : Fin cfg2.N) : Vec F S1x128 .f32 := iblk2 V c 2 t
abbrev w2b2 (c : Dev nD) (t : Fin cfg2.N) : Vec F S128x128 .f32 := iblk2 V c 3 t
abbrev b2b2 (c : Dev nD) (t : Fin cfg2.N) : Vec F S1x128 .f32 := iblk2 V c 4 t

def z2 (c : Dev nD) (t : Fin cfg2.N) : Vec F S10000x128 .f32 :=
  k2_pay4 (xb2 V c t) (w1b2 V c t) (b1b2 V c t) (w2b2 V c t) (b2b2 V c t)

def sum2 (c : Dev nD) : (n : ℕ) → n < cfg2.N → Vec F S1x128 .f32
  | 0, hn => k2_pay5 (xb2 V c ⟨0, hn⟩) (w1b2 V c ⟨0, hn⟩) (b1b2 V c ⟨0, hn⟩) (w2b2 V c ⟨0, hn⟩) (b2b2 V c ⟨0, hn⟩) (k2_pay2 (F := F))
  | n + 1, hn => k2_pay5 (xb2 V c ⟨n + 1, hn⟩) (w1b2 V c ⟨n + 1, hn⟩) (b1b2 V c ⟨n + 1, hn⟩) (w2b2 V c ⟨n + 1, hn⟩) (b2b2 V c ⟨n + 1, hn⟩)
      (sum2 c n (Nat.lt_of_succ_lt hn))

def sumsq2 (c : Dev nD) : (n : ℕ) → n < cfg2.N → Vec F S1x128 .f32
  | 0, hn => k2_pay1 (k2_pay6 (k2_pay3 (F := F)))
      (k2_pay7 (xb2 V c ⟨0, hn⟩) (w1b2 V c ⟨0, hn⟩) (b1b2 V c ⟨0, hn⟩) (w2b2 V c ⟨0, hn⟩) (b2b2 V c ⟨0, hn⟩))
  | n + 1, hn => k2_pay1 (k2_pay6 (sumsq2 c n (Nat.lt_of_succ_lt hn)))
      (k2_pay7 (xb2 V c ⟨n + 1, hn⟩) (w1b2 V c ⟨n + 1, hn⟩) (b1b2 V c ⟨n + 1, hn⟩) (w2b2 V c ⟨n + 1, hn⟩) (b2b2 V c ⟨n + 1, hn⟩))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => z2 V c t
    | ⟨6, _⟩ => sum2 V c t.val t.isLt
    | ⟨7, _⟩ => sumsq2 V c t.val t.isLt
  Φ _ := Pipeline.ΦA spec2 c
  q _ := fullShare
  owed _ := 0

theorem A_eq2 (c : Dev nD) (w : Fin cfg2.W) : (dat2 V c).A w = V c (Pipeline.arrRef spec2 w) := rfl
theorem q_eq2 (c : Dev nD) (w : Fin cfg2.W) : (dat2 V c).q w = fullShare := rfl
theorem owed_eq2 (c : Dev nD) (t : Fin (cfg2.N + 1)) : (dat2 V c).owed t = 0 := rfl
theorem recorded_eq2 (c : Dev nD) (t : Fin (cfg2.N + 1)) : (dat2 V c).recorded t = Set.univ := rfl
theorem hin2 (c : Dev nD) : Pipeline.ΦA spec2 c ⊢ (dat2 V c).Φ 0 := .rfl
theorem hout2 (c : Dev nD) : (dat2 V c).Φ (Fin.last cfg2.N) ⊢ Pipeline.ΦA spec2 c := .rfl
theorem after2_5 (c : Dev nD) (t : Fin cfg2.N) : (dat2 V c).after 5 t = z2 V c t := rfl
theorem after2_6 (c : Dev nD) (t : Fin cfg2.N) : (dat2 V c).after 6 t = sum2 V c t.val t.isLt := rfl
theorem after2_7 (c : Dev nD) (t : Fin cfg2.N) : (dat2 V c).after 7 t = sumsq2 V c t.val t.isLt := rfl

set_option maxHeartbeats 1600000 in
theorem body_obligation2 (c : Dev nD) : BodyObligation (dat2 (F := F) V c) (defs₀ (F := F)) Variants.none () Set.univ := fun t => by
  rw [bigSep_W2, bigSep_W2]
  show _ ⊢ wp _ _ _ (bodyAt2 t) _
  obtain ⟨_ | n, hn⟩ := t
  · refine mlp_tile (k := cc2__mlp_stats_kernel) rfl _ _ _ _ _ k2_pay2 k2_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc2__mlp_stats_kernel) rfl _ _ _ _ _ _ _ ?_ ?_ ?_ ?_ ?_ (.inr ⟨fun h => n.succ_ne_zero ((mlpCond_iff ⟨n + 1, hn⟩).1 h),
        mlp_acc _ 6 rfl N_2 flush2_6 (fun _ => rfl) (fun _ _ => rfl) n hn,
        mlp_acc _ 7 rfl N_2 flush2_7 (fun _ => rfl) (fun _ _ => rfl) n hn⟩) <;>
      (intro d; apply Dat.before_in_eq_fetched <;> intros <;> rfl)

end Cert.KernelIdeal.Hand

end
-- ==== Proof.KI.RegB3.lean ====
import proofs.«430114_j32719060861414_1_alg».proof.Proof.KI.RegB

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

noncomputable abbrev rz3 : Rect S10000x128 := Rect.unit (s := S10000x128) ![0, 0] S10000x128.size inb_S10000x128_S10000x128_0_0
noncomputable abbrev rv3 : Rect S1x128 := Rect.unit (s := S1x128) ![0, 0] S1x128.size inb_S1x128_S1x128_0_0

def out3_5 (xz : Vec F S10000x128 .f32) (xm xv xg xb : Vec F S1x128 .f32) : Vec F S10000x128 .f32 :=
  View.canon [⟨rz3, k3_pay1 (View.ld xz rz3) (View.ld xv rv3) (View.ld xm rv3) (View.ld xg rv3) (View.ld xb rv3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t) : (dat3 V c).owed t = 0 := rfl
theorem recorded_eq3 (c : Dev nD) (t) : (dat3 V c).recorded t = Set.univ := rfl
theorem after3_5 (c : Dev nD) (t : Fin cfg3.N) : (dat3 V c).after 5 t =
    out3_5 (iblk3 V c 0 t) (iblk3 V c 1 t) (iblk3 V c 2 t) (iblk3 V c 3 t) (iblk3 V c 4 t) := by dsimp only [dat3]

-- every input is met at its own block of the entry contents, at every grid point
theorem before3 (c : Dev nD) : ∀ w : Fin cfg3.W, w ≠ 5 → ∀ t d, (dat3 V c).before w t d = (dat3 V c).after w t
  | ⟨0, _⟩, _ | ⟨1, _⟩, _ | ⟨2, _⟩, _ | ⟨3, _⟩, _ | ⟨4, _⟩, _ =>
    (dat3 V c).before_in_eq_fetched _ rfl (fun _ => rfl) (fun _ _ _ => rfl) (fun _ => rfl)
  | ⟨5, _⟩, h => absurd rfl h

theorem body_obligation3 (c : Dev nD) : BodyObligation (dat3 (F := F) V c) (defs₀ (F := F)) Variants.none () Set.univ := fun t => by
  rw [bigSep_W3, bigSep_W3]
  simp +decide only [before3 V c]
  rw [show (dat3 V c).Φ t.succ = (dat3 V c).Φ t.castSucc from rfl, show (dat3 V c).owesAt () t.succ = (dat3 V c).owesAt () t.castSucc from rfl]
  refine .trans ?_ (regB_sound c Set.univ (grid3.coords t) (hstage3_0 _) (hstage3_1 _) (hstage3_2 _) (hstage3_3 _) (hstage3_4 _) (hstage3_5 _)
    ((dat3 V c).after 0 t) ((dat3 V c).after 1 t) ((dat3 V c).after 2 t) ((dat3 V c).after 3 t) ((dat3 V c).after 4 t) _ (after3_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin3 (c : Dev nD) : Pipeline.ΦA spec3 c ⊢ (dat3 V c).Φ 0 := .rfl
theorem hout3 (c : Dev nD) : (dat3 V c).Φ (Fin.last cfg3.N) ⊢ Pipeline.ΦA spec3 c := .rfl

end Cert.KernelIdeal.Hand

end
-- ==== Proof.KI.RegM4.lean ====
import proofs.«430114_j32719060861414_1_alg».proof.Proof.KI.RegM

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev xb4 (c : Dev nD) (t : Fin cfg4.N) : Vec F S10000x128 .f32 := iblk4 V c 0 t
abbrev w1b4 (c : Dev nD) (t : Fin cfg4.N) : Vec F S128x128 .f32 := iblk4 V c 1 t
abbrev b1b4 (c : Dev nD) (t : Fin cfg4.N) : Vec F S1x128 .f32 := iblk4 V c 2 t
abbrev w2b4 (c : Dev nD) (t : Fin cfg4.N) : Vec F S128x128 .f32 := iblk4 V c 3 t
abbrev b2b4 (c : Dev nD) (t : Fin cfg4.N) : Vec F S1x128 .f32 := iblk4 V c 4 t

def z4 (c : Dev nD) (t : Fin cfg4.N) : Vec F S10000x128 .f32 :=
  k4_pay4 (xb4 V c t) (w1b4 V c t) (b1b4 V c t) (w2b4 V c t) (b2b4 V c t)

def sum4 (c : Dev nD) : (n : ℕ) → n < cfg4.N → Vec F S1x128 .f32
  | 0, hn => k4_pay5 (xb4 V c ⟨0, hn⟩) (w1b4 V c ⟨0, hn⟩) (b1b4 V c ⟨0, hn⟩) (w2b4 V c ⟨0, hn⟩) (b2b4 V c ⟨0, hn⟩) (k4_pay2 (F := F))
  | n + 1, hn => k4_pay5 (xb4 V c ⟨n + 1, hn⟩) (w1b4 V c ⟨n + 1, hn⟩) (b1b4 V c ⟨n + 1, hn⟩) (w2b4 V c ⟨n + 1, hn⟩) (b2b4 V c ⟨n + 1, hn⟩)
      (sum4 c n (Nat.lt_of_succ_lt hn))

def sumsq4 (c : Dev nD) : (n : ℕ) → n < cfg4.N → Vec F S1x128 .f32
  | 0, hn => k4_pay1 (k4_pay6 (k4_pay3 (F := F)))
      (k4_pay7 (xb4 V c ⟨0, hn⟩) (w1b4 V c ⟨0, hn⟩) (b1b4 V c ⟨0, hn⟩) (w2b4 V c ⟨0, hn⟩) (b2b4 V c ⟨0, hn⟩))
  | n + 1, hn => k4_pay1 (k4_pay6 (sumsq4 c n (Nat.lt_of_succ_lt hn)))
      (k4_pay7 (xb4 V c ⟨n + 1, hn⟩) (w1b4 V c ⟨n + 1, hn⟩) (b1b4 V c ⟨n + 1, hn⟩) (w2b4 V c ⟨n + 1, hn⟩) (b2b4 V c ⟨n + 1, hn⟩))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => z4 V c t
    | ⟨6, _⟩ => sum4 V c t.val t.isLt
    | ⟨7, _⟩ => sumsq4 V c t.val t.isLt
  Φ _ := Pipeline.ΦA spec4 c
  q _ := fullShare
  owed _ := 0

theorem A_eq4 (c : Dev nD) (w : Fin cfg4.W) : (dat4 V c).A w = V c (Pipeline.arrRef spec4 w) := rfl
theorem q_eq4 (c : Dev nD) (w : Fin cfg4.W) : (dat4 V c).q w = fullShare := rfl
theorem owed_eq4 (c : Dev nD) (t : Fin (cfg4.N + 1)) : (dat4 V c).owed t = 0 := rfl
theorem recorded_eq4 (c : Dev nD) (t : Fin (cfg4.N + 1)) : (dat4 V c).recorded t = Set.univ := rfl
theorem hin4 (c : Dev nD) : Pipeline.ΦA spec4 c ⊢ (dat4 V c).Φ 0 := .rfl
theorem hout4 (c : Dev nD) : (dat4 V c).Φ (Fin.last cfg4.N) ⊢ Pipeline.ΦA spec4 c := .rfl
theorem after4_5 (c : Dev nD) (t : Fin cfg4.N) : (dat4 V c).after 5 t = z4 V c t := rfl
theorem after4_6 (c : Dev nD) (t : Fin cfg4.N) : (dat4 V c).after 6 t = sum4 V c t.val t.isLt := rfl
theorem after4_7 (c : Dev nD) (t : Fin cfg4.N) : (dat4 V c).after 7 t = sumsq4 V c t.val t.isLt := rfl

set_option maxHeartbeats 1600000 in
theorem body_obligation4 (c : Dev nD) : BodyObligation (dat4 (F := F) V c) (defs₀ (F := F)) Variants.none () Set.univ := fun t => by
  rw [bigSep_W4, bigSep_W4]
  show _ ⊢ wp _ _ _ (bodyAt4 t) _
  obtain ⟨_ | n, hn⟩ := t
  · refine mlp_tile (k := cc4__mlp_stats_kernel) rfl _ _ _ _ _ k4_pay2 k4_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc4__mlp_stats_kernel) rfl _ _ _ _ _ _ _ ?_ ?_ ?_ ?_ ?_ (.inr ⟨fun h => n.succ_ne_zero ((mlpCond_iff ⟨n + 1, hn⟩).1 h),
        mlp_acc _ 6 rfl N_4 flush4_6 (fun _ => rfl) (fun _ _ => rfl) n hn,
        mlp_acc _ 7 rfl N_4 flush4_7 (fun _ => rfl) (fun _ _ => rfl) n hn⟩) <;>
      (intro d; apply Dat.before_in_eq_fetched <;> intros <;> rfl)

end Cert.KernelIdeal.Hand

end
-- ==== Proof.KI.RegB5.lean ====
import proofs.«430114_j32719060861414_1_alg».proof.Proof.KI.RegB

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

noncomputable abbrev rz5 : Rect S10000x128 := Rect.unit (s := S10000x128) ![0, 0] S10000x128.size inb_S10000x128_S10000x128_0_0
noncomputable abbrev rv5 : Rect S1x128 := Rect.unit (s := S1x128) ![0, 0] S1x128.size inb_S1x128_S1x128_0_0

def out5_5 (xz : Vec F S10000x128 .f32) (xm xv xg xb : Vec F S1x128 .f32) : Vec F S10000x128 .f32 :=
  View.canon [⟨rz5, k5_pay1 (View.ld xz rz5) (View.ld xv rv5) (View.ld xm rv5) (View.ld xg rv5) (View.ld xb rv5)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := rfl
theorem q_eq5 (c : Dev nD) (w : Fin cfg5.W) : (dat5 V c).q w = fullShare := rfl
theorem owed_eq5 (c : Dev nD) (t) : (dat5 V c).owed t = 0 := rfl
theorem recorded_eq5 (c : Dev nD) (t) : (dat5 V c).recorded t = Set.univ := rfl
theorem after5_5 (c : Dev nD) (t : Fin cfg5.N) : (dat5 V c).after 5 t =
    out5_5 (iblk5 V c 0 t) (iblk5 V c 1 t) (iblk5 V c 2 t) (iblk5 V c 3 t) (iblk5 V c 4 t) := by dsimp only [dat5]

-- every input is met at its own block of the entry contents, at every grid point
theorem before5 (c : Dev nD) : ∀ w : Fin cfg5.W, w ≠ 5 → ∀ t d, (dat5 V c).before w t d = (dat5 V c).after w t
  | ⟨0, _⟩, _ | ⟨1, _⟩, _ | ⟨2, _⟩, _ | ⟨3, _⟩, _ | ⟨4, _⟩, _ =>
    (dat5 V c).before_in_eq_fetched _ rfl (fun _ => rfl) (fun _ _ _ => rfl) (fun _ => rfl)
  | ⟨5, _⟩, h => absurd rfl h

theorem body_obligation5 (c : Dev nD) : BodyObligation (dat5 (F := F) V c) (defs₀ (F := F)) Variants.none () Set.univ := fun t => by
  rw [bigSep_W5, bigSep_W5]
  simp +decide only [before5 V c]
  rw [show (dat5 V c).Φ t.succ = (dat5 V c).Φ t.castSucc from rfl, show (dat5 V c).owesAt () t.succ = (dat5 V c).owesAt () t.castSucc from rfl]
  refine .trans ?_ (regB_sound c Set.univ (grid5.coords t) (hstage5_0 _) (hstage5_1 _) (hstage5_2 _) (hstage5_3 _) (hstage5_4 _) (hstage5_5 _)
    ((dat5 V c).after 0 t) ((dat5 V c).after 1 t) ((dat5 V c).after 2 t) ((dat5 V c).after 3 t) ((dat5 V c).after 4 t) _ (after5_5 V c t) _)
  iintro ⟨HΦ, Ho, ⟨%d0, H0⟩, ⟨%d1, H1⟩, ⟨%d2, H2⟩, ⟨%d3, H3⟩, ⟨%d4, H4⟩, ⟨%d5, H5⟩⟩
  iframe H0 H1 H2 H3 H4
  isplitl [H5]; · iexists _; iexact H5
  iintro ⟨H0, H1, H2, H3, H4, H5⟩
  iframe

theorem hin5 (c : Dev nD) : Pipeline.ΦA spec5 c ⊢ (dat5 V c).Φ 0 := .rfl
theorem hout5 (c : Dev nD) : (dat5 V c).Φ (Fin.last cfg5.N) ⊢ Pipeline.ΦA spec5 c := .rfl

end Cert.KernelIdeal.Hand

end
-- ==== Proof.KI.RegM6.lean ====
import proofs.«430114_j32719060861414_1_alg».proof.Proof.KI.RegM

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev xb6 (c : Dev nD) (t : Fin cfg6.N) : Vec F S10000x128 .f32 := iblk6 V c 0 t
abbrev w1b6 (c : Dev nD) (t : Fin cfg6.N) : Vec F S128x128 .f32 := iblk6 V c 1 t
abbrev b1b6 (c : Dev nD) (t : Fin cfg6.N) : Vec F S1x128 .f32 := iblk6 V c 2 t
abbrev w2b6 (c : Dev nD) (t : Fin cfg6.N) : Vec F S128x128 .f32 := iblk6 V c 3 t
abbrev b2b6 (c : Dev nD) (t : Fin cfg6.N) : Vec F S1x128 .f32 := iblk6 V c 4 t

def z6 (c : Dev nD) (t : Fin cfg6.N) : Vec F S10000x128 .f32 :=
  k6_pay4 (xb6 V c t) (w1b6 V c t) (b1b6 V c t) (w2b6 V c t) (b2b6 V c t)

def sum6 (c : Dev nD) : (n : ℕ) → n < cfg6.N → Vec F S1x128 .f32
  | 0, hn => k6_pay5 (xb6 V c ⟨0, hn⟩) (w1b6 V c ⟨0, hn⟩) (b1b6 V c ⟨0, hn⟩) (w2b6 V c ⟨0, hn⟩) (b2b6 V c ⟨0, hn⟩) (k6_pay2 (F := F))
  | n + 1, hn => k6_pay5 (xb6 V c ⟨n + 1, hn⟩) (w1b6 V c ⟨n + 1, hn⟩) (b1b6 V c ⟨n + 1, hn⟩) (w2b6 V c ⟨n + 1, hn⟩) (b2b6 V c ⟨n + 1, hn⟩)
      (sum6 c n (Nat.lt_of_succ_lt hn))

def sumsq6 (c : Dev nD) : (n : ℕ) → n < cfg6.N → Vec F S1x128 .f32
  | 0, hn => k6_pay1 (k6_pay6 (k6_pay3 (F := F)))
      (k6_pay7 (xb6 V c ⟨0, hn⟩) (w1b6 V c ⟨0, hn⟩) (b1b6 V c ⟨0, hn⟩) (w2b6 V c ⟨0, hn⟩) (b2b6 V c ⟨0, hn⟩))
  | n + 1, hn => k6_pay1 (k6_pay6 (sumsq6 c n (Nat.lt_of_succ_lt hn)))
      (k6_pay7 (xb6 V c ⟨n + 1, hn⟩) (w1b6 V c ⟨n + 1, hn⟩) (b1b6 V c ⟨n + 1, hn⟩) (w2b6 V c ⟨n + 1, hn⟩) (b2b6 V c ⟨n + 1, hn⟩))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => z6 V c t
    | ⟨6, _⟩ => sum6 V c t.val t.isLt
    | ⟨7, _⟩ => sumsq6 V c t.val t.isLt
  Φ _ := Pipeline.ΦA spec6 c
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl
theorem hin6 (c : Dev nD) : Pipeline.ΦA spec6 c ⊢ (dat6 V c).Φ 0 := .rfl
theorem hout6 (c : Dev nD) : (dat6 V c).Φ (Fin.last cfg6.N) ⊢ Pipeline.ΦA spec6 c := .rfl
theorem after6_5 (c : Dev nD) (t : Fin cfg6.N) : (dat6 V c).after 5 t = z6 V c t := rfl
theorem after6_6 (c : Dev nD) (t : Fin cfg6.N) : (dat6 V c).after 6 t = sum6 V c t.val t.isLt := rfl
theorem after6_7 (c : Dev nD) (t : Fin cfg6.N) : (dat6 V c).after 7 t = sumsq6 V c t.val t.isLt := rfl

set_option maxHeartbeats 1600000 in
theorem body_obligation6 (c : Dev nD) : BodyObligation (dat6 (F := F) V c) (defs₀ (F := F)) Variants.none () Set.univ := fun t => by
  rw [bigSep_W6, bigSep_W6]
  show _ ⊢ wp _ _ _ (bodyAt6 t) _
  obtain ⟨_ | n, hn⟩ := t
  · refine mlp_tile (k := cc6__mlp_stats_kernel) rfl _ _ _ _ _ k6_pay2 k6_pay3 ?_ ?_ ?_ ?_ ?_ (.inl ⟨(mlpCond_iff ⟨0, hn⟩).2 rfl, rfl, rfl⟩) <;>
      (intro d; apply Dat.before_in_eq_fetched <;> intros <;> rfl)
  · refine mlp_tile (k := cc6__mlp_stats_kernel) rfl _ _ _ _ _ _ _ ?_ ?_ ?_ ?_ ?_ (.inr ⟨fun h => n.succ_ne_zero ((mlpCond_iff ⟨n + 1, hn⟩).1 h),
        mlp_acc _ 6 rfl N_6 flush6_6 (fun _ => rfl) (fun _ _ => rfl) n hn,
        mlp_acc _ 7 rfl N_6 flush6_7 (fun _ => rfl) (fun _ _ => rfl) n hn⟩) <;>
      (intro d; apply Dat.before_in_eq_fetched <;> intros <;> rfl)

end Cert.KernelIdeal.Hand

end
-- ==== Proof.KI.RegP7.lean ====
import proofs.«430114_j32719060861414_1_alg».proof.Proof.Gen.KernelIdeal.Launch
import proofs.«430114_j32719060861414_1_alg».proof.Proof.Gen.KernelIdeal.Skeleton
import proofs.«430114_j32719060861414_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

noncomputable abbrev hblk7 (c : Dev nD) (t : Fin cfg7.N) : Vec F S10000x128 .f32 := iblk7 V c 0 t
noncomputable abbrev bblk7 (c : Dev nD) (t : Fin cfg7.N) : Vec F S10000x1 .i32 := iblk7 V c 1 t

abbrev cond7_0 (i : grid7.Coords) : Prop := (Scalar.cmpi .ne (Scalar.extui (Scalar.cmpi .eq (BitVec.ofNat 32 (i 0).val) 0#32)) 0#32) = 1#1
theorem hcond7_0 : ∀ t : Fin cfg7.N, cond7_0 (grid7.coords t) ↔ t.val % 5 = 0 :=
  (by decide +kernel : ∀ t : Fin grid7.N, cond7_0 (grid7.coords t) ↔ t.val % 5 = 0)

abbrev cond7_1 (i : grid7.Coords) : Prop := k7_cond2 i = 1#1
theorem hcond7_1 : ∀ t : Fin cfg7.N, cond7_1 (grid7.coords t) ↔ t.val % 5 = 4 :=
  (by decide +kernel : ∀ t : Fin grid7.N, cond7_1 (grid7.coords t) ↔ t.val % 5 = 4)

theorem liveAt7_0 : ∀ t : Fin cfg7.N, cfg7.idle 0 (grid7.coords t) = false := by decide +kernel
theorem liveAt7_1 : ∀ t : Fin cfg7.N, cfg7.idle 1 (grid7.coords t) = false := by decide +kernel
theorem idleAt7_2 : ∀ t : Fin cfg7.N, ¬cond7_1 (grid7.coords t) → idle7 2 (grid7.coords t) = true := by decide +kernel
theorem noFlush7_2 : ∀ t : Fin cfg7.N, ¬cond7_1 (grid7.coords t) → (cfg7.win 2).flush t = false := by decide +kernel
theorem liveAt7_2 : ∀ t : Fin cfg7.N, cond7_1 (grid7.coords t) → idle7 2 (grid7.coords t) = false := by decide +kernel

theorem hz7 : (![0, 0] : Fin 2 → Nat) = fun _ => 0 := funext fun a => by fin_cases a <;> rfl

-- one statement for every grid point: the running sum starts from zero at the first point and is the output at the last
set_option maxHeartbeats 1000000 in
theorem sound_kernel7 (c : Dev nD) (E : Set ℕ) (i : grid7.Coords) {a1 : Memref sig .tc .vmem S10000x128 .f32}
    {a2 : Memref sig .tc .vmem S10000x1 .i32} {a3 a4 : Memref sig .tc .vmem S128x128 .f32}
    (h1 : a1.IsWhole) (h2 : a2.IsWhole) (h3 : a3.IsWhole) (h4 : a4.IsWhole) (hc : ¬(cond7_0 i ∧ cond7_1 i))
    (x0 : Vec F S10000x128 .f32) (x1 : Vec F S10000x1 .i32) (d xs : Vec F S128x128 .f32) (K : PUnit → sProp 𝕄) :
    iprop(owns (c : Thread nD τ) a1 fullShare x0 ∗ owns (c : Thread nD τ) a2 fullShare x1 ∗ owns (c : Thread nD τ) a3 fullShare d
        ∗ owns (c : Thread nD τ) a4 fullShare xs
        ∗ (iprop(owns (c : Thread nD τ) a1 fullShare x0 ∗ owns (c : Thread nD τ) a2 fullShare x1
            ∗ owns (c : Thread nD τ) a3 fullShare (if cond7_1 i then k7_pay2 x1 x0 xs else d)
            ∗ owns (c : Thread nD τ) a4 fullShare (k7_pay2 x1 x0 (if cond7_0 i then k7_pay1 (F := F) else xs))) -∗ K ⟨⟩))
      ⊢ wp frame (wpE (defs₀ (F := F)) Variants.none c none) E (cc7__pool_kernel i a1 h1 a2 h2 a3 h3 a4 h4) K := by
  simp only [cc7__pool_kernel_eq_skeleton]; unfold cc7__pool_kernel_skel owns
  iintro ⟨⟨%f0, %e0, H0⟩, ⟨%f1, %e1, H1⟩, ⟨%f3, %e3, H3⟩, ⟨%fs, %es, HS⟩, Hk⟩
  subst e0 e1 e3 es
  by_cases hc0 : cond7_0 i <;> by_cases hc1 : cond7_1 i
  · exact absurd ⟨hc0, hc1⟩ hc
  all_goals
    first | rw [if_pos hc0] | rw [if_neg hc0]
    first | rw [if_pos hc1] | rw [if_neg hc1]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    isplitl [H3]
    · iexists _; isplitr
      swap; · iexact H3
      ipureintro
      first
      | rfl
      | (sl_unfold_words
         rw [View.read_writes_eq_canon _ _ _ (fun y => ⟨_, List.mem_cons_self .., View.mem_set_unit_zero hz7 inb_S128x128_S128x128_0_0 y⟩)]
         rw [View.canon_cons_unit_zero (S := S128x128) hz7]
         simp only [View.readAt_eq_ld, View.readCov_unit_zero (S := S128x128) _ hz7, View.ld_unit_zero (S := S10000x128) hz7,
           View.ld_unit_zero (S := S10000x1) hz7, View.ld_unit_zero (S := S128x128) hz7])
    iexists _; isplitr
    swap; · iexact HS
    ipureintro
    try sl_unfold_words
    rw [View.read_writes_eq_canon _ _ _ (fun y => ⟨_, List.mem_cons_self .., View.mem_set_unit_zero hz7 inb_S128x128_S128x128_0_0 y⟩)]
    rw [View.canon_cons_unit_zero (S := S128x128) hz7]
    simp only [View.readAt_eq_ld, View.readCov_unit_zero (S := S128x128) _ hz7, View.ld_unit_zero (S := S10000x128) hz7,
      View.ld_unit_zero (S := S10000x1) hz7, View.ld_unit_zero (S := S128x128) hz7]

def scr7 (c : Dev nD) : (n : ℕ) → n < cfg7.N → Vec F S128x128 .f32
  | 0, hn => k7_pay2 (bblk7 V c ⟨0, hn⟩) (hblk7 V c ⟨0, hn⟩) (k7_pay1 (F := F))
  | n + 1, hn => k7_pay2 (bblk7 V c ⟨n + 1, hn⟩) (hblk7 V c ⟨n + 1, hn⟩) (scr7 c n (Nat.lt_of_succ_lt hn))

noncomputable abbrev scM7 : Memref sig .tc .vmem S128x128 .f32 := Memref.whole cc7_scratch0

noncomputable abbrev restBut7 (c : Dev nD) : sProp 𝕄 :=
  Pipeline.scopedRestBut (Ix := Unit) (Name := ℕ) (U := UR sig nD τ) (Lvl := ℕ) (Val := Elt F) spec7 c [cc7_scratch0]

theorem PhiA7_eq (c : Dev nD) :
    (Pipeline.ΦA spec7 c : sProp 𝕄)
      = iprop(iprop((∃ d, owns (c : Thread nD τ) scM7 fullShare d) ∗ restBut7 (F := F) c) ∗ (∃ r, prngReg c r)) := by
  unfold Pipeline.ΦA; rw [scopedRest7_split]; simp only [scM7, owns_whole]; try rfl

-- from the second point on, the invariant names the running sum after the point before
noncomputable def PhiS7 (c : Dev nD) : (n : ℕ) → n ≤ cfg7.N → sProp 𝕄
  | 0, _ => Pipeline.ΦA spec7 c
  | n + 1, hn => iprop(iprop(owns (c : Thread nD τ) scM7 fullShare (scr7 V c n hn) ∗ restBut7 (F := F) c) ∗ (∃ r, prngReg c r))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => scr7 V c t.val t.isLt
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t) : (dat7 V c).owed t = 0 := by
  dsimp only [dat7]
theorem recorded_eq7 (c : Dev nD) (t) : (dat7 V c).recorded t = Set.univ := rfl

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = scr7 V c t.val t.isLt := by dsimp only [dat7]

theorem before7_0 (c : Dev nD) (t : Fin cfg7.N) (d) : (dat7 V c).before 0 t d = iblk7 V c 0 t :=
  (dat7 V c).before_in_eq_fetched 0 rfl (fun _ => rfl) (fun _ _ _ => rfl) (fun _ => rfl) t d
theorem before7_1 (c : Dev nD) (t : Fin cfg7.N) (d) : (dat7 V c).before 1 t d = iblk7 V c 1 t :=
  (dat7 V c).before_in_eq_fetched 1 rfl (fun _ => rfl) (fun _ _ _ => rfl) (fun _ => rfl) t d

-- the running sum after point t is t's product added to the sum the invariant names (to zero at the first point)
theorem PhiS7_open (c : Dev nD) : ∀ t : Fin cfg7.N,
    PhiS7 V c t.val (Nat.le_of_lt t.isLt) ⊢ iprop(∃ xs, ⌜scr7 V c t.val t.isLt
        = k7_pay2 (bblk7 V c t) (hblk7 V c t) (if cond7_0 (grid7.coords t) then k7_pay1 (F := F) else xs)⌝
      ∗ iprop(owns (c : Thread nD τ) scM7 fullShare xs ∗ restBut7 (F := F) c) ∗ (∃ r, prngReg c r))
  | ⟨0, h⟩ => by
    show Pipeline.ΦA spec7 c ⊢ _
    rw [PhiA7_eq]
    iintro ⟨⟨⟨%d, HS⟩, HR⟩, Hg⟩
    iexists d; isplitr; · ipureintro; rw [if_pos ((hcond7_0 ⟨0, h⟩).mpr rfl)]; rfl
    isplitr [Hg]
    · isplitl [HS]; · iexact HS
      iexact HR
    iexact Hg
  | ⟨n + 1, h⟩ => by
    simp only [PhiS7]
    iintro H
    iexists _; isplitr
    · ipureintro
      rw [if_neg (fun hc => by have : (n + 1) % 5 = 0 := (hcond7_0 ⟨n + 1, h⟩).mp hc; have : n + 1 < 5 := lt_of_lt_of_eq h N_7; omega)]; rfl
    iexact H

theorem body_obligation7 (c : Dev nD) : BodyObligation (dat7 (F := F) V c) (defs₀ (F := F)) Variants.none () Set.univ := fun t => by
  have hc : ¬(cond7_0 (grid7.coords t) ∧ cond7_1 (grid7.coords t)) := fun h => by
    have := (hcond7_0 t).mp h.1; have := (hcond7_1 t).mp h.2; omega
  rw [bigSep_W7, bigSep_W7]
  show _ ⊢ wp _ _ _ (bodyAt7 t) _
  unfold bodyAt7
  simp only [before7_0, before7_1, liveAt7_0 t, liveAt7_1 t, after7_0, after7_1, after7_2]
  rw [show (dat7 V c).owesAt () t.succ = (dat7 V c).owesAt () t.castSucc from rfl,
    show (dat7 V c).Φ t.succ = iprop(iprop(owns (c : Thread nD τ) scM7 fullShare (scr7 V c t.val t.isLt) ∗ restBut7 (F := F) c) ∗ (∃ r, prngReg c r)) from rfl,
    PhiS7_castSucc V c t]
  iintro ⟨HΦ, Ho, ⟨%d0, H0⟩, ⟨%d1, H1⟩, ⟨%d2, H2⟩⟩
  ihave HΦ := (PhiS7_open V c t) $$ HΦ
  icases HΦ with ⟨%xs, %hxs, ⟨HS, HR⟩, Hg⟩
  rw [hxs]
  iapply (sound_kernel7 c Set.univ _ _ _ _ _ hc (hblk7 V c t) (bblk7 V c t) _ xs _)
  isplitl [H0]; · iexact H0
  isplitl [H1]; · iexact H1
  isplitl [H2]; · iexact H2
  isplitl [HS]; · iexact HS
  iintro ⟨H0, H1, H2, HS⟩
  isplitl [HS HR Hg]
  · isplitr [Hg]
    · isplitl [HS]; · iexact HS
      iexact HR
    iexact Hg
  isplitl [Ho]; · iexact Ho
  isplitl [H0]; · iexact H0
  isplitl [H1]; · iexact H1
  by_cases h1 : cond7_1 (grid7.coords t)
  · simp only [liveAt7_2 t h1, if_pos h1, if_neg (fun h0 => hc ⟨h0, h1⟩)]; iexact H2
  · simp only [idleAt7_2 t h1, noFlush7_2 t h1, if_neg h1]; iexists _; iexact H2

theorem hin7 (c : Dev nD) : Pipeline.ΦA spec7 c ⊢ (dat7 V c).Φ 0 := .rfl

theorem hout7 (c : Dev nD) : (dat7 V c).Φ (Fin.last cfg7.N) ⊢ Pipeline.ΦA spec7 c := by
  rw [PhiA7_eq]
  show iprop(iprop(owns (c : Thread nD τ) scM7 fullShare (scr7 V c 4 (by decide)) ∗ restBut7 (F := F) c) ∗ (∃ r, prngReg c r)) ⊢ _
  iintro ⟨⟨HS, HR⟩, Hg⟩
  isplitr [Hg]
  · isplitl [HS]
    · iexists _; iexact HS
    iexact HR
  iexact Hg

end Cert.KernelIdeal.Hand

end
-- ==== Proof.KI.Run.lean ====
import proofs.«430114_j32719060861414_1_alg».proof.Proof.Gen.KernelIdeal.Regions
import proofs.«430114_j32719060861414_1_alg».proof.Proof.KI.RegM0
import proofs.«430114_j32719060861414_1_alg».proof.Proof.KI.RegB1
import proofs.«430114_j32719060861414_1_alg».proof.Proof.KI.RegM2
import proofs.«430114_j32719060861414_1_alg».proof.Proof.KI.RegB3
import proofs.«430114_j32719060861414_1_alg».proof.Proof.KI.RegM4
import proofs.«430114_j32719060861414_1_alg».proof.Proof.KI.RegB5
import proofs.«430114_j32719060861414_1_alg».proof.Proof.KI.RegM6
import proofs.«430114_j32719060861414_1_alg».proof.Proof.KI.RegP7
import Idealize.ShloMosaic.Lib.Pipeline.FrameSuffix
import Idealize.ShloMosaic.Lib.Pipeline.RegionsLoop

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

attribute [local irreducible] StableHlo.after

abbrev runL : GSem nD τ sig → Finset Unit := fun _ => ∅
abbrev runLv : GSem nD τ sig → Unit → ℕ := fun _ _ => 0
abbrev runR (c : Dev nD) : sProp 𝕄 := iprop((∃ r, prngReg c r) ∗ ∃ W, owes (c : Thread nD τ) (0 : CellTallies nD τ sig Unit) W)

-- For reading the valuation after a region, which is such a chain of updates, at any ref.
theorem foldl_update {α : Type} [DecidableEq α] {β : α → Type} (g : ∀ a, β a) (r : α) : ∀ (l : List α) (f : ∀ a, β a),
    l.foldl (fun h a => Function.update h a (g a)) f r = if r ∈ l then g r else f r
  | [], f => (if_neg List.not_mem_nil).symm
  | a :: l, f => by
    rw [List.foldl_cons, foldl_update g r l]
    by_cases h : r ∈ l
    · rw [if_pos h, if_pos (List.mem_cons_of_mem a h)]
    by_cases e : r = a
    · subst e; rw [if_neg h, if_pos List.mem_cons_self, Function.update_self]
    · rw [if_neg h, if_neg (List.not_mem_cons_of_ne_of_not_mem e h), Function.update_of_ne e]

-- The two facts `mkReg` needs of the valuation a region is left at.
def Leaves {cfg : Pipeline.Cfg sig Λ₀} {c : Dev nD} (D : Dat τ (Elt F) Unit ℕ (UR sig nD τ) ℕ cfg c) (Vin Vout : Valuation τ sig (Elt F)) : Prop :=
  (∀ w, D.arrAt w cfg.N = Vout (Pipeline.arrRef cfg.spec w)) ∧
    ∀ b : Ref sig .tc, b ∉ Finset.univ.image (Pipeline.arrRef cfg.spec) → Vout b = Vin b

-- By cases on whether the ref lies in `O`: there the fold reads `withArrays`, elsewhere `Vin`.
theorem leaves_of {cfg : Pipeline.Cfg sig Λ₀} {c : Dev nD} (D : Dat τ (Elt F) Unit ℕ (UR sig nD τ) ℕ cfg c) (Vin : Valuation τ sig (Elt F))
    (O : List (Ref sig .tc)) (hinj : Function.Injective (Pipeline.arrRef cfg.spec)) (hA : ∀ w, D.A w = Vin (Pipeline.arrRef cfg.spec w))
    (hd : ∀ w, Pipeline.arrRef cfg.spec w ∉ O → (cfg.win w).isOut = false) :
    Leaves D Vin ((O.map (Proc.devRef .tc)).foldl (fun V r => Function.update V r (Pipeline.withArrays cfg.spec c Vin (D.arrAt · cfg.N) r)) Vin) := by
  refine ⟨fun w => ?_, fun b hb => ?_⟩ <;> rw [foldl_update]
  · by_cases h : Pipeline.arrRef cfg.spec w ∈ O
    · rw [if_pos (List.mem_map_of_mem h)]; exact (Pipeline.withArrays_arr _ hinj c Vin (D.arrAt · cfg.N) w).symm
    · rw [if_neg fun hm => h ((List.mem_map_of_injective (Proc.devRef_injective _)).1 hm)]
      exact (D.arrAt_in w (hd w h) _).trans (hA w)
  · by_cases h : (Proc.devRef .tc b : DevRef τ sig) ∈ O.map (Proc.devRef .tc)
    · rw [if_pos h]; exact Pipeline.withArrays_of_ne _ c _ _ b fun w e => hb (Finset.mem_image.mpr ⟨w, Finset.mem_univ _, e⟩)
    · rw [if_neg h]

section Record

variable (pdats : (p : Fin 8) → (c : Dev nD) → Dat τ (Elt F) Unit ℕ (UR sig nD τ) ℕ (cfgs p) c)

set_option backward.isDefEq.respectTransparency.types false in
def mkReg (p : Fin 8) (lf : Pipeline.LaunchFacts (nD := nD) (τ := τ) cfgs p)
    (Vin Vout : Dev nD → Valuation τ sig (Elt F))
    (hbody : ∀ c, Pipeline.BodyObligation (pdats p c) (defs₀ (F := F)) Variants.none () Set.univ)
    (hA : ∀ c w, (pdats p c).A w = Vin c (Pipeline.arrRef (cfgs p).spec w))
    (hq : ∀ c w, (pdats p c).q w = fullShare)
    (howed : ∀ c t, (pdats p c).owed t = 0)
    (hrec : ∀ c t, (pdats p c).recorded t = Set.univ)
    (hin : ∀ c, Pipeline.ΦA (cfgs p).spec c ⊢ (pdats p c).Φ 0)
    (hout : ∀ c, (pdats p c).Φ (Fin.last (cfgs p).N) ⊢ Pipeline.ΦA (cfgs p).spec c)
    (hL : ∀ c, Leaves (pdats p c) (Vin c) (Vout c)) :
    RegionSeg (pcfgs (F := F)) adm pdats () defs₀ Variants.none runL runLv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ runL runLv p howed
  pre c := iprop(StableHlo.held (c : Thread nD τ) (Pipeline.ucRefs τ sig) (Vin c) ∗ runR c)
  post c := iprop(StableHlo.held (c : Thread nD τ) (Pipeline.ucRefs τ sig) (Vout c) ∗ runR c)
  X c := iprop(∃ r, prngReg c r)
  Y c := iprop(∃ r, prngReg c r)
  Z c := Pipeline.unscopedRest (Ix := Unit) (Name := ℕ) (U := UR sig nD τ) (Lvl := ℕ) (cfgs p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    refine .trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (cfgs p).N) (hL c).1 (hL c).2
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Record

variable (m : (ℓ : Loc nD τ sig) → Buf (Elt F) ℓ)

-- One step of `outs`: each region's exit is defined from the exits before it.
def exitAt {cfg : Pipeline.Cfg sig Λ₀} (o : Outs (F := F)) (J₀ : ℕ) (D : ∀ c : Dev nD, Dat τ (Elt F) Unit ℕ (UR sig nD τ) ℕ cfg c)
    (Vin : Dev nD → Valuation τ sig (Elt F)) : Outs (F := F) := fun J r c =>
  if J = J₀ then Pipeline.withArrays cfg.spec c (Vin c) ((D c).arrAt · cfg.N) r else o J r c

def outs0 : Outs (F := F) := exitAt (fun _ r c => m ((c : Thread nD τ).loc r)) 2 (dat0 fun c b => V1 m c b) (V1 m)
def outs1 : Outs (F := F) := exitAt (outs0 m) 4 (dat1 fun c b => V3 m (outs0 m) c b) (V3 m (outs0 m))
def outs2 : Outs (F := F) := exitAt (outs1 m) 6 (dat2 fun c b => V5 m (outs1 m) c b) (V5 m (outs1 m))
def outs3 : Outs (F := F) := exitAt (outs2 m) 8 (dat3 fun c b => V7 m (outs2 m) c b) (V7 m (outs2 m))
def outs4 : Outs (F := F) := exitAt (outs3 m) 10 (dat4 fun c b => V9 m (outs3 m) c b) (V9 m (outs3 m))
def outs5 : Outs (F := F) := exitAt (outs4 m) 12 (dat5 fun c b => V11 m (outs4 m) c b) (V11 m (outs4 m))
def outs6 : Outs (F := F) := exitAt (outs5 m) 14 (dat6 fun c b => V13 m (outs5 m) c b) (V13 m (outs5 m))
def outs7 : Outs (F := F) := exitAt (outs6 m) 16 (dat7 fun c b => V15 m (outs6 m) c b) (V15 m (outs6 m))
abbrev outs : Outs (F := F) := outs7 m

abbrev entry0 : (c : Dev nD) → (b : Ref sig .tc) → Buf (Elt F) ((c : Thread nD τ).loc b) := fun c b => V1 m c b
abbrev entry1 : (c : Dev nD) → (b : Ref sig .tc) → Buf (Elt F) ((c : Thread nD τ).loc b) := fun c b => V3 m (outs m) c b
abbrev entry2 : (c : Dev nD) → (b : Ref sig .tc) → Buf (Elt F) ((c : Thread nD τ).loc b) := fun c b => V5 m (outs m) c b
abbrev entry3 : (c : Dev nD) → (b : Ref sig .tc) → Buf (Elt F) ((c : Thread nD τ).loc b) := fun c b => V7 m (outs m) c b
abbrev entry4 : (c : Dev nD) → (b : Ref sig .tc) → Buf (Elt F) ((c : Thread nD τ).loc b) := fun c b => V9 m (outs m) c b
abbrev entry5 : (c : Dev nD) → (b : Ref sig .tc) → Buf (Elt F) ((c : Thread nD τ).loc b) := fun c b => V11 m (outs m) c b
abbrev entry6 : (c : Dev nD) → (b : Ref sig .tc) → Buf (Elt F) ((c : Thread nD τ).loc b) := fun c b => V13 m (outs m) c b
abbrev entry7 : (c : Dev nD) → (b : Ref sig .tc) → Buf (Elt F) ((c : Thread nD τ).loc b) := fun c b => V15 m (outs m) c b

def pdats : (p : Fin 8) → (c : Dev nD) → Dat τ (Elt F) Unit ℕ (UR sig nD τ) ℕ (cfgs p) c
  | ⟨0, _⟩ => fun c => dat0 (entry0 m) c
  | ⟨1, _⟩ => fun c => dat1 (entry1 m) c
  | ⟨2, _⟩ => fun c => dat2 (entry2 m) c
  | ⟨3, _⟩ => fun c => dat3 (entry3 m) c
  | ⟨4, _⟩ => fun c => dat4 (entry4 m) c
  | ⟨5, _⟩ => fun c => dat5 (entry5 m) c
  | ⟨6, _⟩ => fun c => dat6 (entry6 m) c
  | ⟨7, _⟩ => fun c => dat7 (entry7 m) c

theorem leaves0 (c : Dev nD) : Leaves (dat0 (entry0 m) c) (V1 m c) (V2 m (outs m) c) :=
  leaves_of _ _ [main_v30_0, main_v30_1, main_v30_2] launch0.win.arr_inj (A_eq0 _ c) (by decide)
theorem left0_5 (c : Dev nD) : V2 m (outs m) c (Pipeline.arrRef spec0 5) = (dat0 (entry0 m) c).arrAt 5 cfg0.N := ((leaves0 m c).1 5).symm
theorem left0_6 (c : Dev nD) : V2 m (outs m) c (Pipeline.arrRef spec0 6) = (dat0 (entry0 m) c).arrAt 6 cfg0.N := ((leaves0 m c).1 6).symm
theorem left0_7 (c : Dev nD) : V2 m (outs m) c (Pipeline.arrRef spec0 7) = (dat0 (entry0 m) c).arrAt 7 cfg0.N := ((leaves0 m c).1 7).symm
def segR0 :=
  mkReg (pdats m) 0 launch0 (V1 m) (V2 m (outs m)) (body_obligation0 _) (A_eq0 _) (q_eq0 _) (owed_eq0 _) (recorded_eq0 _)
    (hin0 _) (hout0 _) (leaves0 m)

theorem leaves1 (c : Dev nD) : Leaves (dat1 (entry1 m) c) (V3 m (outs m) c) (V4 m (outs m) c) :=
  leaves_of _ _ [main_v47] launch1.win.arr_inj (A_eq1 _ c) (by decide)
theorem left1_5 (c : Dev nD) : V4 m (outs m) c (Pipeline.arrRef spec1 5) = (dat1 (entry1 m) c).arrAt 5 cfg1.N := ((leaves1 m c).1 5).symm
def segR1 :=
  mkReg (pdats m) 1 launch1 (V3 m (outs m)) (V4 m (outs m)) (body_obligation1 _) (A_eq1 _) (q_eq1 _) (owed_eq1 _) (recorded_eq1 _)
    (hin1 _) (hout1 _) (leaves1 m)

theorem leaves2 (c : Dev nD) : Leaves (dat2 (entry2 m) c) (V5 m (outs m) c) (V6 m (outs m) c) :=
  leaves_of _ _ [main_v74_0, main_v74_1, main_v74_2] launch2.win.arr_inj (A_eq2 _ c) (by decide)
theorem left2_5 (c : Dev nD) : V6 m (outs m) c (Pipeline.arrRef spec2 5) = (dat2 (entry2 m) c).arrAt 5 cfg2.N := ((leaves2 m c).1 5).symm
theorem left2_6 (c : Dev nD) : V6 m (outs m) c (Pipeline.arrRef spec2 6) = (dat2 (entry2 m) c).arrAt 6 cfg2.N := ((leaves2 m c).1 6).symm
theorem left2_7 (c : Dev nD) : V6 m (outs m) c (Pipeline.arrRef spec2 7) = (dat2 (entry2 m) c).arrAt 7 cfg2.N := ((leaves2 m c).1 7).symm
def segR2 :=
  mkReg (pdats m) 2 launch2 (V5 m (outs m)) (V6 m (outs m)) (body_obligation2 _) (A_eq2 _) (q_eq2 _) (owed_eq2 _) (recorded_eq2 _)
    (hin2 _) (hout2 _) (leaves2 m)

theorem leaves3 (c : Dev nD) : Leaves (dat3 (entry3 m) c) (V7 m (outs m) c) (V8 m (outs m) c) :=
  leaves_of _ _ [main_v91] launch3.win.arr_inj (A_eq3 _ c) (by decide)
theorem left3_5 (c : Dev nD) : V8 m (outs m) c (Pipeline.arrRef spec3 5) = (dat3 (entry3 m) c).arrAt 5 cfg3.N := ((leaves3 m c).1 5).symm
def segR3 :=
  mkReg (pdats m) 3 launch3 (V7 m (outs m)) (V8 m (outs m)) (body_obligation3 _) (A_eq3 _) (q_eq3 _) (owed_eq3 _) (recorded_eq3 _)
    (hin3 _) (hout3 _) (leaves3 m)

theorem leaves4 (c : Dev nD) : Leaves (dat4 (entry4 m) c) (V9 m (outs m) c) (V10 m (outs m) c) :=
  leaves_of _ _ [main_v118_0, main_v118_1, main_v118_2] launch4.win.arr_inj (A_eq4 _ c) (by decide)
theorem left4_5 (c : Dev nD) : V10 m (outs m) c (Pipeline.arrRef spec4 5) = (dat4 (entry4 m) c).arrAt 5 cfg4.N := ((leaves4 m c).1 5).symm
theorem left4_6 (c : Dev nD) : V10 m (outs m) c (Pipeline.arrRef spec4 6) = (dat4 (entry4 m) c).arrAt 6 cfg4.N := ((leaves4 m c).1 6).symm
theorem left4_7 (c : Dev nD) : V10 m (outs m) c (Pipeline.arrRef spec4 7) = (dat4 (entry4 m) c).arrAt 7 cfg4.N := ((leaves4 m c).1 7).symm
def segR4 :=
  mkReg (pdats m) 4 launch4 (V9 m (outs m)) (V10 m (outs m)) (body_obligation4 _) (A_eq4 _) (q_eq4 _) (owed_eq4 _) (recorded_eq4 _)
    (hin4 _) (hout4 _) (leaves4 m)

theorem leaves5 (c : Dev nD) : Leaves (dat5 (entry5 m) c) (V11 m (outs m) c) (V12 m (outs m) c) :=
  leaves_of _ _ [main_v135] launch5.win.arr_inj (A_eq5 _ c) (by decide)
theorem left5_5 (c : Dev nD) : V12 m (outs m) c (Pipeline.arrRef spec5 5) = (dat5 (entry5 m) c).arrAt 5 cfg5.N := ((leaves5 m c).1 5).symm
def segR5 :=
  mkReg (pdats m) 5 launch5 (V11 m (outs m)) (V12 m (outs m)) (body_obligation5 _) (A_eq5 _) (q_eq5 _) (owed_eq5 _) (recorded_eq5 _)
    (hin5 _) (hout5 _) (leaves5 m)

theorem leaves6 (c : Dev nD) : Leaves (dat6 (entry6 m) c) (V13 m (outs m) c) (V14 m (outs m) c) :=
  leaves_of _ _ [main_v162_0, main_v162_1, main_v162_2] launch6.win.arr_inj (A_eq6 _ c) (by decide)
theorem left6_5 (c : Dev nD) : V14 m (outs m) c (Pipeline.arrRef spec6 5) = (dat6 (entry6 m) c).arrAt 5 cfg6.N := ((leaves6 m c).1 5).symm
theorem left6_6 (c : Dev nD) : V14 m (outs m) c (Pipeline.arrRef spec6 6) = (dat6 (entry6 m) c).arrAt 6 cfg6.N := ((leaves6 m c).1 6).symm
theorem left6_7 (c : Dev nD) : V14 m (outs m) c (Pipeline.arrRef spec6 7) = (dat6 (entry6 m) c).arrAt 7 cfg6.N := ((leaves6 m c).1 7).symm
def segR6 :=
  mkReg (pdats m) 6 launch6 (V13 m (outs m)) (V14 m (outs m)) (body_obligation6 _) (A_eq6 _) (q_eq6 _) (owed_eq6 _) (recorded_eq6 _)
    (hin6 _) (hout6 _) (leaves6 m)

theorem leaves7 (c : Dev nD) : Leaves (dat7 (entry7 m) c) (V15 m (outs m) c) (V16 m (outs m) c) :=
  leaves_of _ _ [main_v164] launch7.win.arr_inj (A_eq7 _ c) (by decide)
theorem left7_2 (c : Dev nD) : V16 m (outs m) c (Pipeline.arrRef spec7 2) = (dat7 (entry7 m) c).arrAt 2 cfg7.N := ((leaves7 m c).1 2).symm
def segR7 :=
  mkReg (pdats m) 7 launch7 (V15 m (outs m)) (V16 m (outs m)) (body_obligation7 _) (A_eq7 _) (q_eq7 _) (owed_eq7 _) (recorded_eq7 _)
    (hin7 _) (hout7 _) (leaves7 m)

abbrev runE : Fin 9 → Dev nD → sProp 𝕄 := fun _ c => runR c

abbrev items (c : Dev nD) : List (Seg (pcfgs (F := F)) adm (pdats m) () defs₀ Variants.none runL runLv) :=
  segs m (outs m) Variants.none runL runLv runE () (pdats m) (segR0 m) (segR1 m) (segR2 m) (segR3 m) (segR4 m) (segR5 m) (segR6 m) (segR7 m) c

set_option backward.isDefEq.respectTransparency.types false in
theorem run_main (ρ : Dev nD → PrngReg) :
    θ_run defs (onTc (τ := τ) (main (F := F))) ⟨m, fun _ => 0, ρ⟩ (fun r => ∀ c : Dev nD,
      r.2.mem ((c.tc : Thread nD τ).loc main_v164) = V16 m (outs m) c main_v164
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ Variants.none runL runLv m ρ main
    (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()) ] from rfl]
      exact .rfl)
    (fun c => by simp only [items, segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ runR c))
    (Tₙ := fun c => iprop(StableHlo.held (c : Thread nD τ) (Pipeline.ucRefs τ sig) (V16 m (outs m) c) ∗ ∃ r, prngReg c r))
    (hch := fun c => ⟨.rfl, .rfl, .rfl, .rfl, .rfl, .rfl, .rfl, .rfl, .rfl, .rfl, .rfl, .rfl, .rfl, .rfl, .rfl, .rfl, Laws.sep_assoc.2⟩)
    (hinit := ?_)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach runL runLv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨⟨Hh, -⟩, HSI⟩
    ihave Hr := (pointsTo_read_all (Pipeline.ucRefs τ sig) (fun b => ((c : Thread nD τ).1, b)) (V16 m (outs m) c) s') $$ [Hh HSI]
    · isplitl [Hh] <;> iassumption
    icases Hr with ⟨%h, HSI⟩
    imodintro
    isplitr
    · ipureintro
      have rd := fun (r : Ref sig .tc) hr => h (Proc.devRef .tc r) (Finset.mem_filter.mpr ⟨StableHlo.devRef_mem_tcRefs r, hr⟩)
      exact ⟨rd main_v164 (by decide), (rd main_arg0 (by decide)).trans (V16_main_arg0 m (outs m) c), (rd main_arg1 (by decide)).trans (V16_main_arg1 m (outs m) c),
        (rd main_arg2 (by decide)).trans (V16_main_arg2 m (outs m) c), (rd main_arg3 (by decide)).trans (V16_main_arg3 m (outs m) c),
        (rd main_arg4 (by decide)).trans (V16_main_arg4 m (outs m) c), (rd main_arg5 (by decide)).trans (V16_main_arg5 m (outs m) c),
        (rd main_arg6 (by decide)).trans (V16_main_arg6 m (outs m) c), (rd main_arg7 (by decide)).trans (V16_main_arg7 m (outs m) c),
        (rd main_arg8 (by decide)).trans (V16_main_arg8 m (outs m) c), (rd main_arg9 (by decide)).trans (V16_main_arg9 m (outs m) c)⟩
    · iexact HSI

theorem frame_main (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run _ _ _).mono (fun r h c => (h c).2) (run_main m ρ)

end Cert.KernelIdeal.Hand

end
-- ==== Proof.Spec.lean ====
import Idealize.ShloMosaic.PureOps.Ideal
import Idealize.ShloMosaic.Lib.ValueIdx

noncomputable section

namespace Cert.Spec

open Idealize.ShloMosaic

abbrev Mat (a b : ℕ) := Fin a → Fin b → EReal
abbrev Vct (a : ℕ) := Fin a → EReal

abbrev nNodes : EReal := Ideal.ofBits .f32 0x47435000#32

abbrev epsBN : EReal := Ideal.ofBits .f32 0x3727C5AC#32

abbrev one32 : EReal := Ideal.ofBits .f32 0x3F800000#32

-- a negative source index counts from the end
def wrapIdx (s : BitVec 32) : BitVec 32 := if s.slt 0#32 then s + 50000#32 else s

-- a row index is clamped into the 50000 rows
def clampNode (s : BitVec 32) : Fin 50000 := ⟨min s.toInt.toNat (50000 - 1), by omega⟩

-- node v sums the features of the source of every edge that ends at v
def agg (h : Mat 50000 128) (src dst : Fin 800000 → BitVec 32) : Mat 50000 128 :=
  fun v c => ∑ j : Fin 800000, if (dst j).toInt = (v.val : ℤ) then h (clampNode (wrapIdx (src j))) c else 0

def comb (h : Mat 50000 128) (src dst : Fin 800000 → BitVec 32) (e : EReal) : Mat 50000 128 :=
  fun v c => (one32 + e) * h v c + agg h src dst v c

-- (max (x·W1 + b1) 0)·W2 + b2, row by row
def mlp (x : Mat 50000 128) (W1 : Mat 128 128) (b1 : Vct 128) (W2 : Mat 128 128) (b2 : Vct 128) : Mat 50000 128 :=
  fun r c => (∑ k : Fin 128, max ((∑ j : Fin 128, x r j * W1 j k) + b1 k) 0 * W2 k c) + b2 c

def csum (z : Mat 50000 128) : Vct 128 := fun c => ∑ r : Fin 50000, z r c
def csumsq (z : Mat 50000 128) : Vct 128 := fun c => ∑ r : Fin 50000, z r c * z r c

def meanOf (s1 : Vct 128) : Vct 128 := fun c => Ideal.div (s1 c) nNodes

-- the variance as the mean of the squares minus the square of the mean
def varK (s1 s2 : Vct 128) : Vct 128 := fun c => Ideal.div (s2 c) nNodes - meanOf s1 c * meanOf s1 c

-- the variance as the mean of the squared deviations
def varR (z : Mat 50000 128) : Vct 128 :=
  fun c => Ideal.div (∑ r : Fin 50000, (z r c - meanOf (csum z) c) * (z r c - meanOf (csum z) c)) (nNodes - 0)

def bn (z : Mat 50000 128) (mean var g b : Vct 128) : Mat 50000 128 :=
  fun r c => max (((z r c - mean c) * Ideal.rsqrt (var c + epsBN)) * g c + b c) 0

-- graph g sums the features of the nodes whose graph number is g
def pool (h : Mat 50000 128) (batch : Fin 50000 → BitVec 32) : Mat 128 128 :=
  fun g d => ∑ n : Fin 50000, if (batch n).toInt = (g.val : ℤ) then h n d else 0

def layerK (h : Mat 50000 128) (src dst : Fin 800000 → BitVec 32) (e : EReal) (W1 : Mat 128 128) (b1 : Vct 128)
    (W2 : Mat 128 128) (b2 g b : Vct 128) : Mat 50000 128 :=
  let z := mlp (comb h src dst e) W1 b1 W2 b2
  bn z (meanOf (csum z)) (varK (csum z) (csumsq z)) g b
def layerR (h : Mat 50000 128) (src dst : Fin 800000 → BitVec 32) (e : EReal) (W1 : Mat 128 128) (b1 : Vct 128)
    (W2 : Mat 128 128) (b2 g b : Vct 128) : Mat 50000 128 :=
  let z := mlp (comb h src dst e) W1 b1 W2 b2
  bn z (meanOf (csum z)) (varR z) g b

structure Inputs where
  x : Mat 50000 128
  src : Fin 800000 → BitVec 32
  dst : Fin 800000 → BitVec 32
  batch : Fin 50000 → BitVec 32
  W1 : Fin 4 → Mat 128 128
  b1 : Fin 4 → Vct 128
  W2 : Fin 4 → Mat 128 128
  b2 : Fin 4 → Vct 128
  eps : Fin 4 → EReal
  g : Fin 3 → Vct 128
  b : Fin 3 → Vct 128

def Inputs.Finite (I : Inputs) : Prop :=
  (∀ r c, ∃ v : ℝ, I.x r c = v) ∧ (∀ i j k, ∃ v : ℝ, I.W1 i j k = v) ∧ (∀ i k, ∃ v : ℝ, I.b1 i k = v)
  ∧ (∀ i j k, ∃ v : ℝ, I.W2 i j k = v) ∧ (∀ i k, ∃ v : ℝ, I.b2 i k = v) ∧ (∀ i, ∃ v : ℝ, I.eps i = v)
  ∧ (∀ i k, ∃ v : ℝ, I.g i k = v) ∧ (∀ i k, ∃ v : ℝ, I.b i k = v)

-- the four-layer network, once with each variance
def outK (I : Inputs) : Mat 128 128 :=
  let h1 := layerK I.x I.src I.dst (I.eps 0) (I.W1 0) (I.b1 0) (I.W2 0) (I.b2 0) (I.g 0) (I.b 0)
  let h2 := layerK h1 I.src I.dst (I.eps 1) (I.W1 1) (I.b1 1) (I.W2 1) (I.b2 1) (I.g 1) (I.b 1)
  let h3 := layerK h2 I.src I.dst (I.eps 2) (I.W1 2) (I.b1 2) (I.W2 2) (I.b2 2) (I.g 2) (I.b 2)
  pool (mlp (comb h3 I.src I.dst (I.eps 3)) (I.W1 3) (I.b1 3) (I.W2 3) (I.b2 3)) I.batch

def outR (I : Inputs) : Mat 128 128 :=
  let h1 := layerR I.x I.src I.dst (I.eps 0) (I.W1 0) (I.b1 0) (I.W2 0) (I.b2 0) (I.g 0) (I.b 0)
  let h2 := layerR h1 I.src I.dst (I.eps 1) (I.W1 1) (I.b1 1) (I.W2 1) (I.b2 1) (I.g 1) (I.b 1)
  let h3 := layerR h2 I.src I.dst (I.eps 2) (I.W1 2) (I.b1 2) (I.W2 2) (I.b2 2) (I.g 2) (I.b 2)
  pool (mlp (comb h3 I.src I.dst (I.eps 3)) (I.W1 3) (I.b1 3) (I.W2 3) (I.b2 3)) I.batch

end Cert.Spec

end
-- ==== Proof.LibGatherRows.lean ====
import Idealize.ShloMosaic.PureOps.Ideal
import Idealize.ShloMosaic.Lib.ValueIdx

noncomputable section

namespace Cert.LibGatherRows

open Idealize.ShloMosaic Idealize.ShloMosaic.ValueIdx

def clampRow {w : Nat} (N : Nat) (hN : 0 < N) (b : BitVec w) : Fin N := ⟨min b.toInt.toNat (N - 1), by omega⟩

-- Result (e, q) reads start index (e, 0), and its offset on the operand's column axis is q.
theorem lits {N E D : Nat}
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1) (e : Fin E) (q : Fin D) :
    (∀ c : Fin d.startIndexMap.length, d.siIdx (ix2 e q) c = ix2 e (0 : Fin 1)) ∧ d.offCoord (ix2 e q) 1 = q.val := by
  obtain ⟨od, cd, ob, sb, sm, iv, ss, wf⟩ := d
  subst hoff hcoll hob hsim hivd
  refine ⟨fun c => funext fun b => Fin.ext ?_, rfl⟩
  match b with
  | ⟨0, _⟩ => rfl
  | ⟨1, _⟩ =>
    have hc : c.val < 1 := c.isLt
    show c.val = 0
    omega

-- Result row e is the operand's row at the signed index of e clamped into range.
theorem gatherRows_apply {α : Type} {N E D w : Nat} (hN : 0 < N)
    (d : GatherDims (⟨2, ![N, D]⟩ : Shape) (⟨2, ![E, 1]⟩ : Shape) (⟨2, ![E, D]⟩ : Shape))
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec (⟨2, ![E, 1]⟩ : Shape) w) (e : Fin E) (q : Fin D) :
    Host.gather d x idx (ix2 e q) = x (ix2 (clampRow N hN (idx (ix2 e (0 : Fin 1)))) q) := by
  obtain ⟨hsi, ho1⟩ := lits d hoff hcoll hob hsim hivd e q
  have h0 : (0 : Fin 2) ∈ d.collapsedSliceDims := by rw [hcoll]; exact List.mem_singleton.mpr rfl
  have hb : ∀ a, d.batchCoord (ix2 e q) a = 0 := fun a =>
    d.batchCoord_eq_zero _ a (by rw [hob]; exact List.not_mem_nil)
  have ho0 : d.offCoord (ix2 e q) 0 = 0 := d.offCoord_eq_zero _ 0 fun h => ((d.mem_sKept 0).mp h).1 h0
  have hs0 : d.start (ix2 e q) idx 0 = min (idx (ix2 e (0 : Fin 1))).toInt.toNat (N - 1) := by
    unfold GatherDims.start
    rw [dif_pos (by rw [hsim]; exact List.mem_singleton.mpr rfl), hsi, d.slice_collapsed 0 h0]
    rfl
  have hs1 : d.start (ix2 e q) idx 1 = 0 := by
    unfold GatherDims.start
    exact dif_neg fun h => Nat.one_ne_zero (congrArg Fin.val (List.mem_singleton.mp (hsim ▸ h)))
  unfold Host.gather
  refine congrArg x (funext fun a => Fin.ext ?_)
  match a with
  | ⟨0, _⟩ =>
    show d.start (ix2 e q) idx 0 + d.batchCoord (ix2 e q) 0 + d.offCoord (ix2 e q) 0
      = min (idx (ix2 e (0 : Fin 1))).toInt.toNat (N - 1)
    rw [hs0, hb, ho0]
    rfl
  | ⟨1, _⟩ =>
    show d.start (ix2 e q) idx 1 + d.batchCoord (ix2 e q) 1 + d.offCoord (ix2 e q) 1 = q.val
    rw [hs1, hb, ho1]
    omega

end Cert.LibGatherRows

end
-- ==== Proof.LibRowsScatter.lean ====
import Idealize.ShloMosaic.PureOps.Ideal
import Idealize.ShloMosaic.Lib.ValueIdx

noncomputable section

open scoped BigOperators

namespace Cert.LibRowsScatter

open Idealize.ShloMosaic Idealize.ShloMosaic.ValueIdx

section

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

-- Update (e, c') starts at the signed row index of e and column 0, and is offset by (0, c').
theorem coords (idx : IVec (⟨2, ![E, 1]⟩ : Shape) w) (e : Fin E) (c' : Fin D) :
    s.start (ix2 e c') idx 0 = (idx (ix2 e (0 : Fin 1))).toInt ∧ s.start (ix2 e c') idx 1 = 0
      ∧ s.window (ix2 e c') 0 = 0 ∧ s.window (ix2 e c') 1 = c'.val := by
  obtain ⟨uw, iw, sd, iv, wf⟩ := s
  subst huw hiw hsd hiv
  refine ⟨?_, ?_, rfl, rfl⟩ <;> unfold ScatterDims.start
  · rw [dif_pos (List.mem_singleton.mpr rfl)]
    refine congrArg (fun i => (idx i).toInt) (funext fun b => Fin.ext ?_)
    match b with
    | ⟨0, _⟩ | ⟨1, _⟩ => rfl
  · exact dif_neg fun h => Nat.one_ne_zero (congrArg Fin.val (List.mem_singleton.mp h))

-- Update (e, c') lands on (v, c) exactly when the signed index of row e is v and the columns agree.
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  obtain ⟨h0, h1, w0, w1⟩ := coords s huw hiw hsd hiv idx e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some (funext fun a => Fin.ext ?_)
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end

-- Row e of the updates is added, whole, to the row its signed index names; an index naming no row is dropped.
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  refine congrArg (x (ix2 v c) + ·) ?_
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

end Cert.LibRowsScatter

end
-- ==== Proof.LibKeepdims.lean ====
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

-- Row-major position i·1 + u of (i, u) in [a, 1] is position i in [a].
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.Keepdims
-- ==== Proof.KI.Host.lean ====
import proofs.«430114_j32719060861414_1_alg».proof.Proof.Gen.KernelIdeal.Regions
import proofs.«430114_j32719060861414_1_alg».proof.Proof.Spec
import proofs.«430114_j32719060861414_1_alg».proof.Proof.LibGatherRows
import proofs.«430114_j32719060861414_1_alg».proof.Proof.LibRowsScatter
import proofs.«430114_j32719060861414_1_alg».proof.Proof.LibKeepdims
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Cert

abbrev mat {a b : ℕ} {α : Type} (f : (⟨2, ![a, b]⟩ : Shape).Idx → α) (r : Fin a) (q : Fin b) : α := f (ix2 r q)
abbrev row {b : ℕ} {α : Type} (f : (⟨2, ![1, b]⟩ : Shape).Idx → α) (q : Fin b) : α := f (ix2 (0 : Fin 1) q)
abbrev vec {a : ℕ} {α : Type} (f : (⟨1, ![a]⟩ : Shape).Idx → α) (j : Fin a) : α := f (ix1 j)

section Reads

variable {α : Type}

theorem bcastScalar_apply {t : Shape} (h : S_.BroadcastsInDim t ![]) (x : S_.Idx → α) (j : t.Idx) :
    broadcastInDim t ![] h x j = x ix0 :=
  broadcastInDim_apply _ h x j ix0 (fun a => a.elim0)

theorem bcastCol_apply (h : S800000.BroadcastsInDim S800000x1 ![0]) (x : S800000.Idx → α) (e : Fin 800000) (u : Fin 1) :
    broadcastInDim S800000x1 ![0] h x (ix2 e u) = x (ix1 e) :=
  broadcastInDim_apply _ h x _ (ix1 e) (fun a => by
    match a with
    | ⟨0, _⟩ =>
      show e.val = if (800000 : ℕ) = 1 then 0 else e.val
      exact (if_neg (by decide)).symm)

theorem scalarOfSlice_apply {x : S4.Idx → α} (i : ℕ) (hi : i < 4) {hsl : S4.Slices ![i] S1} {hsc : S1.ShapeCasts S_} :
    shapeCast S_ (extractStridedSlice S1 ![i] x hsl) hsc ix0 = x (ix1 ⟨i, hi⟩) := by
  rw [shapeCast_apply _ hsc ix0 (ix1 (0 : Fin 1)) (by
    rw [Shape.rowMajor_val_one]
    exact (Shape.rowMajorPi_zero _ _).symm)]
  exact extractStridedSlice_apply _ _ _ _ _ (fun a => by
    match a with
    | ⟨0, _⟩ => rfl)

theorem matOfSlice_apply {x : S4x128x128.Idx → α} (i : ℕ) (hi : i < 4) {hsl : S4x128x128.Slices ![i, 0, 0] S1x128x128}
    {hsc : S1x128x128.ShapeCasts S128x128} {j k : Fin 128} :
    shapeCast S128x128 (extractStridedSlice S1x128x128 ![i, 0, 0] x hsl) hsc (ix2 j k) = x (ix3 ⟨i, hi⟩ j k) := by
  rw [shapeCast_1ab_ab_apply]
  exact extractStridedSlice_apply _ _ _ _ _ (fun a => by
    match a with
    | ⟨0, _⟩ => rfl
    | ⟨1, _⟩ => exact (Nat.zero_add _).symm
    | ⟨2, _⟩ => exact (Nat.zero_add _).symm)

theorem rowOfSlice_apply {n : ℕ} {x : (⟨2, ![n, 128]⟩ : Shape).Idx → α} (i : ℕ) (hi : i < n)
    {hsl : (⟨2, ![n, 128]⟩ : Shape).Slices ![i, 0] S1x128} {hsc : S1x128.ShapeCasts S128} {hsc' : S128.ShapeCasts S1x128}
    {k : Fin 128} :
    shapeCast S1x128 (shapeCast S128 (extractStridedSlice S1x128 ![i, 0] x hsl) hsc) hsc' (ix2 (0 : Fin 1) k)
      = x (ix2 ⟨i, hi⟩ k) := by
  rw [shapeCast_a_1a_apply, shapeCast_1a_a_apply]
  exact slice2_axis0_apply i x hsl (0 : Fin 1) k ⟨i, hi⟩ rfl

theorem edgeRow_apply {x : S2x800000.Idx → α} (i : ℕ) (hi : i < 2) {hsl : S2x800000.Slices ![i, 0] S1x800000}
    {hsc : S1x800000.ShapeCasts S800000} (j : Fin 800000) :
    shapeCast S800000 (extractStridedSlice S1x800000 ![i, 0] x hsl) hsc (ix1 j) = x (ix2 ⟨i, hi⟩ j) := by
  rw [shapeCast_1a_a_apply]
  exact slice2_axis0_apply i x hsl (0 : Fin 1) j ⟨i, hi⟩ rfl

end Reads

theorem wrap_eq (x : BitVec 32) :
    Scalar.select (IntOp.cmpi .slt x 0#32) (IntOp.addi x 50000#32) x = Spec.wrapIdx x := by
  show (if BitVec.ofBool (x.slt 0#32) = 1#1 then x + 50000#32 else x) = if x.slt 0#32 then x + 50000#32 else x
  cases x.slt 0#32 <;> rfl

theorem comb_read {h : FVec Ideal S50000x128 .f32} {s d : IVec S800000 32} {e : FVec Ideal S_ .f32}
    {src dst : Fin 800000 → BitVec 32} {eps : EReal}
    {hb2 : S_.BroadcastsInDim S50000x128 ![]} {hb1 : S_.BroadcastsInDim S800000 ![]}
    {hbc : S800000.BroadcastsInDim S800000x1 ![0]}
    (hs : ∀ j, s (ix1 j) = src j) (hd : ∀ j, d (ix1 j) = dst j) (he : e ix0 = eps) (v : Fin 50000) (c : Fin 128) :
    addf (mulf (broadcastInDim S50000x128 ![] hb2 (addf (constant S_ .f32 0x3F800000#32) e)) h)
      (Host.scatterAdd scatter_S50000x128_S800000x1_S800000x128_1_0_0_1
        (broadcastInDim S50000x128 ![] hb2 (constant S_ .f32 0x00000000#32))
        (broadcastInDim S800000x1 ![0] hbc d)
        (Host.gather gather_S50000x128_S800000x1_S800000x128_1_0_n_n_0_1_1128 h
          (broadcastInDim S800000x1 ![0] hbc
            (select (cmpi .slt s (broadcastInDim S800000 ![] hb1 (constantI S_ 32 0#32)))
              (addi s (broadcastInDim S800000 ![] hb1 (constantI S_ 32 50000#32))) s)))) (ix2 v c)
      = Spec.comb (fun r q => h (ix2 r q)) src dst eps v c := by
  have key : ∀ j : Fin 800000,
      (select (cmpi .slt s (broadcastInDim S800000 ![] hb1 (constantI S_ 32 0#32)))
        (addi s (broadcastInDim S800000 ![] hb1 (constantI S_ 32 50000#32))) s) (ix1 j) = Spec.wrapIdx (src j) := by
    intro j
    show Scalar.select (IntOp.cmpi .slt (s (ix1 j)) (broadcastInDim S800000 ![] hb1 (constantI S_ 32 0#32) (ix1 j)))
      (IntOp.addi (s (ix1 j)) (broadcastInDim S800000 ![] hb1 (constantI S_ 32 50000#32) (ix1 j))) (s (ix1 j)) = _
    rw [bcastScalar_apply, bcastScalar_apply, constantI_apply, constantI_apply, hs j]
    exact wrap_eq _
  rw [addf_apply, mulf_apply, bcastScalar_apply, addf_apply, constant_apply,
    LibRowsScatter.rowsScatterAdd_apply scatter_S50000x128_S800000x1_S800000x128_1_0_0_1 rfl rfl rfl rfl,
    bcastScalar_apply, constant_apply, Ideal.ofBits_zero_f32, zero_add, he]
  refine congrArg (fun t => (Spec.one32 + eps) * h (ix2 v c) + t) (Finset.sum_congr rfl fun j _ => ?_)
  rw [bcastCol_apply, hd j,
    LibGatherRows.gatherRows_apply (by decide) gather_S50000x128_S800000x1_S800000x128_1_0_n_n_0_1_1128 rfl rfl rfl rfl rfl,
    bcastCol_apply, key j]
  rfl

section Stats

variable (s1 s2 : FVec Ideal S1x128 .f32) (hsc : S1x128.ShapeCasts S128) (hsc' : S128.ShapeCasts S1x128)
  (hb : S_.BroadcastsInDim S128 ![]) (c : Fin 128)

abbrev meanV : FVec Ideal S128 .f32 :=
  Host.divf (shapeCast S128 s1 hsc) (broadcastInDim S128 ![] hb (constant S_ .f32 0x47435000#32))

theorem meanV_apply : meanV s1 hsc hb (ix1 c) = Spec.meanOf (row s1) c := by
  show Ideal.div (shapeCast S128 s1 hsc (ix1 c)) (broadcastInDim S128 ![] hb (constant (F := Ideal) S_ .f32 0x47435000#32) (ix1 c)) = _
  rw [shapeCast_1a_a_apply, bcastScalar_apply]
  rfl

theorem mean_read : shapeCast S1x128 (meanV s1 hsc hb) hsc' (ix2 (0 : Fin 1) c) = Spec.meanOf (row s1) c := by
  rw [shapeCast_a_1a_apply]
  exact meanV_apply s1 hsc hb c

theorem var_read :
    shapeCast S1x128 (subf (meanV s2 hsc hb) (mulf (meanV s1 hsc hb) (meanV s1 hsc hb))) hsc' (ix2 (0 : Fin 1) c)
      = Spec.varK (row s1) (row s2) c := by
  rw [shapeCast_a_1a_apply, subf_apply, mulf_apply, meanV_apply, meanV_apply]
  rfl

end Stats

variable (W : Valuation τ sig (Elt Ideal))

-- Layer i's perceptron of the combined features, with the parameters W holds.
def preOf (x : Spec.Mat 50000 128) (s d : Fin 800000 → BitVec 32) (i : Fin 4) : Spec.Mat 50000 128 :=
  Spec.mlp (Spec.comb x s d (W main_arg7 (ix1 i))) (fun j k => W main_arg3 (ix3 i j k)) (fun k => W main_arg4 (ix2 i k))
    (fun j k => W main_arg5 (ix3 i j k)) (fun k => W main_arg6 (ix2 i k))

-- z normalized by the column statistics s and ss, with the scale and shift W holds.
def nxtOf (z : Spec.Mat 50000 128) (s ss : Spec.Vct 128) (i : Fin 3) : Spec.Mat 50000 128 :=
  Spec.bn z (Spec.meanOf s) (Spec.varK s ss) (fun k => W main_arg8 (ix2 i k)) (fun k => W main_arg9 (ix2 i k))

theorem host0_src (j : Fin 800000) : vec (StableHlo.after hostOps0 W main_v1) j = W main_arg1 (ix2 (0 : Fin 2) j) := by
  after_results_simp
  exact edgeRow_apply 0 (by decide) j

theorem host0_dst (j : Fin 800000) : vec (StableHlo.after hostOps0 W main_v3) j = W main_arg1 (ix2 (1 : Fin 2) j) := by
  after_results_simp
  exact edgeRow_apply 1 (by decide) j

theorem host0 :
    Spec.mlp (mat (StableHlo.after hostOps0 W main_v19)) (mat (StableHlo.after hostOps0 W main_v21)) (row (StableHlo.after hostOps0 W main_v28)) (mat (StableHlo.after hostOps0 W main_v25)) (row (StableHlo.after hostOps0 W main_v29))
      = preOf W (mat (W main_arg0)) (fun j => W main_arg1 (ix2 (0 : Fin 2) j)) (fun j => W main_arg1 (ix2 (1 : Fin 2) j)) 0 := by
  unfold preOf
  congr 1 <;> ext <;> after_results_simp
  · exact comb_read (edgeRow_apply 0 (by decide)) (edgeRow_apply 1 (by decide)) (scalarOfSlice_apply 0 (by decide)) _ _
  · exact matOfSlice_apply 0 (by decide)
  · exact rowOfSlice_apply 0 (by decide)
  · exact matOfSlice_apply 0 (by decide)
  · exact rowOfSlice_apply 0 (by decide)

theorem host2 :
    Spec.mlp (mat (StableHlo.after hostOps2 W main_v63)) (mat (StableHlo.after hostOps2 W main_v65)) (row (StableHlo.after hostOps2 W main_v72)) (mat (StableHlo.after hostOps2 W main_v69)) (row (StableHlo.after hostOps2 W main_v73))
      = preOf W (mat (W main_v47)) (vec (W main_v1)) (vec (W main_v3)) 1 := by
  unfold preOf
  congr 1 <;> ext <;> after_results_simp
  · exact comb_read (fun _ => rfl) (fun _ => rfl) (scalarOfSlice_apply 1 (by decide)) _ _
  · exact matOfSlice_apply 1 (by decide)
  · exact rowOfSlice_apply 1 (by decide)
  · exact matOfSlice_apply 1 (by decide)
  · exact rowOfSlice_apply 1 (by decide)

theorem host4 :
    Spec.mlp (mat (StableHlo.after hostOps4 W main_v107)) (mat (StableHlo.after hostOps4 W main_v109)) (row (StableHlo.after hostOps4 W main_v116)) (mat (StableHlo.after hostOps4 W main_v113)) (row (StableHlo.after hostOps4 W main_v117))
      = preOf W (mat (W main_v91)) (vec (W main_v1)) (vec (W main_v3)) 2 := by
  unfold preOf
  congr 1 <;> ext <;> after_results_simp
  · exact comb_read (fun _ => rfl) (fun _ => rfl) (scalarOfSlice_apply 2 (by decide)) _ _
  · exact matOfSlice_apply 2 (by decide)
  · exact rowOfSlice_apply 2 (by decide)
  · exact matOfSlice_apply 2 (by decide)
  · exact rowOfSlice_apply 2 (by decide)

theorem host6 :
    Spec.mlp (mat (StableHlo.after hostOps6 W main_v151)) (mat (StableHlo.after hostOps6 W main_v153)) (row (StableHlo.after hostOps6 W main_v160)) (mat (StableHlo.after hostOps6 W main_v157)) (row (StableHlo.after hostOps6 W main_v161))
      = preOf W (mat (W main_v135)) (vec (W main_v1)) (vec (W main_v3)) 3 := by
  unfold preOf
  congr 1 <;> ext <;> after_results_simp
  · exact comb_read (fun _ => rfl) (fun _ => rfl) (scalarOfSlice_apply 3 (by decide)) _ _
  · exact matOfSlice_apply 3 (by decide)
  · exact rowOfSlice_apply 3 (by decide)
  · exact matOfSlice_apply 3 (by decide)
  · exact rowOfSlice_apply 3 (by decide)

theorem host1 :
    Spec.bn (mat (StableHlo.after hostOps1 W main_v30_0)) (row (StableHlo.after hostOps1 W main_v43)) (row (StableHlo.after hostOps1 W main_v44)) (row (StableHlo.after hostOps1 W main_v45)) (row (StableHlo.after hostOps1 W main_v46))
      = nxtOf W (mat (W main_v30_0)) (row (W main_v30_1)) (row (W main_v30_2)) 0 := by
  unfold nxtOf
  congr 1 <;> ext <;> after_results_simp
  · exact mean_read _ _ _ _ _
  · exact var_read _ _ _ _ _ _
  · exact rowOfSlice_apply 0 (by decide)
  · exact rowOfSlice_apply 0 (by decide)

theorem host3 :
    Spec.bn (mat (StableHlo.after hostOps3 W main_v74_0)) (row (StableHlo.after hostOps3 W main_v87)) (row (StableHlo.after hostOps3 W main_v88)) (row (StableHlo.after hostOps3 W main_v89)) (row (StableHlo.after hostOps3 W main_v90))
      = nxtOf W (mat (W main_v74_0)) (row (W main_v74_1)) (row (W main_v74_2)) 1 := by
  unfold nxtOf
  congr 1 <;> ext <;> after_results_simp
  · exact mean_read _ _ _ _ _
  · exact var_read _ _ _ _ _ _
  · exact rowOfSlice_apply 1 (by decide)
  · exact rowOfSlice_apply 1 (by decide)

theorem host5 :
    Spec.bn (mat (StableHlo.after hostOps5 W main_v118_0)) (row (StableHlo.after hostOps5 W main_v131)) (row (StableHlo.after hostOps5 W main_v132)) (row (StableHlo.after hostOps5 W main_v133)) (row (StableHlo.after hostOps5 W main_v134))
      = nxtOf W (mat (W main_v118_0)) (row (W main_v118_1)) (row (W main_v118_2)) 2 := by
  unfold nxtOf
  congr 1 <;> ext <;> after_results_simp
  · exact mean_read _ _ _ _ _
  · exact var_read _ _ _ _ _ _
  · exact rowOfSlice_apply 2 (by decide)
  · exact rowOfSlice_apply 2 (by decide)

theorem host7 :
    Spec.pool (mat (StableHlo.after hostOps7 W main_v162_0)) (fun n => StableHlo.after hostOps7 W main_v163 (ix2 n (0 : Fin 1)))
      = Spec.pool (mat (W main_v162_0)) (vec (W main_arg2)) := by
  congr 1 <;> ext <;> after_results_simp
  exact Lib.Keepdims.shapeCast_a_a1_apply _ _ _ 0

end Cert.KernelIdeal.Hand

end
-- ==== Proof.KI.Chain.lean ====
import proofs.«430114_j32719060861414_1_alg».proof.Proof.KI.Host

noncomputable section

namespace Cert.KernelIdeal.Hand

open Cert.KernelIdeal Cert.KernelIdeal.Gen
open Idealize.ShloMosaic Idealize.ShloMosaic.TcCoe Idealize.ShloMosaic.ValueIdx
open Cert

def pre (I : Spec.Inputs) (h : Spec.Mat 50000 128) (i : Fin 4) : Spec.Mat 50000 128 :=
  Spec.mlp (Spec.comb h I.src I.dst (I.eps i)) (I.W1 i) (I.b1 i) (I.W2 i) (I.b2 i)
def nxt (I : Spec.Inputs) (h : Spec.Mat 50000 128) (i : Fin 4) (i' : Fin 3) : Spec.Mat 50000 128 :=
  Spec.bn (pre I h i) (Spec.meanOf (Spec.csum (pre I h i))) (Spec.varK (Spec.csum (pre I h i)) (Spec.csumsq (pre I h i)))
    (I.g i') (I.b i')
def feat1 (I : Spec.Inputs) : Spec.Mat 50000 128 := nxt I I.x 0 0
def feat2 (I : Spec.Inputs) : Spec.Mat 50000 128 := nxt I (feat1 I) 1 1
def feat3 (I : Spec.Inputs) : Spec.Mat 50000 128 := nxt I (feat2 I) 2 2
theorem outK_eq (I : Spec.Inputs) : Spec.outK I = Spec.pool (pre I (feat3 I) 3) I.batch := rfl

-- If z reads as layer i's perceptron output, s and ss as its column sums and sums of squares, their normalization is the next features.
theorem layer_eq {I : Spec.Inputs} {x : Spec.Mat 50000 128} {i : Fin 4} {i' : Fin 3}
    {z a h ha : S50000x128.Idx → EReal} {s sa ss ssa : S1x128.Idx → EReal} {Z B : Spec.Mat 50000 128}
    (lz : z = a) (fz : ∀ r q, a (ix2 r q) = Z r q) (ls : s = sa) (fs : ∀ q, sa (ix2 (0 : Fin 1) q) = Spec.csum Z q)
    (lss : ss = ssa) (fss : ∀ q, ssa (ix2 (0 : Fin 1) q) = Spec.csumsq Z q) (hZ : Z = pre I x i)
    (lh : h = ha) (fh : ∀ r q, ha (ix2 r q) = B r q)
    (hB : B = Spec.bn (mat z) (Spec.meanOf (row s)) (Spec.varK (row s) (row ss)) (I.g i') (I.b i')) :
    mat h = nxt I x i i' := by
  subst lz ls lss lh hZ hB
  rw [show mat h = _ from funext₂ fh, show mat z = _ from funext₂ fz, show row s = _ from funext fs,
    show row ss = _ from funext fss]
  rfl

variable (m : (ℓ : Loc nD τ sig) → Buf (Elt Ideal) ℓ)

noncomputable def inK (c : Dev nD) : Spec.Inputs where
  x := fun r q => (V0 m c main_arg0 : S50000x128.Idx → EReal) (ix2 r q)
  src := fun j => (V0 m c main_arg1 : S2x800000.Idx → BitVec 32) (ix2 (0 : Fin 2) j)
  dst := fun j => (V0 m c main_arg1 : S2x800000.Idx → BitVec 32) (ix2 (1 : Fin 2) j)
  batch := fun n => (V0 m c main_arg2 : S50000.Idx → BitVec 32) (ix1 n)
  W1 := fun i j k => (V0 m c main_arg3 : S4x128x128.Idx → EReal) (ix3 i j k)
  b1 := fun i k => (V0 m c main_arg4 : S4x128.Idx → EReal) (ix2 i k)
  W2 := fun i j k => (V0 m c main_arg5 : S4x128x128.Idx → EReal) (ix3 i j k)
  b2 := fun i k => (V0 m c main_arg6 : S4x128.Idx → EReal) (ix2 i k)
  eps := fun i => (V0 m c main_arg7 : S4.Idx → EReal) (ix1 i)
  g := fun i k => (V0 m c main_arg8 : S3x128.Idx → EReal) (ix2 i k)
  b := fun i k => (V0 m c main_arg9 : S3x128.Idx → EReal) (ix2 i k)

variable (outs : Outs (F := Ideal)) (c : Dev nD)

abbrev argRefs : List (Ref sig .tc) :=
  [main_arg0, main_arg1, main_arg2, main_arg3, main_arg4, main_arg5, main_arg6, main_arg7, main_arg8, main_arg9]
abbrev keptRefs : List (Ref sig .tc) := main_v1 :: main_v3 :: argRefs

theorem arg_out : ∀ r ∈ argRefs, r ∈ keptRefs ∧ r ∉ hostOps0_W := by decide
theorem kept_out : ∀ r ∈ keptRefs, r ∉ ([main_v30_0, main_v30_1, main_v30_2] : List (Ref sig .tc)) ∧ r ∉ hostOps1_W
    ∧ r ∉ ([main_v47] : List (Ref sig .tc)) ∧ r ∉ hostOps2_W ∧ r ∉ ([main_v74_0, main_v74_1, main_v74_2] : List (Ref sig .tc))
    ∧ r ∉ hostOps3_W ∧ r ∉ ([main_v91] : List (Ref sig .tc)) ∧ r ∉ hostOps4_W
    ∧ r ∉ ([main_v118_0, main_v118_1, main_v118_2] : List (Ref sig .tc)) ∧ r ∉ hostOps5_W
    ∧ r ∉ ([main_v135] : List (Ref sig .tc)) ∧ r ∉ hostOps6_W
    ∧ r ∉ ([main_v162_0, main_v162_1, main_v162_2] : List (Ref sig .tc)) := by decide

theorem kept {r : Ref sig .tc} (hr : r ∈ keptRefs) :
    V2 m outs c r = V1 m c r ∧ V4 m outs c r = V1 m c r ∧ V6 m outs c r = V1 m c r ∧ V8 m outs c r = V1 m c r
      ∧ V10 m outs c r = V1 m c r ∧ V12 m outs c r = V1 m c r ∧ V14 m outs c r = V1 m c r := by
  obtain ⟨b0, a1, b1, a2, b2, a3, b3, a4, b4, a5, b5, a6, b6⟩ := kept_out r hr
  have e2 := V2_of m outs c r b0
  have e4 := (V4_of m outs c r b1).trans ((V3_of m outs c r a1).trans e2)
  have e6 := (V6_of m outs c r b2).trans ((V5_of m outs c r a2).trans e4)
  have e8 := (V8_of m outs c r b3).trans ((V7_of m outs c r a3).trans e6)
  have e10 := (V10_of m outs c r b4).trans ((V9_of m outs c r a4).trans e8)
  have e12 := (V12_of m outs c r b5).trans ((V11_of m outs c r a5).trans e10)
  exact ⟨e2, e4, e6, e8, e10, e12, (V14_of m outs c r b6).trans ((V13_of m outs c r a6).trans e12)⟩

variable {m c} {W : Valuation τ sig (Elt Ideal)} (hW : ∀ r ∈ keptRefs, W r = V1 m c r)
include hW

theorem kept_arg {r : Ref sig .tc} (hr : r ∈ argRefs) : W r = V0 m c r :=
  (hW r (arg_out r hr).1).trans (V1_of m c r (arg_out r hr).2)

theorem preOf_eq (x : Spec.Mat 50000 128) (i : Fin 4) :
    preOf W x (vec (W main_v1)) (vec (W main_v3)) i = pre (inK m c) x i := by
  unfold preOf
  rw [hW main_v1 (by decide), hW main_v3 (by decide), kept_arg hW (r := main_arg7) (by decide),
    kept_arg hW (r := main_arg3) (by decide), kept_arg hW (r := main_arg4) (by decide),
    kept_arg hW (r := main_arg5) (by decide), kept_arg hW (r := main_arg6) (by decide),
    show vec (V1 m c main_v1) = (inK m c).src from funext (host0_src (V0 m c)),
    show vec (V1 m c main_v3) = (inK m c).dst from funext (host0_dst (V0 m c))]
  rfl

theorem nxtOf_eq (z : Spec.Mat 50000 128) (s ss : Spec.Vct 128) (i : Fin 3) :
    nxtOf W z s ss i = Spec.bn z (Spec.meanOf s) (Spec.varK s ss) ((inK m c).g i) ((inK m c).b i) := by
  unfold nxtOf
  rw [kept_arg hW (r := main_arg8) (by decide), kept_arg hW (r := main_arg9) (by decide)]
  rfl

end Cert.KernelIdeal.Hand

end
-- ==== Proof.Math.lean ====
import Mathlib.Data.EReal.Inv
import Mathlib.Data.Fintype.BigOperators
import Mathlib.Algebra.BigOperators.Group.Finset.Basic
import Mathlib.Algebra.BigOperators.Ring.Finset
import Mathlib.Algebra.Order.BigOperators.Ring.Finset
import Mathlib.Logic.Equiv.Fin.Basic
import Mathlib.Tactic.Ring
import Mathlib.Tactic.FieldSimp
import Mathlib.Tactic.Positivity
import Mathlib.Tactic.NormNum
import Mathlib.Tactic.Linarith
import Mathlib.Tactic.LinearCombination
import Mathlib.Data.Fin.SuccPred
import Mathlib.Order.Lattice
import Idealize.ShloMosaic.PureOps.Ideal
import proofs.«430114_j32719060861414_1_alg».proof.Proof.Spec

noncomputable section

namespace Cert.Spec

open Idealize.ShloMosaic

def IsReal (x : EReal) : Prop := ∃ v : ℝ, x = (v : EReal)
def Fin2 {a b : ℕ} (M : Mat a b) : Prop := ∀ r c, IsReal (M r c)
def Fin1 {a : ℕ} (v : Vct a) : Prop := ∀ c, IsReal (v c)

theorem isReal_zero : IsReal (0 : EReal) := ⟨0, EReal.coe_zero.symm⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_max {x y : EReal} (hx : IsReal x) (hy : IsReal y) : IsReal (max x y) := by
  obtain ⟨a, rfl⟩ := hx; obtain ⟨b, rfl⟩ := hy
  exact ⟨max a b, (EReal.coe_strictMono.monotone.map_max).symm⟩

theorem isReal_ite {p : Prop} [Decidable p] {x y : EReal} (hx : IsReal x) (hy : IsReal y) :
    IsReal (if p then x else y) := by
  split <;> assumption

theorem coe_sum {ι : Type} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

theorem isReal_sum {ι : Type} (s : Finset ι) {f : ι → EReal} (hf : ∀ i, IsReal (f i)) :
    IsReal (∑ i ∈ s, f i) := by
  choose g hg using hf
  exact ⟨∑ i ∈ s, g i, (coe_sum s g).trans (Finset.sum_congr rfl fun i _ => (hg i).symm) |>.symm⟩

theorem Fin2.exists_real {a b : ℕ} {M : Mat a b} (hM : Fin2 M) :
    ∃ Mr : Fin a → Fin b → ℝ, M = fun r c => (Mr r c : EReal) := by
  choose Mr hMr using hM
  exact ⟨Mr, funext₂ hMr⟩

theorem nNodes_eq : nNodes = ((50000 : ℝ) : EReal) := by
  show Ideal.ofBits .f32 0x47435000#32 = ((50000 : ℝ) : EReal)
  simp [Ideal.ofBits, Ideal.ieee, -EReal.coe_mul] <;> norm_num

theorem epsBN_pos : ∃ r : ℝ, 0 < r ∧ epsBN = (r : EReal) := by
  refine ⟨(10995116 : ℝ) * (2 : ℝ) ^ (-40 : ℤ), by positivity, ?_⟩
  show Ideal.ofBits .f32 0x3727C5AC#32 = _
  simp [Ideal.ofBits, Ideal.ieee, -EReal.coe_mul] <;> norm_num

theorem one32_eq : one32 = ((1 : ℝ) : EReal) := by
  show Ideal.ofBits .f32 0x3F800000#32 = ((1 : ℝ) : EReal)
  simp [Ideal.ofBits, Ideal.ieee, -EReal.coe_mul] <;> norm_num

theorem finite_comb {h : Mat 50000 128} {src dst : Fin 800000 → BitVec 32} {e : EReal}
    (hh : Fin2 h) (he : IsReal e) : Fin2 (comb h src dst e) := fun v c =>
  isReal_add (isReal_mul (isReal_add ⟨1, one32_eq⟩ he) (hh v c)) (isReal_sum _ fun _ => isReal_ite (hh _ c) isReal_zero)

theorem finite_mlp {x : Mat 50000 128} {W1 : Mat 128 128} {b1 : Vct 128} {W2 : Mat 128 128} {b2 : Vct 128}
    (hx : Fin2 x) (hW1 : Fin2 W1) (hb1 : Fin1 b1) (hW2 : Fin2 W2) (hb2 : Fin1 b2) : Fin2 (mlp x W1 b1 W2 b2) := fun r c =>
  isReal_add (isReal_sum _ fun k => isReal_mul (isReal_max
    (isReal_add (isReal_sum _ fun j => isReal_mul (hx r j) (hW1 j k)) (hb1 k)) isReal_zero) (hW2 k c)) (hb2 c)

theorem finite_csum {z : Mat 50000 128} (hz : Fin2 z) : Fin1 (csum z) := fun c => isReal_sum _ fun r => hz r c

theorem isReal_div_nNodes {x : EReal} (hx : IsReal x) : IsReal (Ideal.div x nNodes) := by
  rw [nNodes_eq, Ideal.div_coe (show (50000 : ℝ) ≠ 0 by norm_num)]
  exact isReal_mul hx ⟨_, rfl⟩

theorem meanOf_csum_coe (zr : Fin 50000 → Fin 128 → ℝ) (c : Fin 128) :
    meanOf (csum fun r c => (zr r c : EReal)) c = (((∑ r, zr r c) * (1 / 50000) : ℝ) : EReal) := by
  simp only [meanOf, csum, nNodes_eq, Ideal.div_coe (show (50000 : ℝ) ≠ 0 by norm_num), ← coe_sum,
    ← EReal.coe_mul]

theorem varK_coe (zr : Fin 50000 → Fin 128 → ℝ) (c : Fin 128) :
    varK (csum fun r c => (zr r c : EReal)) (csumsq fun r c => (zr r c : EReal)) c
      = (((∑ r, zr r c * zr r c) * (1 / 50000)
          - ((∑ r, zr r c) * (1 / 50000)) * ((∑ r, zr r c) * (1 / 50000)) : ℝ) : EReal) := by
  simp only [varK, csumsq, meanOf_csum_coe, nNodes_eq, Ideal.div_coe (show (50000 : ℝ) ≠ 0 by norm_num),
    ← EReal.coe_mul, ← coe_sum, ← EReal.coe_sub]

theorem varR_coe (zr : Fin 50000 → Fin 128 → ℝ) (c : Fin 128) :
    varR (fun r c => (zr r c : EReal)) c
      = (((∑ r, (zr r c - (∑ r, zr r c) * (1 / 50000)) * (zr r c - (∑ r, zr r c) * (1 / 50000)))
          * (1 / 50000) : ℝ) : EReal) := by
  have h0 : (nNodes - 0 : EReal) = ((50000 : ℝ) : EReal) := by rw [sub_zero, nNodes_eq]
  simp only [varR, h0, meanOf_csum_coe, Ideal.div_coe (show (50000 : ℝ) ≠ 0 by norm_num),
    ← EReal.coe_sub, ← EReal.coe_mul, ← coe_sum]

theorem finite_bn_R {z : Mat 50000 128} {g b : Vct 128} (hz : Fin2 z) (hg : Fin1 g) (hb : Fin1 b) :
    Fin2 (bn z (meanOf (csum z)) (varR z) g b) := by
  intro r c
  obtain ⟨zr, rfl⟩ := hz.exists_real
  obtain ⟨e, he0, he⟩ := epsBN_pos
  have hpos : 0 < (∑ r, (zr r c - (∑ r, zr r c) * (1 / 50000)) * (zr r c - (∑ r, zr r c) * (1 / 50000))) * (1 / 50000) + e :=
    add_pos_of_nonneg_of_pos (mul_nonneg (Finset.sum_nonneg fun r _ => mul_self_nonneg _) (by norm_num)) he0
  have hrs : IsReal (Ideal.rsqrt (varR (fun r c => (zr r c : EReal)) c + epsBN)) := by
    rw [varR_coe, he, ← EReal.coe_add, Ideal.rsqrt_coe, if_neg (not_lt.mpr hpos.le), if_neg hpos.ne']
    exact ⟨_, rfl⟩
  exact isReal_max (isReal_add (isReal_mul (isReal_mul (isReal_sub (hz r c) (isReal_div_nNodes (finite_csum hz c))) hrs)
    (hg c)) (hb c)) isReal_zero

theorem var_real {ι : Type} [Fintype ι] (f : ι → ℝ) (N : ℝ) (hN : N ≠ 0) (hc : (Fintype.card ι : ℝ) = N) :
    (∑ i, f i * f i) * (1 / N) - ((∑ i, f i) * (1 / N)) * ((∑ i, f i) * (1 / N))
      = (∑ i, (f i - (∑ j, f j) * (1 / N)) * (f i - (∑ j, f j) * (1 / N))) * (1 / N) := by
  have hsq : ∀ m : ℝ, ∑ i, (f i - m) * (f i - m)
      = (∑ i, f i * f i) - 2 * m * (∑ i, f i) + (Fintype.card ι : ℝ) * (m * m) := by
    intro m
    have e0 : ∀ i, (f i - m) * (f i - m) = f i * f i - 2 * m * f i + m * m := fun i => by ring
    have e1 : ∑ i, 2 * m * f i = 2 * m * ∑ i, f i := (Finset.mul_sum _ _ _).symm
    have e2 : ∑ _i : ι, m * m = (Fintype.card ι : ℝ) * (m * m) := by
      rw [Finset.sum_const, Finset.card_univ, nsmul_eq_mul]
    simp only [e0, Finset.sum_add_distrib, Finset.sum_sub_distrib, e1, e2]
  rw [hsq, hc]
  have hu : N * (1 / N) = 1 := mul_one_div_cancel hN
  generalize (∑ i, f i * f i) = A
  generalize (∑ i, f i) = S
  generalize (1 / N : ℝ) = u at hu ⊢
  linear_combination (-(S * u * (S * u))) * hu

theorem varK_eq_varR {z : Mat 50000 128} (hz : Fin2 z) : varK (csum z) (csumsq z) = varR z := by
  obtain ⟨zr, rfl⟩ := hz.exists_real
  funext c
  rw [varK_coe, varR_coe, EReal.coe_eq_coe_iff]
  exact var_real (fun r => zr r c) 50000 (by norm_num) (by simp)

-- On real inputs one normalized layer is the same with either variance, and its features are real.
theorem layer_KR {h : Mat 50000 128} {src dst : Fin 800000 → BitVec 32} {e : EReal}
    {W1 : Mat 128 128} {b1 : Vct 128} {W2 : Mat 128 128} {b2 g b : Vct 128}
    (hh : Fin2 h) (he : IsReal e) (hW1 : Fin2 W1) (hb1 : Fin1 b1) (hW2 : Fin2 W2) (hb2 : Fin1 b2)
    (hg : Fin1 g) (hb : Fin1 b) :
    layerK h src dst e W1 b1 W2 b2 g b = layerR h src dst e W1 b1 W2 b2 g b
      ∧ Fin2 (layerR h src dst e W1 b1 W2 b2 g b) :=
  have hz := finite_mlp (finite_comb hh he) hW1 hb1 hW2 hb2
  ⟨by simp only [layerK, layerR, varK_eq_varR hz], finite_bn_R hz hg hb⟩

theorem outK_eq_outR (I : Inputs) (hI : I.Finite) : outK I = outR I := by
  obtain ⟨hx, hW1, hb1, hW2, hb2, he, hg, hb⟩ := hI
  have L := fun (h : Mat 50000 128) (hh : Fin2 h) (i : Fin 4) (i' : Fin 3) =>
    layer_KR (src := I.src) (dst := I.dst) (W1 := I.W1 i) (b1 := I.b1 i) (W2 := I.W2 i) (b2 := I.b2 i) (g := I.g i')
      (b := I.b i') hh (he i) (hW1 i) (hb1 i) (hW2 i) (hb2 i) (hg i') (hb i')
  obtain ⟨e1, f1⟩ := L _ hx 0 0
  obtain ⟨e2, f2⟩ := L _ f1 1 1
  simp only [outK, outR]
  rw [e1, e2, (L _ f2 2 2).1]

theorem toInt_ofNat_small (g : Fin 128) : (BitVec.ofNat 32 g.val).toInt = (g.val : ℤ) := by
  have hg : g.val < 128 := g.isLt
  have hmod : g.val % 2 ^ 32 = g.val := Nat.mod_eq_of_lt (by omega)
  have hlt : 2 * g.val < 2 ^ 32 := by omega
  rw [BitVec.toInt_eq_toNat_cond, BitVec.toNat_ofNat, hmod, if_pos hlt]

theorem eq_ofNat_iff_toInt (w : BitVec 32) (g : Fin 128) : w = BitVec.ofNat 32 g.val ↔ w.toInt = (g.val : ℤ) :=
  ⟨fun hw => by rw [hw]; exact toInt_ofNat_small g,
   fun hw => BitVec.eq_of_toInt_eq (hw.trans (toInt_ofNat_small g).symm)⟩

-- 1 · x = x and 0 · x = 0 for every extended real x, so the one-hot weighted sum is the selected sum.
theorem pool_onehot (h : Mat 50000 128) (batch : Fin 50000 → BitVec 32) (g : Fin 128) (d : Fin 128) :
    (∑ n : Fin 50000, (if batch n = BitVec.ofNat 32 g.val then (1 : EReal) else 0) * h n d)
      = pool h batch g d := by
  show _ = ∑ n : Fin 50000, if (batch n).toInt = (g.val : ℤ) then h n d else 0
  refine Finset.sum_congr rfl fun n _ => ?_
  by_cases h2 : (batch n).toInt = (g.val : ℤ)
  · rw [if_pos h2, if_pos ((eq_ofNat_iff_toInt _ g).mpr h2), one_mul]
  · rw [if_neg h2, if_neg fun e => h2 ((eq_ofNat_iff_toInt _ g).mp e), zero_mul]

theorem sum_tiles (f : Fin 50000 → EReal) :
    ∑ t : Fin 5, ∑ i : Fin 10000, f ⟨t.val * 10000 + i.val, by omega⟩ = ∑ r : Fin 50000, f r := by
  have h1 := Fintype.sum_prod_type'
    (fun (t : Fin 5) (i : Fin 10000) => f ⟨t.val * 10000 + i.val, by omega⟩)
  refine h1.symm.trans ?_
  refine Fintype.sum_equiv
    (finProdFinEquiv.trans (finCongr (show 5 * 10000 = 50000 by norm_num))) _ _ (fun x => ?_)
  refine congrArg f (Fin.ext ?_)
  show x.1.val * 10000 + x.2.val = x.2.val + 10000 * x.1.val
  omega

end Cert.Spec

end
-- ==== Proof.KI.MlpTile.lean ====
import proofs.«430114_j32719060861414_1_alg».proof.Proof.Gen.KernelIdeal.Skeleton
import proofs.«430114_j32719060861414_1_alg».proof.Proof.Spec
import proofs.«430114_j32719060861414_1_alg».proof.Proof.Math
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

theorem lhs_dotTile_0 (j : S10000x128.Idx) (k : dot_S10000x128_S128x128_S10000x128_1_0_0_1_n_n.contr.Idx) :
    (dot_S10000x128_S128x128_S10000x128_1_0_0_1_n_n.lhsIdx j k (0 : Fin 2)).val = (j (0 : Fin 2)).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem lhs_dotTile_1 (j : S10000x128.Idx) (k : dot_S10000x128_S128x128_S10000x128_1_0_0_1_n_n.contr.Idx) :
    (dot_S10000x128_S128x128_S10000x128_1_0_0_1_n_n.lhsIdx j k (1 : Fin 2)).val = (k ⟨0, by decide⟩).val :=
  DotDims.lhsIdx_val_of_single _ (cl := (1 : Fin 2)) rfl j k

theorem rhs_dotTile_0 (j : S10000x128.Idx) (k : dot_S10000x128_S128x128_S10000x128_1_0_0_1_n_n.contr.Idx) :
    (dot_S10000x128_S128x128_S10000x128_1_0_0_1_n_n.rhsIdx j k (0 : Fin 2)).val = (k ⟨0, by decide⟩).val :=
  DotDims.rhsIdx_val_of_single _ (cr := (0 : Fin 2)) rfl j k

theorem rhs_dotTile_1 (j : S10000x128.Idx) (k : dot_S10000x128_S128x128_S10000x128_1_0_0_1_n_n.contr.Idx) :
    (dot_S10000x128_S128x128_S10000x128_1_0_0_1_n_n.rhsIdx j k (1 : Fin 2)).val = (j (1 : Fin 2)).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

-- into the zero accumulator the product is the plain sum over the inner coordinate, since 0 + x = x
theorem matmulTile_apply (a : FVec Ideal S10000x128 .f32) (b : FVec Ideal S128x128 .f32) (r : Fin 10000) (q : Fin 128) :
    matmul dot_S10000x128_S128x128_S10000x128_1_0_0_1_n_n none a b (constant (F := Ideal) S10000x128 .f32 0x00000000#32) (ix2 r q)
      = ∑ k : Fin 128, a (ix2 r k) * b (ix2 k q) := by
  refine (Ideal.matmul_constant_zero_apply dot_S10000x128_S128x128_S10000x128_1_0_0_1_n_n none a b (ix2 r q)).trans ?_
  refine Fintype.sum_equiv (contrEquiv1 dot_S10000x128_S128x128_S10000x128_1_0_0_1_n_n 128 rfl rfl) _ _ fun k => ?_
  have hk : ((contrEquiv1 dot_S10000x128_S128x128_S10000x128_1_0_0_1_n_n 128 rfl rfl k : Fin 128) : ℕ) = (k ⟨0, by decide⟩).val := rfl
  rw [show dot_S10000x128_S128x128_S10000x128_1_0_0_1_n_n.lhsIdx (ix2 r q) k
      = ix2 r (contrEquiv1 dot_S10000x128_S128x128_S10000x128_1_0_0_1_n_n 128 rfl rfl k) from
      Shape.idx_ext₂ (lhs_dotTile_0 _ _) ((lhs_dotTile_1 _ _).trans hk.symm),
    show dot_S10000x128_S128x128_S10000x128_1_0_0_1_n_n.rhsIdx (ix2 r q) k
      = ix2 (contrEquiv1 dot_S10000x128_S128x128_S10000x128_1_0_0_1_n_n 128 rfl rfl k) q from
      Shape.idx_ext₂ ((rhs_dotTile_0 _ _).trans hk.symm) (rhs_dotTile_1 _ _)]

-- (max (x·W1 + b1) 0)·W2 + b2 on one tile of rows
def tileMlp (x0 : FVec Ideal S10000x128 .f32) (x1 : FVec Ideal S128x128 .f32) (x2 : FVec Ideal S1x128 .f32)
    (x3 : FVec Ideal S128x128 .f32) (x4 : FVec Ideal S1x128 .f32) : FVec Ideal S10000x128 .f32 :=
  addf (matmul dot_S10000x128_S128x128_S10000x128_1_0_0_1_n_n none
      (maximumf (addf (matmul dot_S10000x128_S128x128_S10000x128_1_0_0_1_n_n none x0 x1 (constant (F := Ideal) S10000x128 .f32 0x00000000#32))
          (broadcastTo S10000x128 x2 broadcasts_S1x128_S10000x128))
        (broadcast S10000x128 (Scalar.ofBits (F := Ideal) .f32 0x00000000#32)))
      x3 (constant (F := Ideal) S10000x128 .f32 0x00000000#32))
    (broadcastTo S10000x128 x4 broadcasts_S1x128_S10000x128)

theorem tileMlp_apply (x0 : FVec Ideal S10000x128 .f32) (x1 : FVec Ideal S128x128 .f32) (x2 : FVec Ideal S1x128 .f32)
    (x3 : FVec Ideal S128x128 .f32) (x4 : FVec Ideal S1x128 .f32) (r : Fin 10000) (q : Fin 128) :
    tileMlp x0 x1 x2 x3 x4 (ix2 r q)
      = (∑ k : Fin 128, max ((∑ j : Fin 128, x0 (ix2 r j) * x1 (ix2 j k)) + x2 (ix2 (0 : Fin 1) k)) 0 * x3 (ix2 k q))
        + x4 (ix2 (0 : Fin 1) q) := by
  unfold tileMlp
  rw [addf_apply, matmulTile_apply, broadcastTo_1b_ab_apply]
  refine congrArg (· + x4 (ix2 (0 : Fin 1) q)) (Finset.sum_congr rfl fun k _ => ?_)
  rw [maximumf_apply, addf_apply, matmulTile_apply, broadcastTo_1b_ab_apply, broadcast_apply]
  rw [show (Scalar.ofBits (F := Ideal) .f32 0x00000000#32 : Ideal .f32) = 0 from Ideal.ofBits_zero_f32]

-- a row plus the column sums of a tile
def addColsum (a : FVec Ideal S1x128 .f32) (z : FVec Ideal S10000x128 .f32) : FVec Ideal S1x128 .f32 :=
  addf a (shapeCast S1x128 (multiReduction (F := Ideal) .add [0] S128 z 0x00000000#32 reduces_S10000x128_S128 (.inl rfl) rfl) shapeCasts_S128_S1x128)

theorem addColsum_apply (a : FVec Ideal S1x128 .f32) (z : FVec Ideal S10000x128 .f32) (q : Fin 128) :
    addColsum a z (ix2 (0 : Fin 1) q) = a (ix2 (0 : Fin 1) q) + ∑ r : Fin 10000, z (ix2 r q) := by
  unfold addColsum
  rw [addf_apply]
  refine congrArg (a (ix2 (0 : Fin 1) q) + ·) ?_
  refine (shapeCast_addUnit_apply _ _ _ _).trans ?_
  refine (Ideal.multiReduction_add_single z 0x00000000#32 reduces_S10000x128_S128 (.inl rfl) rfl _).trans ?_
  exact Finset.sum_congr rfl fun r _ => congrArg z (Shape.idx_ext₂ rfl rfl)

theorem zeroRow_apply (q : Fin 128) :
    (broadcast S1x128 (Scalar.ofBits (F := Ideal) .f32 0x00000000#32) : FVec Ideal S1x128 .f32) (ix2 (0 : Fin 1) q) = 0 :=
  Ideal.ofBits_zero_f32

theorem tile_lt {N : ℕ} (hN : N = 5) (t : Fin N) (r : Fin 10000) : t.val * 10000 + r.val < 50000 := by
  have := t.isLt; have := r.isLt; omega

abbrev mlpOf (X : S50000x128.Idx → EReal) (W1 : S128x128.Idx → EReal) (B1 : S1x128.Idx → EReal) (W2 : S128x128.Idx → EReal)
    (B2 : S1x128.Idx → EReal) : Spec.Mat 50000 128 :=
  Spec.mlp (fun r j => X (ix2 r j)) (fun j k => W1 (ix2 j k)) (fun k => B1 (ix2 (0 : Fin 1) k)) (fun j k => W2 (ix2 j k))
    (fun k => B2 (ix2 (0 : Fin 1) k))

-- the perceptron reads one row of x and all of the weights, so row r of a tile is row R of the array
theorem tileMlp_of_blocks {X : S50000x128.Idx → EReal} {W1 W2 : S128x128.Idx → EReal} {B1 B2 : S1x128.Idx → EReal}
    {x0 : FVec Ideal S10000x128 .f32} {x1 x3 : FVec Ideal S128x128 .f32} {x2 x4 : FVec Ideal S1x128 .f32} {r : Fin 10000} {R : Fin 50000}
    (h0 : ∀ j, x0 (ix2 r j) = X (ix2 R j)) (h1 : x1 = W1) (h2 : x2 = B1) (h3 : x3 = W2) (h4 : x4 = B2) (q : Fin 128) :
    tileMlp x0 x1 x2 x3 x4 (ix2 r q) = mlpOf X W1 B1 W2 B2 R q := by
  subst h1 h2 h3 h4
  rw [tileMlp_apply]
  simp only [h0]
  rfl

-- induction on the tile: the start is zero and each step adds one tile's column sums
theorem colsum_run {N : ℕ} (Z : (n : ℕ) → n < N → FVec Ideal S10000x128 .f32) (s : (n : ℕ) → n < N → FVec Ideal S1x128 .f32)
    (a0 : FVec Ideal S1x128 .f32) (q : Fin 128) (ha : a0 (ix2 (0 : Fin 1) q) = 0)
    (h0 : ∀ h, s 0 h = addColsum a0 (Z 0 h))
    (hs : ∀ n h, s (n + 1) h = addColsum (s n (Nat.lt_of_succ_lt h)) (Z (n + 1) h)) :
    ∀ n h, s n h (ix2 (0 : Fin 1) q) = ∑ i : Fin (n + 1), ∑ r : Fin 10000, Z i (Nat.lt_of_lt_of_le i.isLt h) (ix2 r q)
  | 0, h => by rw [h0, addColsum_apply, ha, zero_add, Fin.sum_univ_one]; rfl
  | n + 1, h => by rw [hs, addColsum_apply, Fin.sum_univ_castSucc (n := n + 1), colsum_run Z s a0 q ha h0 hs n]; rfl

theorem row_split {N : ℕ} (hN : N = 5) (r : Fin 50000) :
    ∃ (t : Fin N) (p : Fin 10000), r = ⟨t.val * 10000 + p.val, tile_lt hN t p⟩ := by
  subst hN
  have := r.isLt
  exact ⟨⟨r.val / 10000, by omega⟩, ⟨r.val % 10000, Nat.mod_lt _ (by decide)⟩,
    Fin.ext (by show r.val = r.val / 10000 * 10000 + r.val % 10000; omega)⟩

-- the payloads are the tile functions up to identity shape casts
theorem pay4_eq (x0 : Vec Ideal S10000x128 .f32) (x1 : Vec Ideal S128x128 .f32) (x2 : Vec Ideal S1x128 .f32)
    (x3 : Vec Ideal S128x128 .f32) (x4 : Vec Ideal S1x128 .f32) : k0_pay4 x0 x1 x2 x3 x4 = tileMlp x0 x1 x2 x3 x4 := by
  unfold k0_pay4 tileMlp
  simp only [shapeCast_self]

theorem pay5_eq (x0 : Vec Ideal S10000x128 .f32) (x1 : Vec Ideal S128x128 .f32) (x2 : Vec Ideal S1x128 .f32)
    (x3 : Vec Ideal S128x128 .f32) (x4 a : Vec Ideal S1x128 .f32) :
    k0_pay5 x0 x1 x2 x3 x4 a = addColsum a (tileMlp x0 x1 x2 x3 x4) := by
  unfold k0_pay5 addColsum
  simp only [shapeCast_self, pay4_eq]

theorem pay1_eq (x0 : Vec Ideal S10000x128 .f32) (x1 : Vec Ideal S128x128 .f32) (x2 : Vec Ideal S1x128 .f32)
    (x3 : Vec Ideal S128x128 .f32) (x4 a : Vec Ideal S1x128 .f32) :
    k0_pay1 (k0_pay6 a) (k0_pay7 x0 x1 x2 x3 x4) = addColsum a (mulf (tileMlp x0 x1 x2 x3 x4) (tileMlp x0 x1 x2 x3 x4)) := by
  unfold k0_pay1 k0_pay6 k0_pay7 addColsum
  simp only [shapeCast_self, pay4_eq]

section Stats

variable {N : ℕ} (hN : N = 5) (x0 : Fin N → Vec Ideal S10000x128 .f32) (x1 : Fin N → Vec Ideal S128x128 .f32)
  (x2 : Fin N → Vec Ideal S1x128 .f32) (x3 : Fin N → Vec Ideal S128x128 .f32) (x4 : Fin N → Vec Ideal S1x128 .f32) (g : Spec.Mat 50000 128)
  (hg : ∀ t r q, tileMlp (x0 t) (x1 t) (x2 t) (x3 t) (x4 t) (ix2 r q) = g ⟨t.val * 10000 + r.val, tile_lt hN t r⟩ q)
include hg

-- the five tile sums re-associate into the sum over all 50000 rows
theorem acc_total (φ : EReal → EReal) (Z : (n : ℕ) → n < N → FVec Ideal S10000x128 .f32)
    (hZ : ∀ n h i, Z n h i = φ (tileMlp (x0 ⟨n, h⟩) (x1 ⟨n, h⟩) (x2 ⟨n, h⟩) (x3 ⟨n, h⟩) (x4 ⟨n, h⟩) i))
    (s : (n : ℕ) → n < N → FVec Ideal S1x128 .f32) (a0 : FVec Ideal S1x128 .f32) (ha : ∀ q, a0 (ix2 (0 : Fin 1) q) = 0)
    (h0 : ∀ h, s 0 h = addColsum a0 (Z 0 h)) (hs : ∀ n h, s (n + 1) h = addColsum (s n (Nat.lt_of_succ_lt h)) (Z (n + 1) h))
    (t : Fin N) (ht : t.val = 4) (y : S1x128.Idx) : s t.val t.isLt y = ∑ R : Fin 50000, φ (g R (y 1)) := by
  subst hN
  obtain ⟨_, h4⟩ := t
  subst ht
  obtain ⟨r0, q, rfl⟩ : ∃ (r0 : Fin 1) (q : Fin 128), y = ix2 r0 q := ⟨y 0, y 1, eq_ix2 y⟩
  obtain rfl : r0 = 0 := Subsingleton.elim _ _
  refine (colsum_run Z s a0 q (ha q) h0 hs 4 h4).trans ?_
  simp only [hZ, hg]
  exact Spec.sum_tiles fun R => φ (g R q)

-- both accumulators are instances: φ the identity, and φ the square
theorem stats_total (s ss : (n : ℕ) → n < N → Vec Ideal S1x128 .f32)
    (h0 : ∀ h, s 0 h = k0_pay5 (x0 ⟨0, h⟩) (x1 ⟨0, h⟩) (x2 ⟨0, h⟩) (x3 ⟨0, h⟩) (x4 ⟨0, h⟩) (k0_pay2 (F := Ideal)))
    (hs : ∀ n h, s (n + 1) h = k0_pay5 (x0 ⟨n + 1, h⟩) (x1 ⟨n + 1, h⟩) (x2 ⟨n + 1, h⟩) (x3 ⟨n + 1, h⟩) (x4 ⟨n + 1, h⟩) (s n (Nat.lt_of_succ_lt h)))
    (h0' : ∀ h, ss 0 h = k0_pay1 (k0_pay6 (k0_pay3 (F := Ideal))) (k0_pay7 (x0 ⟨0, h⟩) (x1 ⟨0, h⟩) (x2 ⟨0, h⟩) (x3 ⟨0, h⟩) (x4 ⟨0, h⟩)))
    (hs' : ∀ n h, ss (n + 1) h = k0_pay1 (k0_pay6 (ss n (Nat.lt_of_succ_lt h)))
      (k0_pay7 (x0 ⟨n + 1, h⟩) (x1 ⟨n + 1, h⟩) (x2 ⟨n + 1, h⟩) (x3 ⟨n + 1, h⟩) (x4 ⟨n + 1, h⟩)))
    (t : Fin N) (ht : t.val = 4) (y : S1x128.Idx) :
    s t.val t.isLt y = Spec.csum g (y 1) ∧ ss t.val t.isLt y = Spec.csumsq g (y 1) :=
  ⟨acc_total hN x0 x1 x2 x3 x4 g hg id _ (fun _ _ _ => rfl) s _ zeroRow_apply (fun h => (h0 h).trans (pay5_eq ..))
      (fun n h => (hs n h).trans (pay5_eq ..)) t ht y,
    acc_total hN x0 x1 x2 x3 x4 g hg (fun v => v * v) _ (fun _ _ _ => rfl) ss _ zeroRow_apply (fun h => (h0' h).trans (pay1_eq ..))
      (fun n h => (hs' n h).trans (pay1_eq ..)) t ht y⟩

end Stats

-- one covering block among blocks of G decides every entry
theorem arrAt_eq_of_last {Λ₀ : Labels} {cfg : Pipeline.Cfg sig Λ₀} {c : Dev nD} (dat : Dat τ (Elt Ideal) Unit ℕ (UR sig nD τ) ℕ cfg c)
    (w : Fin cfg.W) (G : Buf (Elt Ideal) ((cfg.win w).arr.view.loc (c.tc : Thread nD τ))) (tl : Fin cfg.N)
    (hf : (cfg.win w).flush tl = true)
    (hG : ∀ t, (cfg.win w).flush t = true → dat.flushed w t = ((cfg.win w).blk t).view.read (Elt Ideal) G)
    (hcov : ∀ i, ∃ y, ((cfg.win w).blk tl).view.emb y = i) : dat.arrAt w cfg.N = G :=
  dat.arrAt_eq_of_cover w G hG fun i => (hcov i).elim fun y hy => ⟨tl, hf, hy ▸ View.emb_mem_set _ y⟩

theorem zeroOffsets2 : (![0, 0] : Fin 2 → Nat) = fun _ => 0 := funext fun a => by fin_cases a <;> rfl

theorem rsqrt_apply {s : Shape} (a : FVec Ideal s .f32) (i : s.Idx) : rsqrt a i = Ideal.rsqrt (a i) := rfl

-- the normalisation is entrywise in the activations and reads each one-row operand at the column
theorem bnTile_of_blocks {Z : S50000x128.Idx → EReal} {M Vr G B : S1x128.Idx → EReal} {x0 : Vec Ideal S10000x128 .f32}
    {xv xm xg xb : Vec Ideal S1x128 .f32} {p : Fin 10000} {R : Fin 50000} (h0 : ∀ q, x0 (ix2 p q) = Z (ix2 R q))
    (hm : xm = M) (hv : xv = Vr) (hg : xg = G) (hb : xb = B) (q : Fin 128) :
    k1_pay1 x0 xv xm xg xb (ix2 p q) = Spec.bn (fun r q => Z (ix2 r q)) (fun q => M (ix2 (0 : Fin 1) q)) (fun q => Vr (ix2 (0 : Fin 1) q))
      (fun q => G (ix2 (0 : Fin 1) q)) (fun q => B (ix2 (0 : Fin 1) q)) R q := by
  subst hm hv hg hb
  unfold k1_pay1
  simp only [maximumf_apply, addf_apply, mulf_apply, subf_apply, rsqrt_apply, broadcast_apply, shapeCast_self,
    broadcastTo_1b_ab_apply, h0]
  rw [show (Scalar.ofBits .f32 0x00000000#32 : Ideal .f32) = 0 from Ideal.ofBits_zero_f32]
  rfl

end Cert.KernelIdeal.Hand

end
-- ==== Proof.KI.ValM0.lean ====
import proofs.«430114_j32719060861414_1_alg».proof.Proof.KI.RegM0
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev zOut0 (c : Dev nD) : Spec.Mat 50000 128 :=
  mlpOf (V c (Pipeline.arrRef spec0 0)) (V c (Pipeline.arrRef spec0 1)) (V c (Pipeline.arrRef spec0 2)) (V c (Pipeline.arrRef spec0 3))
    (V c (Pipeline.arrRef spec0 4))

theorem idx0 : ∀ t : Fin cfg0.N, (win0_0.index t (0 : Fin 2) = t.val ∧ win0_0.index t (1 : Fin 2) = 0
      ∧ win0_5.index t (0 : Fin 2) = t.val ∧ win0_5.index t (1 : Fin 2) = 0)
    ∧ ∀ a : Fin 2, win0_1.index t a = 0 ∧ win0_2.index t a = 0 ∧ win0_3.index t a = 0 ∧ win0_4.index t a = 0
      ∧ win0_6.index t a = 0 ∧ win0_7.index t a = 0 :=
  (by decide +kernel : ∀ t : Fin grid0.N, _)

theorem emb0_0 (t : Fin cfg0.N) (r : Fin 10000) (q : Fin 128) :
    ((cfg0.win 0).blk t).view.emb (ix2 r q) = ix2 ⟨t.val * 10000 + r.val, tile_lt N_0 t r⟩ q := by
  obtain ⟨⟨e0, e1, -⟩, -⟩ := idx0 t
  refine Shape.idx_ext₂ ?_ ?_
  · show win0_0.index t (0 : Fin 2) * 10000 + 1 * r.val = t.val * 10000 + r.val; omega
  · show win0_0.index t (1 : Fin 2) * 128 + 1 * q.val = q.val; omega

theorem emb0_5 (t : Fin cfg0.N) (r : Fin 10000) (q : Fin 128) :
    ((cfg0.win 5).blk t).view.emb (ix2 r q) = ix2 ⟨t.val * 10000 + r.val, tile_lt N_0 t r⟩ q := by
  obtain ⟨⟨-, -, e0, e1⟩, -⟩ := idx0 t
  refine Shape.idx_ext₂ ?_ ?_
  · show win0_5.index t (0 : Fin 2) * 10000 + 1 * r.val = t.val * 10000 + r.val; omega
  · show win0_5.index t (1 : Fin 2) * 128 + 1 * q.val = q.val; omega

theorem tile_apply0 (c : Dev nD) (t : Fin cfg0.N) (r : Fin 10000) (q : Fin 128) :
    tileMlp (xb0 V c t) (w1b0 V c t) (b1b0 V c t) (w2b0 V c t) (b2b0 V c t) (ix2 r q)
      = zOut0 V c ⟨t.val * 10000 + r.val, tile_lt N_0 t r⟩ q :=
  tileMlp_of_blocks (fun j => congrArg (V c (Pipeline.arrRef spec0 0)) (emb0_0 t r j))
    (funext fun y => congrArg (V c (Pipeline.arrRef spec0 1)) (funext fun a => Fin.ext (win0_1.rect_emb_val_of_index_zero t a ((idx0 t).2 a).1 y)))
    (funext fun y => congrArg (V c (Pipeline.arrRef spec0 2)) (funext fun a => Fin.ext (win0_2.rect_emb_val_of_index_zero t a ((idx0 t).2 a).2.1 y)))
    (funext fun y => congrArg (V c (Pipeline.arrRef spec0 3)) (funext fun a => Fin.ext (win0_3.rect_emb_val_of_index_zero t a ((idx0 t).2 a).2.2.1 y)))
    (funext fun y => congrArg (V c (Pipeline.arrRef spec0 4)) (funext fun a => Fin.ext (win0_4.rect_emb_val_of_index_zero t a ((idx0 t).2 a).2.2.2.1 y))) q

theorem final0_5 (c : Dev nD) (r : Fin 50000) (q : Fin 128) :
    ((dat0 V c).arrAt 5 cfg0.N : S50000x128.Idx → EReal) (ix2 r q) = zOut0 V c r q := by
  obtain ⟨t, p, rfl⟩ := row_split N_0 r
  rw [← emb0_5 t p q]
  refine ((dat0 V c).arrAt_apply_of_mem 5 (fun i => zOut0 V c (i 0) (i 1)) (fun t _ => funext fun y => ?_) cfg0.N t _ t.isLt
    (flush0_5 t) (View.emb_mem_set _ _)).trans (by rw [emb0_5]; rfl)
  obtain ⟨p, j, rfl⟩ : ∃ (p : Fin 10000) (j : Fin 128), y = ix2 p j := ⟨y 0, y 1, eq_ix2 y⟩
  show z0 V c t (ix2 p j) = zOut0 V c ((((cfg0.win 5).blk t).view.emb (ix2 p j)) 0) ((((cfg0.win 5).blk t).view.emb (ix2 p j)) 1)
  rw [emb0_5]
  exact (congrFun (pay4_eq ..) _).trans (tile_apply0 V c t p j)

theorem stats0 (c : Dev nD) (t : Fin cfg0.N) (ht : t.val = 4) (y : S1x128.Idx) :
    sum0 V c t.val t.isLt y = Spec.csum (zOut0 V c) (y 1) ∧ sumsq0 V c t.val t.isLt y = Spec.csumsq (zOut0 V c) (y 1) :=
  stats_total N_0 (xb0 V c) (w1b0 V c) (b1b0 V c) (w2b0 V c) (b2b0 V c) (zOut0 V c) (tile_apply0 V c) (sum0 V c) (sumsq0 V c)
    (fun _ => rfl) (fun _ _ => rfl) (fun _ => rfl) (fun _ _ => rfl) t ht y

theorem last0 (t : Fin cfg0.N) (h : t.val % 5 = 4) : t.val = 4 := by
  have := t.isLt; have : cfg0.N = 5 := N_0; omega

theorem final0_6 (c : Dev nD) (q : Fin 128) :
    ((dat0 V c).arrAt 6 cfg0.N : S1x128.Idx → EReal) (ix2 (0 : Fin 1) q) = Spec.csum (zOut0 V c) q := by
  have he (t y) : ((cfg0.win 6).blk t).view.emb y = y :=
    funext fun a => Fin.ext (win0_6.rect_emb_val_of_index_zero t a ((idx0 t).2 a).2.2.2.2.1 y)
  have hr (g : Fin 128 → EReal) (t) : ((cfg0.win 6).blk t).view.read (Elt Ideal) (fun i : S1x128.Idx => g (i 1)) = fun j => g (j 1) :=
    funext fun j => congrArg (fun i : S1x128.Idx => g (i 1)) (he t j)
  refine congrFun (arrAt_eq_of_last (dat0 V c) 6 (fun i : S1x128.Idx => Spec.csum (zOut0 V c) (i 1)) t0_4 ((flush0_6 _).mpr rfl)
    (fun t hf => ?_) fun i => ⟨i, he _ i⟩) (ix2 (0 : Fin 1) q)
  show (cfg0.win 6).cut (grid0.coords t) ((dat0 V c).after 6 t) = _
  rw [after0_6, hr (Spec.csum (zOut0 V c))]
  exact funext fun y => (stats0 V c t (last0 t ((flush0_6 t).mp hf)) y).1

theorem final0_7 (c : Dev nD) (q : Fin 128) :
    ((dat0 V c).arrAt 7 cfg0.N : S1x128.Idx → EReal) (ix2 (0 : Fin 1) q) = Spec.csumsq (zOut0 V c) q := by
  have he (t y) : ((cfg0.win 7).blk t).view.emb y = y :=
    funext fun a => Fin.ext (win0_7.rect_emb_val_of_index_zero t a ((idx0 t).2 a).2.2.2.2.2 y)
  have hr (g : Fin 128 → EReal) (t) : ((cfg0.win 7).blk t).view.read (Elt Ideal) (fun i : S1x128.Idx => g (i 1)) = fun j => g (j 1) :=
    funext fun j => congrArg (fun i : S1x128.Idx => g (i 1)) (he t j)
  refine congrFun (arrAt_eq_of_last (dat0 V c) 7 (fun i : S1x128.Idx => Spec.csumsq (zOut0 V c) (i 1)) t0_4 ((flush0_7 _).mpr rfl)
    (fun t hf => ?_) fun i => ⟨i, he _ i⟩) (ix2 (0 : Fin 1) q)
  show (cfg0.win 7).cut (grid0.coords t) ((dat0 V c).after 7 t) = _
  rw [after0_7, hr (Spec.csumsq (zOut0 V c))]
  exact funext fun y => (stats0 V c t (last0 t ((flush0_7 t).mp hf)) y).2

end Cert.KernelIdeal.Hand

end
-- ==== Proof.KI.ValM2.lean ====
import proofs.«430114_j32719060861414_1_alg».proof.Proof.KI.RegM2
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev zOut2 (c : Dev nD) : Spec.Mat 50000 128 :=
  mlpOf (V c (Pipeline.arrRef spec2 0)) (V c (Pipeline.arrRef spec2 1)) (V c (Pipeline.arrRef spec2 2)) (V c (Pipeline.arrRef spec2 3))
    (V c (Pipeline.arrRef spec2 4))

theorem idx2 : ∀ t : Fin cfg2.N, (win2_0.index t (0 : Fin 2) = t.val ∧ win2_0.index t (1 : Fin 2) = 0
      ∧ win2_5.index t (0 : Fin 2) = t.val ∧ win2_5.index t (1 : Fin 2) = 0)
    ∧ ∀ a : Fin 2, win2_1.index t a = 0 ∧ win2_2.index t a = 0 ∧ win2_3.index t a = 0 ∧ win2_4.index t a = 0
      ∧ win2_6.index t a = 0 ∧ win2_7.index t a = 0 :=
  (by decide +kernel : ∀ t : Fin grid2.N, _)

theorem emb2_0 (t : Fin cfg2.N) (r : Fin 10000) (q : Fin 128) :
    ((cfg2.win 0).blk t).view.emb (ix2 r q) = ix2 ⟨t.val * 10000 + r.val, tile_lt N_2 t r⟩ q := by
  obtain ⟨⟨e0, e1, -⟩, -⟩ := idx2 t
  refine Shape.idx_ext₂ ?_ ?_
  · show win2_0.index t (0 : Fin 2) * 10000 + 1 * r.val = t.val * 10000 + r.val; omega
  · show win2_0.index t (1 : Fin 2) * 128 + 1 * q.val = q.val; omega

theorem emb2_5 (t : Fin cfg2.N) (r : Fin 10000) (q : Fin 128) :
    ((cfg2.win 5).blk t).view.emb (ix2 r q) = ix2 ⟨t.val * 10000 + r.val, tile_lt N_2 t r⟩ q := by
  obtain ⟨⟨-, -, e0, e1⟩, -⟩ := idx2 t
  refine Shape.idx_ext₂ ?_ ?_
  · show win2_5.index t (0 : Fin 2) * 10000 + 1 * r.val = t.val * 10000 + r.val; omega
  · show win2_5.index t (1 : Fin 2) * 128 + 1 * q.val = q.val; omega

theorem tile_apply2 (c : Dev nD) (t : Fin cfg2.N) (r : Fin 10000) (q : Fin 128) :
    tileMlp (xb2 V c t) (w1b2 V c t) (b1b2 V c t) (w2b2 V c t) (b2b2 V c t) (ix2 r q)
      = zOut2 V c ⟨t.val * 10000 + r.val, tile_lt N_2 t r⟩ q :=
  tileMlp_of_blocks (fun j => congrArg (V c (Pipeline.arrRef spec2 0)) (emb2_0 t r j))
    (funext fun y => congrArg (V c (Pipeline.arrRef spec2 1)) (funext fun a => Fin.ext (win2_1.rect_emb_val_of_index_zero t a ((idx2 t).2 a).1 y)))
    (funext fun y => congrArg (V c (Pipeline.arrRef spec2 2)) (funext fun a => Fin.ext (win2_2.rect_emb_val_of_index_zero t a ((idx2 t).2 a).2.1 y)))
    (funext fun y => congrArg (V c (Pipeline.arrRef spec2 3)) (funext fun a => Fin.ext (win2_3.rect_emb_val_of_index_zero t a ((idx2 t).2 a).2.2.1 y)))
    (funext fun y => congrArg (V c (Pipeline.arrRef spec2 4)) (funext fun a => Fin.ext (win2_4.rect_emb_val_of_index_zero t a ((idx2 t).2 a).2.2.2.1 y))) q

theorem final2_5 (c : Dev nD) (r : Fin 50000) (q : Fin 128) :
    ((dat2 V c).arrAt 5 cfg2.N : S50000x128.Idx → EReal) (ix2 r q) = zOut2 V c r q := by
  obtain ⟨t, p, rfl⟩ := row_split N_2 r
  rw [← emb2_5 t p q]
  refine ((dat2 V c).arrAt_apply_of_mem 5 (fun i => zOut2 V c (i 0) (i 1)) (fun t _ => funext fun y => ?_) cfg2.N t _ t.isLt
    (flush2_5 t) (View.emb_mem_set _ _)).trans (by rw [emb2_5]; rfl)
  obtain ⟨p, j, rfl⟩ : ∃ (p : Fin 10000) (j : Fin 128), y = ix2 p j := ⟨y 0, y 1, eq_ix2 y⟩
  show z2 V c t (ix2 p j) = zOut2 V c ((((cfg2.win 5).blk t).view.emb (ix2 p j)) 0) ((((cfg2.win 5).blk t).view.emb (ix2 p j)) 1)
  rw [emb2_5]
  exact (congrFun (pay4_eq ..) _).trans (tile_apply2 V c t p j)

theorem stats2 (c : Dev nD) (t : Fin cfg2.N) (ht : t.val = 4) (y : S1x128.Idx) :
    sum2 V c t.val t.isLt y = Spec.csum (zOut2 V c) (y 1) ∧ sumsq2 V c t.val t.isLt y = Spec.csumsq (zOut2 V c) (y 1) :=
  stats_total N_2 (xb2 V c) (w1b2 V c) (b1b2 V c) (w2b2 V c) (b2b2 V c) (zOut2 V c) (tile_apply2 V c) (sum2 V c) (sumsq2 V c)
    (fun _ => rfl) (fun _ _ => rfl) (fun _ => rfl) (fun _ _ => rfl) t ht y

theorem last2 (t : Fin cfg2.N) (h : t.val % 5 = 4) : t.val = 4 := by
  have := t.isLt; have : cfg2.N = 5 := N_2; omega

theorem final2_6 (c : Dev nD) (q : Fin 128) :
    ((dat2 V c).arrAt 6 cfg2.N : S1x128.Idx → EReal) (ix2 (0 : Fin 1) q) = Spec.csum (zOut2 V c) q := by
  have he (t y) : ((cfg2.win 6).blk t).view.emb y = y :=
    funext fun a => Fin.ext (win2_6.rect_emb_val_of_index_zero t a ((idx2 t).2 a).2.2.2.2.1 y)
  have hr (g : Fin 128 → EReal) (t) : ((cfg2.win 6).blk t).view.read (Elt Ideal) (fun i : S1x128.Idx => g (i 1)) = fun j => g (j 1) :=
    funext fun j => congrArg (fun i : S1x128.Idx => g (i 1)) (he t j)
  refine congrFun (arrAt_eq_of_last (dat2 V c) 6 (fun i : S1x128.Idx => Spec.csum (zOut2 V c) (i 1)) t2_4 ((flush2_6 _).mpr rfl)
    (fun t hf => ?_) fun i => ⟨i, he _ i⟩) (ix2 (0 : Fin 1) q)
  show (cfg2.win 6).cut (grid2.coords t) ((dat2 V c).after 6 t) = _
  rw [after2_6, hr (Spec.csum (zOut2 V c))]
  exact funext fun y => (stats2 V c t (last2 t ((flush2_6 t).mp hf)) y).1

theorem final2_7 (c : Dev nD) (q : Fin 128) :
    ((dat2 V c).arrAt 7 cfg2.N : S1x128.Idx → EReal) (ix2 (0 : Fin 1) q) = Spec.csumsq (zOut2 V c) q := by
  have he (t y) : ((cfg2.win 7).blk t).view.emb y = y :=
    funext fun a => Fin.ext (win2_7.rect_emb_val_of_index_zero t a ((idx2 t).2 a).2.2.2.2.2 y)
  have hr (g : Fin 128 → EReal) (t) : ((cfg2.win 7).blk t).view.read (Elt Ideal) (fun i : S1x128.Idx => g (i 1)) = fun j => g (j 1) :=
    funext fun j => congrArg (fun i : S1x128.Idx => g (i 1)) (he t j)
  refine congrFun (arrAt_eq_of_last (dat2 V c) 7 (fun i : S1x128.Idx => Spec.csumsq (zOut2 V c) (i 1)) t2_4 ((flush2_7 _).mpr rfl)
    (fun t hf => ?_) fun i => ⟨i, he _ i⟩) (ix2 (0 : Fin 1) q)
  show (cfg2.win 7).cut (grid2.coords t) ((dat2 V c).after 7 t) = _
  rw [after2_7, hr (Spec.csumsq (zOut2 V c))]
  exact funext fun y => (stats2 V c t (last2 t ((flush2_7 t).mp hf)) y).2

end Cert.KernelIdeal.Hand

end
-- ==== Proof.KI.ValM4.lean ====
import proofs.«430114_j32719060861414_1_alg».proof.Proof.KI.RegM4
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev zOut4 (c : Dev nD) : Spec.Mat 50000 128 :=
  mlpOf (V c (Pipeline.arrRef spec4 0)) (V c (Pipeline.arrRef spec4 1)) (V c (Pipeline.arrRef spec4 2)) (V c (Pipeline.arrRef spec4 3))
    (V c (Pipeline.arrRef spec4 4))

theorem idx4 : ∀ t : Fin cfg4.N, (win4_0.index t (0 : Fin 2) = t.val ∧ win4_0.index t (1 : Fin 2) = 0
      ∧ win4_5.index t (0 : Fin 2) = t.val ∧ win4_5.index t (1 : Fin 2) = 0)
    ∧ ∀ a : Fin 2, win4_1.index t a = 0 ∧ win4_2.index t a = 0 ∧ win4_3.index t a = 0 ∧ win4_4.index t a = 0
      ∧ win4_6.index t a = 0 ∧ win4_7.index t a = 0 :=
  (by decide +kernel : ∀ t : Fin grid4.N, _)

theorem emb4_0 (t : Fin cfg4.N) (r : Fin 10000) (q : Fin 128) :
    ((cfg4.win 0).blk t).view.emb (ix2 r q) = ix2 ⟨t.val * 10000 + r.val, tile_lt N_4 t r⟩ q := by
  obtain ⟨⟨e0, e1, -⟩, -⟩ := idx4 t
  refine Shape.idx_ext₂ ?_ ?_
  · show win4_0.index t (0 : Fin 2) * 10000 + 1 * r.val = t.val * 10000 + r.val; omega
  · show win4_0.index t (1 : Fin 2) * 128 + 1 * q.val = q.val; omega

theorem emb4_5 (t : Fin cfg4.N) (r : Fin 10000) (q : Fin 128) :
    ((cfg4.win 5).blk t).view.emb (ix2 r q) = ix2 ⟨t.val * 10000 + r.val, tile_lt N_4 t r⟩ q := by
  obtain ⟨⟨-, -, e0, e1⟩, -⟩ := idx4 t
  refine Shape.idx_ext₂ ?_ ?_
  · show win4_5.index t (0 : Fin 2) * 10000 + 1 * r.val = t.val * 10000 + r.val; omega
  · show win4_5.index t (1 : Fin 2) * 128 + 1 * q.val = q.val; omega

theorem tile_apply4 (c : Dev nD) (t : Fin cfg4.N) (r : Fin 10000) (q : Fin 128) :
    tileMlp (xb4 V c t) (w1b4 V c t) (b1b4 V c t) (w2b4 V c t) (b2b4 V c t) (ix2 r q)
      = zOut4 V c ⟨t.val * 10000 + r.val, tile_lt N_4 t r⟩ q :=
  tileMlp_of_blocks (fun j => congrArg (V c (Pipeline.arrRef spec4 0)) (emb4_0 t r j))
    (funext fun y => congrArg (V c (Pipeline.arrRef spec4 1)) (funext fun a => Fin.ext (win4_1.rect_emb_val_of_index_zero t a ((idx4 t).2 a).1 y)))
    (funext fun y => congrArg (V c (Pipeline.arrRef spec4 2)) (funext fun a => Fin.ext (win4_2.rect_emb_val_of_index_zero t a ((idx4 t).2 a).2.1 y)))
    (funext fun y => congrArg (V c (Pipeline.arrRef spec4 3)) (funext fun a => Fin.ext (win4_3.rect_emb_val_of_index_zero t a ((idx4 t).2 a).2.2.1 y)))
    (funext fun y => congrArg (V c (Pipeline.arrRef spec4 4)) (funext fun a => Fin.ext (win4_4.rect_emb_val_of_index_zero t a ((idx4 t).2 a).2.2.2.1 y))) q

theorem final4_5 (c : Dev nD) (r : Fin 50000) (q : Fin 128) :
    ((dat4 V c).arrAt 5 cfg4.N : S50000x128.Idx → EReal) (ix2 r q) = zOut4 V c r q := by
  obtain ⟨t, p, rfl⟩ := row_split N_4 r
  rw [← emb4_5 t p q]
  refine ((dat4 V c).arrAt_apply_of_mem 5 (fun i => zOut4 V c (i 0) (i 1)) (fun t _ => funext fun y => ?_) cfg4.N t _ t.isLt
    (flush4_5 t) (View.emb_mem_set _ _)).trans (by rw [emb4_5]; rfl)
  obtain ⟨p, j, rfl⟩ : ∃ (p : Fin 10000) (j : Fin 128), y = ix2 p j := ⟨y 0, y 1, eq_ix2 y⟩
  show z4 V c t (ix2 p j) = zOut4 V c ((((cfg4.win 5).blk t).view.emb (ix2 p j)) 0) ((((cfg4.win 5).blk t).view.emb (ix2 p j)) 1)
  rw [emb4_5]
  exact (congrFun (pay4_eq ..) _).trans (tile_apply4 V c t p j)

theorem stats4 (c : Dev nD) (t : Fin cfg4.N) (ht : t.val = 4) (y : S1x128.Idx) :
    sum4 V c t.val t.isLt y = Spec.csum (zOut4 V c) (y 1) ∧ sumsq4 V c t.val t.isLt y = Spec.csumsq (zOut4 V c) (y 1) :=
  stats_total N_4 (xb4 V c) (w1b4 V c) (b1b4 V c) (w2b4 V c) (b2b4 V c) (zOut4 V c) (tile_apply4 V c) (sum4 V c) (sumsq4 V c)
    (fun _ => rfl) (fun _ _ => rfl) (fun _ => rfl) (fun _ _ => rfl) t ht y

theorem last4 (t : Fin cfg4.N) (h : t.val % 5 = 4) : t.val = 4 := by
  have := t.isLt; have : cfg4.N = 5 := N_4; omega

theorem final4_6 (c : Dev nD) (q : Fin 128) :
    ((dat4 V c).arrAt 6 cfg4.N : S1x128.Idx → EReal) (ix2 (0 : Fin 1) q) = Spec.csum (zOut4 V c) q := by
  have he (t y) : ((cfg4.win 6).blk t).view.emb y = y :=
    funext fun a => Fin.ext (win4_6.rect_emb_val_of_index_zero t a ((idx4 t).2 a).2.2.2.2.1 y)
  have hr (g : Fin 128 → EReal) (t) : ((cfg4.win 6).blk t).view.read (Elt Ideal) (fun i : S1x128.Idx => g (i 1)) = fun j => g (j 1) :=
    funext fun j => congrArg (fun i : S1x128.Idx => g (i 1)) (he t j)
  refine congrFun (arrAt_eq_of_last (dat4 V c) 6 (fun i : S1x128.Idx => Spec.csum (zOut4 V c) (i 1)) t4_4 ((flush4_6 _).mpr rfl)
    (fun t hf => ?_) fun i => ⟨i, he _ i⟩) (ix2 (0 : Fin 1) q)
  show (cfg4.win 6).cut (grid4.coords t) ((dat4 V c).after 6 t) = _
  rw [after4_6, hr (Spec.csum (zOut4 V c))]
  exact funext fun y => (stats4 V c t (last4 t ((flush4_6 t).mp hf)) y).1

theorem final4_7 (c : Dev nD) (q : Fin 128) :
    ((dat4 V c).arrAt 7 cfg4.N : S1x128.Idx → EReal) (ix2 (0 : Fin 1) q) = Spec.csumsq (zOut4 V c) q := by
  have he (t y) : ((cfg4.win 7).blk t).view.emb y = y :=
    funext fun a => Fin.ext (win4_7.rect_emb_val_of_index_zero t a ((idx4 t).2 a).2.2.2.2.2 y)
  have hr (g : Fin 128 → EReal) (t) : ((cfg4.win 7).blk t).view.read (Elt Ideal) (fun i : S1x128.Idx => g (i 1)) = fun j => g (j 1) :=
    funext fun j => congrArg (fun i : S1x128.Idx => g (i 1)) (he t j)
  refine congrFun (arrAt_eq_of_last (dat4 V c) 7 (fun i : S1x128.Idx => Spec.csumsq (zOut4 V c) (i 1)) t4_4 ((flush4_7 _).mpr rfl)
    (fun t hf => ?_) fun i => ⟨i, he _ i⟩) (ix2 (0 : Fin 1) q)
  show (cfg4.win 7).cut (grid4.coords t) ((dat4 V c).after 7 t) = _
  rw [after4_7, hr (Spec.csumsq (zOut4 V c))]
  exact funext fun y => (stats4 V c t (last4 t ((flush4_7 t).mp hf)) y).2

end Cert.KernelIdeal.Hand

end
-- ==== Proof.KI.ValM6.lean ====
import proofs.«430114_j32719060861414_1_alg».proof.Proof.KI.RegM6
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

abbrev zOut6 (c : Dev nD) : Spec.Mat 50000 128 :=
  mlpOf (V c (Pipeline.arrRef spec6 0)) (V c (Pipeline.arrRef spec6 1)) (V c (Pipeline.arrRef spec6 2)) (V c (Pipeline.arrRef spec6 3))
    (V c (Pipeline.arrRef spec6 4))

theorem idx6 : ∀ t : Fin cfg6.N, (win6_0.index t (0 : Fin 2) = t.val ∧ win6_0.index t (1 : Fin 2) = 0
      ∧ win6_5.index t (0 : Fin 2) = t.val ∧ win6_5.index t (1 : Fin 2) = 0)
    ∧ ∀ a : Fin 2, win6_1.index t a = 0 ∧ win6_2.index t a = 0 ∧ win6_3.index t a = 0 ∧ win6_4.index t a = 0
      ∧ win6_6.index t a = 0 ∧ win6_7.index t a = 0 :=
  (by decide +kernel : ∀ t : Fin grid6.N, _)

theorem emb6_0 (t : Fin cfg6.N) (r : Fin 10000) (q : Fin 128) :
    ((cfg6.win 0).blk t).view.emb (ix2 r q) = ix2 ⟨t.val * 10000 + r.val, tile_lt N_6 t r⟩ q := by
  obtain ⟨⟨e0, e1, -⟩, -⟩ := idx6 t
  refine Shape.idx_ext₂ ?_ ?_
  · show win6_0.index t (0 : Fin 2) * 10000 + 1 * r.val = t.val * 10000 + r.val; omega
  · show win6_0.index t (1 : Fin 2) * 128 + 1 * q.val = q.val; omega

theorem emb6_5 (t : Fin cfg6.N) (r : Fin 10000) (q : Fin 128) :
    ((cfg6.win 5).blk t).view.emb (ix2 r q) = ix2 ⟨t.val * 10000 + r.val, tile_lt N_6 t r⟩ q := by
  obtain ⟨⟨-, -, e0, e1⟩, -⟩ := idx6 t
  refine Shape.idx_ext₂ ?_ ?_
  · show win6_5.index t (0 : Fin 2) * 10000 + 1 * r.val = t.val * 10000 + r.val; omega
  · show win6_5.index t (1 : Fin 2) * 128 + 1 * q.val = q.val; omega

theorem tile_apply6 (c : Dev nD) (t : Fin cfg6.N) (r : Fin 10000) (q : Fin 128) :
    tileMlp (xb6 V c t) (w1b6 V c t) (b1b6 V c t) (w2b6 V c t) (b2b6 V c t) (ix2 r q)
      = zOut6 V c ⟨t.val * 10000 + r.val, tile_lt N_6 t r⟩ q :=
  tileMlp_of_blocks (fun j => congrArg (V c (Pipeline.arrRef spec6 0)) (emb6_0 t r j))
    (funext fun y => congrArg (V c (Pipeline.arrRef spec6 1)) (funext fun a => Fin.ext (win6_1.rect_emb_val_of_index_zero t a ((idx6 t).2 a).1 y)))
    (funext fun y => congrArg (V c (Pipeline.arrRef spec6 2)) (funext fun a => Fin.ext (win6_2.rect_emb_val_of_index_zero t a ((idx6 t).2 a).2.1 y)))
    (funext fun y => congrArg (V c (Pipeline.arrRef spec6 3)) (funext fun a => Fin.ext (win6_3.rect_emb_val_of_index_zero t a ((idx6 t).2 a).2.2.1 y)))
    (funext fun y => congrArg (V c (Pipeline.arrRef spec6 4)) (funext fun a => Fin.ext (win6_4.rect_emb_val_of_index_zero t a ((idx6 t).2 a).2.2.2.1 y))) q

theorem final6_5 (c : Dev nD) (r : Fin 50000) (q : Fin 128) :
    ((dat6 V c).arrAt 5 cfg6.N : S50000x128.Idx → EReal) (ix2 r q) = zOut6 V c r q := by
  obtain ⟨t, p, rfl⟩ := row_split N_6 r
  rw [← emb6_5 t p q]
  refine ((dat6 V c).arrAt_apply_of_mem 5 (fun i => zOut6 V c (i 0) (i 1)) (fun t _ => funext fun y => ?_) cfg6.N t _ t.isLt
    (flush6_5 t) (View.emb_mem_set _ _)).trans (by rw [emb6_5]; rfl)
  obtain ⟨p, j, rfl⟩ : ∃ (p : Fin 10000) (j : Fin 128), y = ix2 p j := ⟨y 0, y 1, eq_ix2 y⟩
  show z6 V c t (ix2 p j) = zOut6 V c ((((cfg6.win 5).blk t).view.emb (ix2 p j)) 0) ((((cfg6.win 5).blk t).view.emb (ix2 p j)) 1)
  rw [emb6_5]
  exact (congrFun (pay4_eq ..) _).trans (tile_apply6 V c t p j)

theorem stats6 (c : Dev nD) (t : Fin cfg6.N) (ht : t.val = 4) (y : S1x128.Idx) :
    sum6 V c t.val t.isLt y = Spec.csum (zOut6 V c) (y 1) ∧ sumsq6 V c t.val t.isLt y = Spec.csumsq (zOut6 V c) (y 1) :=
  stats_total N_6 (xb6 V c) (w1b6 V c) (b1b6 V c) (w2b6 V c) (b2b6 V c) (zOut6 V c) (tile_apply6 V c) (sum6 V c) (sumsq6 V c)
    (fun _ => rfl) (fun _ _ => rfl) (fun _ => rfl) (fun _ _ => rfl) t ht y

theorem last6 (t : Fin cfg6.N) (h : t.val % 5 = 4) : t.val = 4 := by
  have := t.isLt; have : cfg6.N = 5 := N_6; omega

theorem final6_6 (c : Dev nD) (q : Fin 128) :
    ((dat6 V c).arrAt 6 cfg6.N : S1x128.Idx → EReal) (ix2 (0 : Fin 1) q) = Spec.csum (zOut6 V c) q := by
  have he (t y) : ((cfg6.win 6).blk t).view.emb y = y :=
    funext fun a => Fin.ext (win6_6.rect_emb_val_of_index_zero t a ((idx6 t).2 a).2.2.2.2.1 y)
  have hr (g : Fin 128 → EReal) (t) : ((cfg6.win 6).blk t).view.read (Elt Ideal) (fun i : S1x128.Idx => g (i 1)) = fun j => g (j 1) :=
    funext fun j => congrArg (fun i : S1x128.Idx => g (i 1)) (he t j)
  refine congrFun (arrAt_eq_of_last (dat6 V c) 6 (fun i : S1x128.Idx => Spec.csum (zOut6 V c) (i 1)) t6_4 ((flush6_6 _).mpr rfl)
    (fun t hf => ?_) fun i => ⟨i, he _ i⟩) (ix2 (0 : Fin 1) q)
  show (cfg6.win 6).cut (grid6.coords t) ((dat6 V c).after 6 t) = _
  rw [after6_6, hr (Spec.csum (zOut6 V c))]
  exact funext fun y => (stats6 V c t (last6 t ((flush6_6 t).mp hf)) y).1

theorem final6_7 (c : Dev nD) (q : Fin 128) :
    ((dat6 V c).arrAt 7 cfg6.N : S1x128.Idx → EReal) (ix2 (0 : Fin 1) q) = Spec.csumsq (zOut6 V c) q := by
  have he (t y) : ((cfg6.win 7).blk t).view.emb y = y :=
    funext fun a => Fin.ext (win6_7.rect_emb_val_of_index_zero t a ((idx6 t).2 a).2.2.2.2.2 y)
  have hr (g : Fin 128 → EReal) (t) : ((cfg6.win 7).blk t).view.read (Elt Ideal) (fun i : S1x128.Idx => g (i 1)) = fun j => g (j 1) :=
    funext fun j => congrArg (fun i : S1x128.Idx => g (i 1)) (he t j)
  refine congrFun (arrAt_eq_of_last (dat6 V c) 7 (fun i : S1x128.Idx => Spec.csumsq (zOut6 V c) (i 1)) t6_4 ((flush6_7 _).mpr rfl)
    (fun t hf => ?_) fun i => ⟨i, he _ i⟩) (ix2 (0 : Fin 1) q)
  show (cfg6.win 7).cut (grid6.coords t) ((dat6 V c).after 7 t) = _
  rw [after6_7, hr (Spec.csumsq (zOut6 V c))]
  exact funext fun y => (stats6 V c t (last6 t ((flush6_7 t).mp hf)) y).2

end Cert.KernelIdeal.Hand

end
-- ==== Proof.KI.ValB1.lean ====
import proofs.«430114_j32719060861414_1_alg».proof.Proof.KI.RegB1
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

noncomputable def zIn1 (c : Dev nD) : Spec.Mat 50000 128 := fun r q => (V c (Pipeline.arrRef spec1 0) : S50000x128.Idx → EReal) (ix2 r q)
noncomputable def meanIn1 (c : Dev nD) : Spec.Vct 128 := fun q => (V c (Pipeline.arrRef spec1 1) : S1x128.Idx → EReal) (ix2 (0 : Fin 1) q)
noncomputable def varIn1 (c : Dev nD) : Spec.Vct 128 := fun q => (V c (Pipeline.arrRef spec1 2) : S1x128.Idx → EReal) (ix2 (0 : Fin 1) q)
noncomputable def gIn1 (c : Dev nD) : Spec.Vct 128 := fun q => (V c (Pipeline.arrRef spec1 3) : S1x128.Idx → EReal) (ix2 (0 : Fin 1) q)
noncomputable def bIn1 (c : Dev nD) : Spec.Vct 128 := fun q => (V c (Pipeline.arrRef spec1 4) : S1x128.Idx → EReal) (ix2 (0 : Fin 1) q)

theorem idx1 : ∀ t : Fin cfg1.N, (win1_0.index t (0 : Fin 2) = t.val ∧ win1_0.index t (1 : Fin 2) = 0
      ∧ win1_5.index t (0 : Fin 2) = t.val ∧ win1_5.index t (1 : Fin 2) = 0)
    ∧ ∀ a : Fin 2, win1_1.index t a = 0 ∧ win1_2.index t a = 0 ∧ win1_3.index t a = 0 ∧ win1_4.index t a = 0 :=
  (by decide +kernel : ∀ t : Fin grid1.N, _)

theorem emb1_0 (t : Fin cfg1.N) (r : Fin 10000) (q : Fin 128) :
    ((cfg1.win 0).blk t).view.emb (ix2 r q) = ix2 ⟨t.val * 10000 + r.val, tile_lt N_1 t r⟩ q := by
  obtain ⟨⟨e0, e1, -⟩, -⟩ := idx1 t
  refine Shape.idx_ext₂ ?_ ?_
  · show win1_0.index t (0 : Fin 2) * 10000 + 1 * r.val = t.val * 10000 + r.val; omega
  · show win1_0.index t (1 : Fin 2) * 128 + 1 * q.val = q.val; omega

theorem emb1_5 (t : Fin cfg1.N) (r : Fin 10000) (q : Fin 128) :
    ((cfg1.win 5).blk t).view.emb (ix2 r q) = ix2 ⟨t.val * 10000 + r.val, tile_lt N_1 t r⟩ q := by
  obtain ⟨⟨-, -, e0, e1⟩, -⟩ := idx1 t
  refine Shape.idx_ext₂ ?_ ?_
  · show win1_5.index t (0 : Fin 2) * 10000 + 1 * r.val = t.val * 10000 + r.val; omega
  · show win1_5.index t (1 : Fin 2) * 128 + 1 * q.val = q.val; omega

theorem out_eq1 (xz : Vec Ideal S10000x128 .f32) (xm xv xg xb : Vec Ideal S1x128 .f32) :
    out1_5 xz xm xv xg xb = k1_pay1 xz xv xm xg xb := by
  unfold out1_5
  rw [View.canon_unit_zero zeroOffsets2, View.ld_unit_zero (S := S10000x128) zeroOffsets2]
  simp only [View.ld_unit_zero (S := S1x128) zeroOffsets2]

set_option maxHeartbeats 1000000 in
theorem final1_5 (c : Dev nD) (r : Fin 50000) (q : Fin 128) :
    ((dat1 V c).arrAt 5 cfg1.N : S50000x128.Idx → EReal) (ix2 r q)
      = Spec.bn (zIn1 V c) (meanIn1 V c) (varIn1 V c) (gIn1 V c) (bIn1 V c) r q := by
  obtain ⟨t, p, rfl⟩ := row_split N_1 r
  rw [← emb1_5 t p q]
  refine ((dat1 V c).arrAt_apply_of_mem 5
    (fun i => Spec.bn (zIn1 V c) (meanIn1 V c) (varIn1 V c) (gIn1 V c) (bIn1 V c) (i 0) (i 1)) (fun t _ => ?_) cfg1.N t _ t.isLt
    (flush1_5 t) (View.emb_mem_set _ _)).trans (by rw [emb1_5]; rfl)
  show (cfg1.win 5).cut (grid1.coords t) ((dat1 V c).after 5 t) = _
  rw [after1_5, out_eq1]
  funext y
  obtain ⟨p, j, rfl⟩ : ∃ (p : Fin 10000) (j : Fin 128), y = ix2 p j := ⟨y 0, y 1, eq_ix2 y⟩
  show _ = Spec.bn (zIn1 V c) (meanIn1 V c) (varIn1 V c) (gIn1 V c) (bIn1 V c)
    ((((cfg1.win 5).blk t).view.emb (ix2 p j)) 0) ((((cfg1.win 5).blk t).view.emb (ix2 p j)) 1)
  rw [emb1_5]
  exact bnTile_of_blocks (fun j => congrArg (V c (Pipeline.arrRef spec1 0)) (emb1_0 t p j))
    (funext fun y => congrArg (V c (Pipeline.arrRef spec1 1)) (funext fun a => Fin.ext (win1_1.rect_emb_val_of_index_zero t a ((idx1 t).2 a).1 y)))
    (funext fun y => congrArg (V c (Pipeline.arrRef spec1 2)) (funext fun a => Fin.ext (win1_2.rect_emb_val_of_index_zero t a ((idx1 t).2 a).2.1 y)))
    (funext fun y => congrArg (V c (Pipeline.arrRef spec1 3)) (funext fun a => Fin.ext (win1_3.rect_emb_val_of_index_zero t a ((idx1 t).2 a).2.2.1 y)))
    (funext fun y => congrArg (V c (Pipeline.arrRef spec1 4)) (funext fun a => Fin.ext (win1_4.rect_emb_val_of_index_zero t a ((idx1 t).2 a).2.2.2 y))) j

end Cert.KernelIdeal.Hand

end
-- ==== Proof.KI.ValB3.lean ====
import proofs.«430114_j32719060861414_1_alg».proof.Proof.KI.RegB3
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

noncomputable def zIn3 (c : Dev nD) : Spec.Mat 50000 128 := fun r q => (V c (Pipeline.arrRef spec3 0) : S50000x128.Idx → EReal) (ix2 r q)
noncomputable def meanIn3 (c : Dev nD) : Spec.Vct 128 := fun q => (V c (Pipeline.arrRef spec3 1) : S1x128.Idx → EReal) (ix2 (0 : Fin 1) q)
noncomputable def varIn3 (c : Dev nD) : Spec.Vct 128 := fun q => (V c (Pipeline.arrRef spec3 2) : S1x128.Idx → EReal) (ix2 (0 : Fin 1) q)
noncomputable def gIn3 (c : Dev nD) : Spec.Vct 128 := fun q => (V c (Pipeline.arrRef spec3 3) : S1x128.Idx → EReal) (ix2 (0 : Fin 1) q)
noncomputable def bIn3 (c : Dev nD) : Spec.Vct 128 := fun q => (V c (Pipeline.arrRef spec3 4) : S1x128.Idx → EReal) (ix2 (0 : Fin 1) q)

theorem idx3 : ∀ t : Fin cfg3.N, (win3_0.index t (0 : Fin 2) = t.val ∧ win3_0.index t (1 : Fin 2) = 0
      ∧ win3_5.index t (0 : Fin 2) = t.val ∧ win3_5.index t (1 : Fin 2) = 0)
    ∧ ∀ a : Fin 2, win3_1.index t a = 0 ∧ win3_2.index t a = 0 ∧ win3_3.index t a = 0 ∧ win3_4.index t a = 0 :=
  (by decide +kernel : ∀ t : Fin grid3.N, _)

theorem emb3_0 (t : Fin cfg3.N) (r : Fin 10000) (q : Fin 128) :
    ((cfg3.win 0).blk t).view.emb (ix2 r q) = ix2 ⟨t.val * 10000 + r.val, tile_lt N_3 t r⟩ q := by
  obtain ⟨⟨e0, e1, -⟩, -⟩ := idx3 t
  refine Shape.idx_ext₂ ?_ ?_
  · show win3_0.index t (0 : Fin 2) * 10000 + 1 * r.val = t.val * 10000 + r.val; omega
  · show win3_0.index t (1 : Fin 2) * 128 + 1 * q.val = q.val; omega

theorem emb3_5 (t : Fin cfg3.N) (r : Fin 10000) (q : Fin 128) :
    ((cfg3.win 5).blk t).view.emb (ix2 r q) = ix2 ⟨t.val * 10000 + r.val, tile_lt N_3 t r⟩ q := by
  obtain ⟨⟨-, -, e0, e1⟩, -⟩ := idx3 t
  refine Shape.idx_ext₂ ?_ ?_
  · show win3_5.index t (0 : Fin 2) * 10000 + 1 * r.val = t.val * 10000 + r.val; omega
  · show win3_5.index t (1 : Fin 2) * 128 + 1 * q.val = q.val; omega

theorem out_eq3 (xz : Vec Ideal S10000x128 .f32) (xm xv xg xb : Vec Ideal S1x128 .f32) :
    out3_5 xz xm xv xg xb = k3_pay1 xz xv xm xg xb := by
  unfold out3_5
  rw [View.canon_unit_zero zeroOffsets2, View.ld_unit_zero (S := S10000x128) zeroOffsets2]
  simp only [View.ld_unit_zero (S := S1x128) zeroOffsets2]

set_option maxHeartbeats 1000000 in
theorem final3_5 (c : Dev nD) (r : Fin 50000) (q : Fin 128) :
    ((dat3 V c).arrAt 5 cfg3.N : S50000x128.Idx → EReal) (ix2 r q)
      = Spec.bn (zIn3 V c) (meanIn3 V c) (varIn3 V c) (gIn3 V c) (bIn3 V c) r q := by
  obtain ⟨t, p, rfl⟩ := row_split N_3 r
  rw [← emb3_5 t p q]
  refine ((dat3 V c).arrAt_apply_of_mem 5
    (fun i => Spec.bn (zIn3 V c) (meanIn3 V c) (varIn3 V c) (gIn3 V c) (bIn3 V c) (i 0) (i 1)) (fun t _ => ?_) cfg3.N t _ t.isLt
    (flush3_5 t) (View.emb_mem_set _ _)).trans (by rw [emb3_5]; rfl)
  show (cfg3.win 5).cut (grid3.coords t) ((dat3 V c).after 5 t) = _
  rw [after3_5, out_eq3]
  funext y
  obtain ⟨p, j, rfl⟩ : ∃ (p : Fin 10000) (j : Fin 128), y = ix2 p j := ⟨y 0, y 1, eq_ix2 y⟩
  show _ = Spec.bn (zIn3 V c) (meanIn3 V c) (varIn3 V c) (gIn3 V c) (bIn3 V c)
    ((((cfg3.win 5).blk t).view.emb (ix2 p j)) 0) ((((cfg3.win 5).blk t).view.emb (ix2 p j)) 1)
  rw [emb3_5]
  exact bnTile_of_blocks (fun j => congrArg (V c (Pipeline.arrRef spec3 0)) (emb3_0 t p j))
    (funext fun y => congrArg (V c (Pipeline.arrRef spec3 1)) (funext fun a => Fin.ext (win3_1.rect_emb_val_of_index_zero t a ((idx3 t).2 a).1 y)))
    (funext fun y => congrArg (V c (Pipeline.arrRef spec3 2)) (funext fun a => Fin.ext (win3_2.rect_emb_val_of_index_zero t a ((idx3 t).2 a).2.1 y)))
    (funext fun y => congrArg (V c (Pipeline.arrRef spec3 3)) (funext fun a => Fin.ext (win3_3.rect_emb_val_of_index_zero t a ((idx3 t).2 a).2.2.1 y)))
    (funext fun y => congrArg (V c (Pipeline.arrRef spec3 4)) (funext fun a => Fin.ext (win3_4.rect_emb_val_of_index_zero t a ((idx3 t).2 a).2.2.2 y))) j

end Cert.KernelIdeal.Hand

end
-- ==== Proof.KI.ValB5.lean ====
import proofs.«430114_j32719060861414_1_alg».proof.Proof.KI.RegB5
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

noncomputable def zIn5 (c : Dev nD) : Spec.Mat 50000 128 := fun r q => (V c (Pipeline.arrRef spec5 0) : S50000x128.Idx → EReal) (ix2 r q)
noncomputable def meanIn5 (c : Dev nD) : Spec.Vct 128 := fun q => (V c (Pipeline.arrRef spec5 1) : S1x128.Idx → EReal) (ix2 (0 : Fin 1) q)
noncomputable def varIn5 (c : Dev nD) : Spec.Vct 128 := fun q => (V c (Pipeline.arrRef spec5 2) : S1x128.Idx → EReal) (ix2 (0 : Fin 1) q)
noncomputable def gIn5 (c : Dev nD) : Spec.Vct 128 := fun q => (V c (Pipeline.arrRef spec5 3) : S1x128.Idx → EReal) (ix2 (0 : Fin 1) q)
noncomputable def bIn5 (c : Dev nD) : Spec.Vct 128 := fun q => (V c (Pipeline.arrRef spec5 4) : S1x128.Idx → EReal) (ix2 (0 : Fin 1) q)

theorem idx5 : ∀ t : Fin cfg5.N, (win5_0.index t (0 : Fin 2) = t.val ∧ win5_0.index t (1 : Fin 2) = 0
      ∧ win5_5.index t (0 : Fin 2) = t.val ∧ win5_5.index t (1 : Fin 2) = 0)
    ∧ ∀ a : Fin 2, win5_1.index t a = 0 ∧ win5_2.index t a = 0 ∧ win5_3.index t a = 0 ∧ win5_4.index t a = 0 :=
  (by decide +kernel : ∀ t : Fin grid5.N, _)

theorem emb5_0 (t : Fin cfg5.N) (r : Fin 10000) (q : Fin 128) :
    ((cfg5.win 0).blk t).view.emb (ix2 r q) = ix2 ⟨t.val * 10000 + r.val, tile_lt N_5 t r⟩ q := by
  obtain ⟨⟨e0, e1, -⟩, -⟩ := idx5 t
  refine Shape.idx_ext₂ ?_ ?_
  · show win5_0.index t (0 : Fin 2) * 10000 + 1 * r.val = t.val * 10000 + r.val; omega
  · show win5_0.index t (1 : Fin 2) * 128 + 1 * q.val = q.val; omega

theorem emb5_5 (t : Fin cfg5.N) (r : Fin 10000) (q : Fin 128) :
    ((cfg5.win 5).blk t).view.emb (ix2 r q) = ix2 ⟨t.val * 10000 + r.val, tile_lt N_5 t r⟩ q := by
  obtain ⟨⟨-, -, e0, e1⟩, -⟩ := idx5 t
  refine Shape.idx_ext₂ ?_ ?_
  · show win5_5.index t (0 : Fin 2) * 10000 + 1 * r.val = t.val * 10000 + r.val; omega
  · show win5_5.index t (1 : Fin 2) * 128 + 1 * q.val = q.val; omega

theorem out_eq5 (xz : Vec Ideal S10000x128 .f32) (xm xv xg xb : Vec Ideal S1x128 .f32) :
    out5_5 xz xm xv xg xb = k5_pay1 xz xv xm xg xb := by
  unfold out5_5
  rw [View.canon_unit_zero zeroOffsets2, View.ld_unit_zero (S := S10000x128) zeroOffsets2]
  simp only [View.ld_unit_zero (S := S1x128) zeroOffsets2]

set_option maxHeartbeats 1000000 in
theorem final5_5 (c : Dev nD) (r : Fin 50000) (q : Fin 128) :
    ((dat5 V c).arrAt 5 cfg5.N : S50000x128.Idx → EReal) (ix2 r q)
      = Spec.bn (zIn5 V c) (meanIn5 V c) (varIn5 V c) (gIn5 V c) (bIn5 V c) r q := by
  obtain ⟨t, p, rfl⟩ := row_split N_5 r
  rw [← emb5_5 t p q]
  refine ((dat5 V c).arrAt_apply_of_mem 5
    (fun i => Spec.bn (zIn5 V c) (meanIn5 V c) (varIn5 V c) (gIn5 V c) (bIn5 V c) (i 0) (i 1)) (fun t _ => ?_) cfg5.N t _ t.isLt
    (flush5_5 t) (View.emb_mem_set _ _)).trans (by rw [emb5_5]; rfl)
  show (cfg5.win 5).cut (grid5.coords t) ((dat5 V c).after 5 t) = _
  rw [after5_5, out_eq5]
  funext y
  obtain ⟨p, j, rfl⟩ : ∃ (p : Fin 10000) (j : Fin 128), y = ix2 p j := ⟨y 0, y 1, eq_ix2 y⟩
  show _ = Spec.bn (zIn5 V c) (meanIn5 V c) (varIn5 V c) (gIn5 V c) (bIn5 V c)
    ((((cfg5.win 5).blk t).view.emb (ix2 p j)) 0) ((((cfg5.win 5).blk t).view.emb (ix2 p j)) 1)
  rw [emb5_5]
  exact bnTile_of_blocks (fun j => congrArg (V c (Pipeline.arrRef spec5 0)) (emb5_0 t p j))
    (funext fun y => congrArg (V c (Pipeline.arrRef spec5 1)) (funext fun a => Fin.ext (win5_1.rect_emb_val_of_index_zero t a ((idx5 t).2 a).1 y)))
    (funext fun y => congrArg (V c (Pipeline.arrRef spec5 2)) (funext fun a => Fin.ext (win5_2.rect_emb_val_of_index_zero t a ((idx5 t).2 a).2.1 y)))
    (funext fun y => congrArg (V c (Pipeline.arrRef spec5 3)) (funext fun a => Fin.ext (win5_3.rect_emb_val_of_index_zero t a ((idx5 t).2 a).2.2.1 y)))
    (funext fun y => congrArg (V c (Pipeline.arrRef spec5 4)) (funext fun a => Fin.ext (win5_4.rect_emb_val_of_index_zero t a ((idx5 t).2 a).2.2.2 y))) j

end Cert.KernelIdeal.Hand

end
-- ==== Proof.KI.ValP7.lean ====
import proofs.«430114_j32719060861414_1_alg».proof.Proof.KI.RegP7
import proofs.«430114_j32719060861414_1_alg».proof.Proof.KI.MlpTile

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

abbrev D7 := dot_S10000x128_S10000x128_S128x128_0_0_1_1_n_n

theorem lhs7_0 (j : S128x128.Idx) (k : D7.contr.Idx) : (D7.lhsIdx j k 0 : ℕ) = k ⟨0, by decide⟩ := by
  simp [DotDims.lhsIdx, D7, dot_S10000x128_S10000x128_S128x128_0_0_1_1_n_n]; rfl
theorem lhs7_1 (j : S128x128.Idx) (k : D7.contr.Idx) : (D7.lhsIdx j k 1 : ℕ) = j 0 := by
  simp [DotDims.lhsIdx, D7, dot_S10000x128_S10000x128_S128x128_0_0_1_1_n_n]; rfl
theorem rhs7_0 (j : S128x128.Idx) (k : D7.contr.Idx) : (D7.rhsIdx j k 0 : ℕ) = k ⟨0, by decide⟩ := by
  simp [DotDims.rhsIdx, D7, dot_S10000x128_S10000x128_S128x128_0_0_1_1_n_n]; rfl
theorem rhs7_1 (j : S128x128.Idx) (k : D7.contr.Idx) : (D7.rhsIdx j k 1 : ℕ) = j 1 := by
  simp [DotDims.rhsIdx, D7, dot_S10000x128_S10000x128_S128x128_0_0_1_1_n_n]; rfl

def rows7 : D7.contr.Idx ≃ Fin 10000 := contrEquiv1 D7 10000 (by decide) (by decide)

theorem rows7_symm_val (i : Fin 10000) : ((rows7.symm i) ⟨0, by decide⟩ : ℕ) = i.val :=
  contrEquiv1_symm_val D7 10000 (by decide) (by decide) i

-- the equality test as a float is the indicator of x = y
theorem sel_word (x y : BitVec 32) :
    (FloatOps.sitofp (F := Ideal) .f32 ((IntOp.cmpi .eq x y).setWidth 32) : EReal) = if x = y then 1 else 0 := by
  by_cases h : x = y
  · subst h
    rw [if_pos rfl, show (IntOp.cmpi .eq x x).setWidth 32 = 1#32 by simp [IntOp.cmpi]]
    show (((1#32 : BitVec 32).toInt : ℝ) : EReal) = 1
    norm_num
  · rw [if_neg h, show (IntOp.cmpi .eq x y).setWidth 32 = 0#32 by simp [IntOp.cmpi, beq_eq_false_iff_ne.mpr h]]
    show (((0#32 : BitVec 32).toInt : ℝ) : EReal) = 0
    norm_num

abbrev sel7 (b : Vec Ideal S10000x1 .i32) : FVec Ideal S10000x128 .f32 :=
  sitofp .f32 (extui 32 (cmpi .eq (broadcastTo S10000x128 (b : IVec S10000x1 32) broadcasts_S10000x1_S10000x128)
    (iota .tc S10000x128 32 [1] iota_S10000x128_d1_w32)) natLt_1_32)

theorem sel7_apply (b : Vec Ideal S10000x1 .i32) (k : Fin 10000) (g : Fin 128) :
    sel7 b (ix2 k g) = if b (ix2 k (0 : Fin 1)) = BitVec.ofNat 32 g.val then (1 : EReal) else 0 := by
  show FloatOps.sitofp (F := Ideal) .f32 ((IntOp.cmpi .eq
      (broadcastTo S10000x128 (b : IVec S10000x1 32) broadcasts_S10000x1_S10000x128 (ix2 k g))
      (iota .tc S10000x128 32 [1] iota_S10000x128_d1_w32 (ix2 k g))).setWidth 32) = _
  rw [broadcastTo_apply (b : IVec S10000x1 32) broadcasts_S10000x1_S10000x128 (ix2 k g) (ix2 k (0 : Fin 1)) (fun a => by
    match a with
    | ⟨0, _⟩ | ⟨1, _⟩ => rfl), iota_single_apply]
  exact sel_word _ _

-- the product with the indicator matrix keeps the rows of graph g
theorem pay2_apply (b : Vec Ideal S10000x1 .i32) (h : Vec Ideal S10000x128 .f32) (acc : Vec Ideal S128x128 .f32) (g d : Fin 128) :
    (k7_pay2 b h acc : FVec Ideal S128x128 .f32) (ix2 g d)
      = acc (ix2 g d) + ∑ k : Fin 10000, (if b (ix2 k (0 : Fin 1)) = BitVec.ofNat 32 g.val then (1 : EReal) else 0) * h (ix2 k d) := by
  unfold k7_pay2
  simp only [shapeCast_self]
  show acc (ix2 g d) + FloatOps.matmul D7 none (sel7 b) h (constant S128x128 .f32 0x00000000#32) (ix2 g d) = _
  refine congrArg (acc (ix2 g d) + ·) ?_
  refine (Ideal.matmul_constant_zero_apply D7 none (sel7 b) h (ix2 g d)).trans ?_
  refine ((Equiv.sum_comp rows7.symm _).symm).trans (Finset.sum_congr rfl fun k _ => ?_)
  rw [show D7.lhsIdx (ix2 g d) (rows7.symm k) = ix2 k g from Shape.idx_ext₂ ((lhs7_0 _ _).trans (rows7_symm_val k)) (lhs7_1 _ _),
    show D7.rhsIdx (ix2 g d) (rows7.symm k) = ix2 k d from Shape.idx_ext₂ ((rhs7_0 _ _).trans (rows7_symm_val k)) (rhs7_1 _ _),
    sel7_apply]

theorem pay7_zero_apply (j : S128x128.Idx) : (k7_pay1 (F := Ideal) : FVec Ideal S128x128 .f32) j = 0 := by
  unfold k7_pay1
  simp only [shapeCast_self]
  exact Ideal.ofBits_zero_f32

variable (V : (c : Dev nD) → (b : Ref sig .tc) → Buf (Elt Ideal) ((c : Thread nD τ).loc b))

abbrev hIn7 (c : Dev nD) : Spec.Mat 50000 128 :=
  fun n q => (V c (Pipeline.arrRef spec7 0) : S50000x128.Idx → EReal) (ix2 n q)
abbrev batchIn7 (c : Dev nD) : Fin 50000 → BitVec 32 :=
  fun n => (V c (Pipeline.arrRef spec7 1) : S50000x1.Idx → BitVec 32) (ix2 n (0 : Fin 1))

theorem idx7 : ∀ t : Fin cfg7.N, (win7_0.index t (0 : Fin 2) = t.val ∧ win7_0.index t (1 : Fin 2) = 0
      ∧ win7_1.index t (0 : Fin 2) = t.val ∧ win7_1.index t (1 : Fin 2) = 0) ∧ ∀ a : Fin 2, win7_2.index t a = 0 :=
  (by decide +kernel : ∀ t : Fin grid7.N, _)

theorem hblk7_apply (c : Dev nD) (t : Fin cfg7.N) (k : Fin 10000) (d : Fin 128) :
    hblk7 V c t (ix2 k d) = hIn7 V c ⟨t.val * 10000 + k.val, tile_lt N_7 t k⟩ d := by
  obtain ⟨⟨e0, e1, -⟩, -⟩ := idx7 t
  refine congrArg (V c (Pipeline.arrRef spec7 0)) (Shape.idx_ext₂ ?_ ?_)
  · show win7_0.index t (0 : Fin 2) * 10000 + 1 * k.val = t.val * 10000 + k.val; omega
  · show win7_0.index t (1 : Fin 2) * 128 + 1 * d.val = d.val; omega

theorem bblk7_apply (c : Dev nD) (t : Fin cfg7.N) (k : Fin 10000) :
    bblk7 V c t (ix2 k (0 : Fin 1)) = batchIn7 V c ⟨t.val * 10000 + k.val, tile_lt N_7 t k⟩ := by
  obtain ⟨⟨-, -, e0, e1⟩, -⟩ := idx7 t
  refine congrArg (V c (Pipeline.arrRef spec7 1)) (Shape.idx_ext₂ ?_ ?_)
  · show win7_1.index t (0 : Fin 2) * 10000 + 1 * k.val = t.val * 10000 + k.val; omega
  · show win7_1.index t (1 : Fin 2) * 1 + 1 * 0 = 0; omega

abbrev term7 (c : Dev nD) (g d : Fin 128) : Fin 50000 → EReal :=
  fun n => (if batchIn7 V c n = BitVec.ofNat 32 g.val then (1 : EReal) else 0) * hIn7 V c n d

theorem step7 (c : Dev nD) (t : Fin cfg7.N) (acc : Vec Ideal S128x128 .f32) (g d : Fin 128) :
    (k7_pay2 (bblk7 V c t) (hblk7 V c t) acc : FVec Ideal S128x128 .f32) (ix2 g d)
      = acc (ix2 g d) + ∑ k : Fin 10000, term7 V c g d ⟨t.val * 10000 + k.val, tile_lt N_7 t k⟩ := by
  refine (pay2_apply (bblk7 V c t) (hblk7 V c t) acc g d).trans ?_
  refine congrArg (acc (ix2 g d) + ·) (Finset.sum_congr rfl fun k _ => ?_)
  rw [bblk7_apply V c t k, hblk7_apply V c t k d]

-- five updates from zero, re-associated into one sum over all rows
theorem scr7_last (c : Dev nD) (t : Fin cfg7.N) (ht : t.val = 4) (g d : Fin 128) :
    scr7 V c t.val t.isLt (ix2 g d) = Spec.pool (hIn7 V c) (batchIn7 V c) g d := by
  obtain ⟨n, hn⟩ := t
  subst ht
  simp only [scr7]
  rw [step7 V c ⟨4, _⟩, step7 V c ⟨3, _⟩, step7 V c ⟨2, _⟩, step7 V c ⟨1, _⟩, step7 V c ⟨0, _⟩, pay7_zero_apply, zero_add]
  rw [← Spec.pool_onehot, ← Spec.sum_tiles (term7 V c g d), Fin.sum_univ_five]
  rfl

theorem final7_2 (c : Dev nD) (g d : Fin 128) :
    ((dat7 V c).arrAt 2 cfg7.N : S128x128.Idx → EReal) (ix2 g d) = Spec.pool (hIn7 V c) (batchIn7 V c) g d := by
  have he (t y) : ((cfg7.win 2).blk t).view.emb y = y :=
    funext fun a => Fin.ext (win7_2.rect_emb_val_of_index_zero t a ((idx7 t).2 a) y)
  have hr (G : Fin 128 → Fin 128 → EReal) (t) :
      ((cfg7.win 2).blk t).view.read (Elt Ideal) (fun i : S128x128.Idx => G (i 0) (i 1)) = fun j => G (j 0) (j 1) :=
    funext fun j => congrArg (fun i : S128x128.Idx => G (i 0) (i 1)) (he t j)
  refine congrFun (arrAt_eq_of_last (dat7 V c) 2 (fun i : S128x128.Idx => Spec.pool (hIn7 V c) (batchIn7 V c) (i 0) (i 1)) t7_4
    ((flush7_2 _).mpr rfl) (fun t hf => ?_) fun i => ⟨i, he _ i⟩) (ix2 g d)
  show (cfg7.win 2).cut (grid7.coords t) ((dat7 V c).after 2 t) = _
  rw [after7_2, hr (Spec.pool (hIn7 V c) (batchIn7 V c))]
  have ht : t.val = 4 := by have := (flush7_2 t).mp hf; have := t.isLt; have : cfg7.N = 5 := N_7; omega
  exact funext fun y => (congrArg (scr7 V c t.val t.isLt) (eq_ix2 y)).trans (scr7_last V c t ht (y 0) (y 1))

end Cert.KernelIdeal.Hand

end
-- ==== Proof.KI.Value.lean ====
import proofs.«430114_j32719060861414_1_alg».proof.Proof.KI.Chain
import proofs.«430114_j32719060861414_1_alg».proof.Proof.KI.Run
import proofs.«430114_j32719060861414_1_alg».proof.Proof.KI.ValM0
import proofs.«430114_j32719060861414_1_alg».proof.Proof.KI.ValM2
import proofs.«430114_j32719060861414_1_alg».proof.Proof.KI.ValM4
import proofs.«430114_j32719060861414_1_alg».proof.Proof.KI.ValM6
import proofs.«430114_j32719060861414_1_alg».proof.Proof.KI.ValB1
import proofs.«430114_j32719060861414_1_alg».proof.Proof.KI.ValB3
import proofs.«430114_j32719060861414_1_alg».proof.Proof.KI.ValB5
import proofs.«430114_j32719060861414_1_alg».proof.Proof.KI.ValP7

noncomputable section

namespace Cert.KernelIdeal.Hand

open Cert.KernelIdeal Cert.KernelIdeal.Gen
open Idealize.ShloMosaic Idealize.ShloMosaic.TcCoe Idealize.ShloMosaic.ValueIdx
open Cert

variable (m : (ℓ : Loc nD τ sig) → Buf (Elt Ideal) ℓ) (c : Dev nD)

-- What each region computes, composed layer by layer with the array operations between the regions, is the network.
theorem kernel_value (g d : Fin 128) :
    (V16 m (outs m) c main_v164 : S128x128.Idx → EReal) (ix2 g d) = Spec.outK (inK m c) g d := by
  have k := fun r hr => kept m (outs m) c (r := r) hr
  have h1 : mat (V4 m (outs m) c main_v47) = feat1 (inK m c) :=
    layer_eq (left0_5 m c) (final0_5 _ c) (left0_6 m c) (final0_6 _ c) (left0_7 m c) (final0_7 _ c) (host0 (V0 m c))
      (left1_5 m c) (final1_5 _ c) ((host1 (V2 m (outs m) c)).trans (nxtOf_eq (fun r hr => (k r hr).1) _ _ _ 0))
  have h2 : mat (V8 m (outs m) c main_v91) = feat2 (inK m c) :=
    layer_eq (left2_5 m c) (final2_5 _ c) (left2_6 m c) (final2_6 _ c) (left2_7 m c) (final2_7 _ c)
      ((host2 (V4 m (outs m) c)).trans ((preOf_eq (fun r hr => (k r hr).2.1) _ 1).trans (congrArg (pre _ · 1) h1)))
      (left3_5 m c) (final3_5 _ c) ((host3 (V6 m (outs m) c)).trans (nxtOf_eq (fun r hr => (k r hr).2.2.1) _ _ _ 1))
  have h3 : mat (V12 m (outs m) c main_v135) = feat3 (inK m c) :=
    layer_eq (left4_5 m c) (final4_5 _ c) (left4_6 m c) (final4_6 _ c) (left4_7 m c) (final4_7 _ c)
      ((host4 (V8 m (outs m) c)).trans ((preOf_eq (fun r hr => (k r hr).2.2.2.1) _ 2).trans (congrArg (pre _ · 2) h2)))
      (left5_5 m c) (final5_5 _ c) ((host5 (V10 m (outs m) c)).trans (nxtOf_eq (fun r hr => (k r hr).2.2.2.2.1) _ _ _ 2))
  have z3 : mat (V14 m (outs m) c main_v162_0) = pre (inK m c) (feat3 (inK m c)) 3 :=
    (funext₂ fun r q => (congrFun (left6_5 m c) (ix2 r q)).trans (final6_5 _ c r q)).trans
      ((host6 (V12 m (outs m) c)).trans
        ((preOf_eq (fun r hr => (k r hr).2.2.2.2.2.1) _ 3).trans (congrArg (pre _ · 3) h3)))
  rw [outK_eq, ← z3, show (inK m c).batch = vec (V14 m (outs m) c main_arg2) from
    funext fun n => (congrFun (kept_arg (fun r hr => (k r hr).2.2.2.2.2.2) (r := main_arg2) (by decide)) (ix1 n)).symm]
  exact ((congrFun (left7_2 m c) (ix2 g d)).trans (final7_2 _ c g d)).trans (congrFun₂ (host7 (V14 m (outs m) c)) g d)

end Cert.KernelIdeal.Hand

end
-- ==== Proof.Ref.Ops.lean ====
import proofs.«430114_j32719060861414_1_alg».proof.Proof.Gen.ReferenceIdeal
import Idealize.ShloMosaic.Lib.StableHlo.Run
import Mathlib.Data.List.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- the variance function's operations, over its two arguments and the buffers of one call
noncomputable abbrev varOps (x : TRef sig ⟨S50000x128, .f32⟩) (n : TRef sig ⟨S_, .i32⟩) (φ : fn_var.Bufs) : List (HloOp τ sig (Elt F)) :=
  [ TRef.nullary φ.cst (constant S_ .f32 0x00000000#32),
    TRef.binary x φ.cst φ.v0 (fun x v => Host.reduceAdd x v reducesTo_S50000x128_S128_d0 h_S_),
    TRef.unary φ.v0 φ.v1 (broadcastInDim S1x128 ![1] bcast_S128_S1x128_1),
    TRef.nullary φ.cst_0 (constant S_ .f32 0x47435000#32),
    TRef.unary φ.cst_0 φ.v2 (broadcastInDim S1x128 ![] bcast_S_S1x128),
    TRef.binary φ.v1 φ.v2 φ.v3 Host.divf,
    TRef.unary φ.v3 φ.v4 (broadcastInDim S50000x128 ![0, 1] bcast_S1x128_S50000x128_0_1),
    TRef.binary x φ.v4 φ.v5 subf,
    TRef.binary φ.v5 φ.v5 φ.v6 mulf,
    TRef.unary n φ.v7 (sitofp .f32),
    TRef.nullary φ.cst_1 (constant S_ .f32 0x47435000#32),
    TRef.binary φ.cst_1 φ.v7 φ.v8 subf,
    TRef.nullary φ.cst_2 (constant S_ .f32 0x00000000#32),
    TRef.binary φ.v6 φ.cst_2 φ.v9 (fun x v => Host.reduceAdd x v reducesTo_S50000x128_S128_d0 h_S_),
    TRef.unary φ.v8 φ.v10 (broadcastInDim S128 ![] bcast_S_S128),
    TRef.binary φ.v9 φ.v10 φ.v11 Host.divf,
    TRef.nullary φ.cst_3 (constant S_ .f32 0x00000000#32),
    TRef.binary φ.v8 φ.cst_3 φ.v12 (cmpf .ogt),
    TRef.nullary φ.cst_4 (constant S_ .f32 0x7FC00000#32),
    TRef.unary φ.cst_4 φ.call0.v0 id,
    TRef.unary φ.call0.v0 φ.call0.v1 (broadcastInDim S128 ![] bcast_S_S128),
    TRef.ternary φ.v12 φ.v11 φ.call0.v1 φ.call0.v2 (fun p a b => select (broadcastInDim S128 ![] bcast_S_S128 p) a b) ]

noncomputable abbrev opsA0 : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    nullary main_c (constantI S_ 32 0#32),
    unary main_c main_v4 (broadcastInDim S800000 ![] bcast_S_S800000),
    binary main_v1 main_v4 main_v5 (cmpi .slt),
    nullary main_c_0 (constantI S_ 32 50000#32),
    unary main_c_0 main_v6 (broadcastInDim S800000 ![] bcast_S_S800000),
    binary main_v1 main_v6 main_v7 addi,
    ternary main_v5 main_v7 main_v1 main_v8 select,
    unary main_v8 main_v9 (broadcastInDim S800000x1 ![0] bcast_S800000_S800000x1_0),
    binary main_arg0 main_v9 main_v10 (fun x i => Host.gather gather_S50000x128_S800000x1_S800000x128_1_0_n_n_0_1_1128 x i),
    nullary main_cst (constant S_ .f32 0x00000000#32),
    unary main_cst main_v11 (broadcastInDim S50000x128 ![] bcast_S_S50000x128),
    unary main_v3 main_v12 (broadcastInDim S800000x1 ![0] bcast_S800000_S800000x1_0),
    ternary main_v11 main_v12 main_v10 main_v13 (fun x i u => Host.scatterAdd scatter_S50000x128_S800000x1_S800000x128_1_0_0_1 x i u),
    unary main_arg7 main_v14 (extractStridedSlice S1 ![0] · slices_S4_S1_0),
    reshape main_v14 main_v15 rfl shapeCasts_S1_S_,
    nullary main_cst_1 (constant S_ .f32 0x3F800000#32),
    binary main_cst_1 main_v15 main_v16 addf,
    unary main_v16 main_v17 (broadcastInDim S50000x128 ![] bcast_S_S50000x128),
    binary main_v17 main_arg0 main_v18 mulf,
    binary main_v18 main_v13 main_v19 addf,
    unary main_arg3 main_v20 (extractStridedSlice S1x128x128 ![0, 0, 0] · slices_S4x128x128_S1x128x128_0_0_0),
    reshape main_v20 main_v21 rfl shapeCasts_S1x128x128_S128x128,
    binary main_v19 main_v21 main_v22 (fun l r => Host.dotGeneral dot_S50000x128_S128x128_S50000x128_1_0_0_1_n_n none l r),
    unary main_arg4 main_v23 (extractStridedSlice S1x128 ![0, 0] · slices_S4x128_S1x128_0_0),
    reshape main_v23 main_v24 rfl shapeCasts_S1x128_S128,
    unary main_v24 main_v25 (broadcastInDim S1x128 ![1] bcast_S128_S1x128_1),
    unary main_v25 main_v26 (broadcastInDim S50000x128 ![0, 1] bcast_S1x128_S50000x128_0_1),
    binary main_v22 main_v26 main_v27 addf,
    nullary main_cst_2 (constant S_ .f32 0x00000000#32),
    unary main_cst_2 main_v28 (broadcastInDim S50000x128 ![] bcast_S_S50000x128),
    binary main_v27 main_v28 main_v29 maximumf,
    unary main_arg5 main_v30 (extractStridedSlice S1x128x128 ![0, 0, 0] · slices_S4x128x128_S1x128x128_0_0_0),
    reshape main_v30 main_v31 rfl shapeCasts_S1x128x128_S128x128,
    binary main_v29 main_v31 main_v32 (fun l r => Host.dotGeneral dot_S50000x128_S128x128_S50000x128_1_0_0_1_n_n none l r),
    unary main_arg6 main_v33 (extractStridedSlice S1x128 ![0, 0] · slices_S4x128_S1x128_0_0),
    reshape main_v33 main_v34 rfl shapeCasts_S1x128_S128,
    unary main_v34 main_v35 (broadcastInDim S1x128 ![1] bcast_S128_S1x128_1),
    unary main_v35 main_v36 (broadcastInDim S50000x128 ![0, 1] bcast_S1x128_S50000x128_0_1),
    binary main_v32 main_v36 main_v37 addf ]

noncomputable abbrev opsB0 : List (HloOp τ sig (Elt F)) :=
  [ nullary main_cst_3 (constant S_ .f32 0x00000000#32),
    binary main_v37 main_cst_3 main_v38 (fun x v => Host.reduceAdd x v reducesTo_S50000x128_S128_d0 h_S_),
    nullary main_cst_4 (constant S_ .f32 0x47435000#32),
    unary main_cst_4 main_v39 (broadcastInDim S128 ![] bcast_S_S128),
    binary main_v38 main_v39 main_v40 Host.divf,
    nullary main_c_5 (constantI S_ 32 0#32) ] ++ varOps (.of main_v37) (.of main_c_5) main_call0 ++
  [ unary main_v40 main_v42 (broadcastInDim S1x128 ![1] bcast_S128_S1x128_1),
    unary main_v42 main_v43 (broadcastInDim S50000x128 ![0, 1] bcast_S1x128_S50000x128_0_1),
    binary main_v37 main_v43 main_v44 subf,
    nullary main_cst_6 (constant S_ .f32 0x3727C5AC#32),
    unary main_cst_6 main_v45 (broadcastInDim S128 ![] bcast_S_S128),
    binary main_v41 main_v45 main_v46 addf,
    unary main_v46 main_v47 Host.rsqrt,
    unary main_v47 main_v48 (broadcastInDim S1x128 ![1] bcast_S128_S1x128_1),
    unary main_v48 main_v49 (broadcastInDim S50000x128 ![0, 1] bcast_S1x128_S50000x128_0_1),
    binary main_v44 main_v49 main_v50 mulf,
    unary main_arg8 main_v51 (extractStridedSlice S1x128 ![0, 0] · slices_S3x128_S1x128_0_0),
    reshape main_v51 main_v52 rfl shapeCasts_S1x128_S128,
    unary main_v52 main_v53 (broadcastInDim S1x128 ![1] bcast_S128_S1x128_1),
    unary main_v53 main_v54 (broadcastInDim S50000x128 ![0, 1] bcast_S1x128_S50000x128_0_1),
    binary main_v50 main_v54 main_v55 mulf,
    unary main_arg9 main_v56 (extractStridedSlice S1x128 ![0, 0] · slices_S3x128_S1x128_0_0),
    reshape main_v56 main_v57 rfl shapeCasts_S1x128_S128,
    unary main_v57 main_v58 (broadcastInDim S1x128 ![1] bcast_S128_S1x128_1),
    unary main_v58 main_v59 (broadcastInDim S50000x128 ![0, 1] bcast_S1x128_S50000x128_0_1),
    binary main_v55 main_v59 main_v60 addf,
    nullary main_cst_7 (constant S_ .f32 0x00000000#32),
    unary main_cst_7 main_v61 (broadcastInDim S50000x128 ![] bcast_S_S50000x128),
    binary main_v60 main_v61 main_v62 maximumf ]

noncomputable abbrev opsA1 : List (HloOp τ sig (Elt F)) :=
  [ nullary main_c_8 (constantI S_ 32 0#32),
    unary main_c_8 main_v63 (broadcastInDim S800000 ![] bcast_S_S800000),
    binary main_v1 main_v63 main_v64 (cmpi .slt),
    nullary main_c_9 (constantI S_ 32 50000#32),
    unary main_c_9 main_v65 (broadcastInDim S800000 ![] bcast_S_S800000),
    binary main_v1 main_v65 main_v66 addi,
    ternary main_v64 main_v66 main_v1 main_v67 select,
    unary main_v67 main_v68 (broadcastInDim S800000x1 ![0] bcast_S800000_S800000x1_0),
    binary main_v62 main_v68 main_v69 (fun x i => Host.gather gather_S50000x128_S800000x1_S800000x128_1_0_n_n_0_1_1128 x i),
    nullary main_cst_10 (constant S_ .f32 0x00000000#32),
    unary main_cst_10 main_v70 (broadcastInDim S50000x128 ![] bcast_S_S50000x128),
    unary main_v3 main_v71 (broadcastInDim S800000x1 ![0] bcast_S800000_S800000x1_0),
    ternary main_v70 main_v71 main_v69 main_v72 (fun x i u => Host.scatterAdd scatter_S50000x128_S800000x1_S800000x128_1_0_0_1 x i u),
    unary main_arg7 main_v73 (extractStridedSlice S1 ![1] · slices_S4_S1_1),
    reshape main_v73 main_v74 rfl shapeCasts_S1_S_,
    nullary main_cst_11 (constant S_ .f32 0x3F800000#32),
    binary main_cst_11 main_v74 main_v75 addf,
    unary main_v75 main_v76 (broadcastInDim S50000x128 ![] bcast_S_S50000x128),
    binary main_v76 main_v62 main_v77 mulf,
    binary main_v77 main_v72 main_v78 addf,
    unary main_arg3 main_v79 (extractStridedSlice S1x128x128 ![1, 0, 0] · slices_S4x128x128_S1x128x128_1_0_0),
    reshape main_v79 main_v80 rfl shapeCasts_S1x128x128_S128x128,
    binary main_v78 main_v80 main_v81 (fun l r => Host.dotGeneral dot_S50000x128_S128x128_S50000x128_1_0_0_1_n_n none l r),
    unary main_arg4 main_v82 (extractStridedSlice S1x128 ![1, 0] · slices_S4x128_S1x128_1_0),
    reshape main_v82 main_v83 rfl shapeCasts_S1x128_S128,
    unary main_v83 main_v84 (broadcastInDim S1x128 ![1] bcast_S128_S1x128_1),
    unary main_v84 main_v85 (broadcastInDim S50000x128 ![0, 1] bcast_S1x128_S50000x128_0_1),
    binary main_v81 main_v85 main_v86 addf,
    nullary main_cst_12 (constant S_ .f32 0x00000000#32),
    unary main_cst_12 main_v87 (broadcastInDim S50000x128 ![] bcast_S_S50000x128),
    binary main_v86 main_v87 main_v88 maximumf,
    unary main_arg5 main_v89 (extractStridedSlice S1x128x128 ![1, 0, 0] · slices_S4x128x128_S1x128x128_1_0_0),
    reshape main_v89 main_v90 rfl shapeCasts_S1x128x128_S128x128,
    binary main_v88 main_v90 main_v91 (fun l r => Host.dotGeneral dot_S50000x128_S128x128_S50000x128_1_0_0_1_n_n none l r),
    unary main_arg6 main_v92 (extractStridedSlice S1x128 ![1, 0] · slices_S4x128_S1x128_1_0),
    reshape main_v92 main_v93 rfl shapeCasts_S1x128_S128,
    unary main_v93 main_v94 (broadcastInDim S1x128 ![1] bcast_S128_S1x128_1),
    unary main_v94 main_v95 (broadcastInDim S50000x128 ![0, 1] bcast_S1x128_S50000x128_0_1),
    binary main_v91 main_v95 main_v96 addf ]

noncomputable abbrev opsB1 : List (HloOp τ sig (Elt F)) :=
  [ nullary main_cst_13 (constant S_ .f32 0x00000000#32),
    binary main_v96 main_cst_13 main_v97 (fun x v => Host.reduceAdd x v reducesTo_S50000x128_S128_d0 h_S_),
    nullary main_cst_14 (constant S_ .f32 0x47435000#32),
    unary main_cst_14 main_v98 (broadcastInDim S128 ![] bcast_S_S128),
    binary main_v97 main_v98 main_v99 Host.divf,
    nullary main_c_15 (constantI S_ 32 0#32) ] ++ varOps (.of main_v96) (.of main_c_15) main_call1 ++
  [ unary main_v99 main_v101 (broadcastInDim S1x128 ![1] bcast_S128_S1x128_1),
    unary main_v101 main_v102 (broadcastInDim S50000x128 ![0, 1] bcast_S1x128_S50000x128_0_1),
    binary main_v96 main_v102 main_v103 subf,
    nullary main_cst_16 (constant S_ .f32 0x3727C5AC#32),
    unary main_cst_16 main_v104 (broadcastInDim S128 ![] bcast_S_S128),
    binary main_v100 main_v104 main_v105 addf,
    unary main_v105 main_v106 Host.rsqrt,
    unary main_v106 main_v107 (broadcastInDim S1x128 ![1] bcast_S128_S1x128_1),
    unary main_v107 main_v108 (broadcastInDim S50000x128 ![0, 1] bcast_S1x128_S50000x128_0_1),
    binary main_v103 main_v108 main_v109 mulf,
    unary main_arg8 main_v110 (extractStridedSlice S1x128 ![1, 0] · slices_S3x128_S1x128_1_0),
    reshape main_v110 main_v111 rfl shapeCasts_S1x128_S128,
    unary main_v111 main_v112 (broadcastInDim S1x128 ![1] bcast_S128_S1x128_1),
    unary main_v112 main_v113 (broadcastInDim S50000x128 ![0, 1] bcast_S1x128_S50000x128_0_1),
    binary main_v109 main_v113 main_v114 mulf,
    unary main_arg9 main_v115 (extractStridedSlice S1x128 ![1, 0] · slices_S3x128_S1x128_1_0),
    reshape main_v115 main_v116 rfl shapeCasts_S1x128_S128,
    unary main_v116 main_v117 (broadcastInDim S1x128 ![1] bcast_S128_S1x128_1),
    unary main_v117 main_v118 (broadcastInDim S50000x128 ![0, 1] bcast_S1x128_S50000x128_0_1),
    binary main_v114 main_v118 main_v119 addf,
    nullary main_cst_17 (constant S_ .f32 0x00000000#32),
    unary main_cst_17 main_v120 (broadcastInDim S50000x128 ![] bcast_S_S50000x128),
    binary main_v119 main_v120 main_v121 maximumf ]

noncomputable abbrev opsA2 : List (HloOp τ sig (Elt F)) :=
  [ nullary main_c_18 (constantI S_ 32 0#32),
    unary main_c_18 main_v122 (broadcastInDim S800000 ![] bcast_S_S800000),
    binary main_v1 main_v122 main_v123 (cmpi .slt),
    nullary main_c_19 (constantI S_ 32 50000#32),
    unary main_c_19 main_v124 (broadcastInDim S800000 ![] bcast_S_S800000),
    binary main_v1 main_v124 main_v125 addi,
    ternary main_v123 main_v125 main_v1 main_v126 select,
    unary main_v126 main_v127 (broadcastInDim S800000x1 ![0] bcast_S800000_S800000x1_0),
    binary main_v121 main_v127 main_v128 (fun x i => Host.gather gather_S50000x128_S800000x1_S800000x128_1_0_n_n_0_1_1128 x i),
    nullary main_cst_20 (constant S_ .f32 0x00000000#32),
    unary main_cst_20 main_v129 (broadcastInDim S50000x128 ![] bcast_S_S50000x128),
    unary main_v3 main_v130 (broadcastInDim S800000x1 ![0] bcast_S800000_S800000x1_0),
    ternary main_v129 main_v130 main_v128 main_v131 (fun x i u => Host.scatterAdd scatter_S50000x128_S800000x1_S800000x128_1_0_0_1 x i u),
    unary main_arg7 main_v132 (extractStridedSlice S1 ![2] · slices_S4_S1_2),
    reshape main_v132 main_v133 rfl shapeCasts_S1_S_,
    nullary main_cst_21 (constant S_ .f32 0x3F800000#32),
    binary main_cst_21 main_v133 main_v134 addf,
    unary main_v134 main_v135 (broadcastInDim S50000x128 ![] bcast_S_S50000x128),
    binary main_v135 main_v121 main_v136 mulf,
    binary main_v136 main_v131 main_v137 addf,
    unary main_arg3 main_v138 (extractStridedSlice S1x128x128 ![2, 0, 0] · slices_S4x128x128_S1x128x128_2_0_0),
    reshape main_v138 main_v139 rfl shapeCasts_S1x128x128_S128x128,
    binary main_v137 main_v139 main_v140 (fun l r => Host.dotGeneral dot_S50000x128_S128x128_S50000x128_1_0_0_1_n_n none l r),
    unary main_arg4 main_v141 (extractStridedSlice S1x128 ![2, 0] · slices_S4x128_S1x128_2_0),
    reshape main_v141 main_v142 rfl shapeCasts_S1x128_S128,
    unary main_v142 main_v143 (broadcastInDim S1x128 ![1] bcast_S128_S1x128_1),
    unary main_v143 main_v144 (broadcastInDim S50000x128 ![0, 1] bcast_S1x128_S50000x128_0_1),
    binary main_v140 main_v144 main_v145 addf,
    nullary main_cst_22 (constant S_ .f32 0x00000000#32),
    unary main_cst_22 main_v146 (broadcastInDim S50000x128 ![] bcast_S_S50000x128),
    binary main_v145 main_v146 main_v147 maximumf,
    unary main_arg5 main_v148 (extractStridedSlice S1x128x128 ![2, 0, 0] · slices_S4x128x128_S1x128x128_2_0_0),
    reshape main_v148 main_v149 rfl shapeCasts_S1x128x128_S128x128,
    binary main_v147 main_v149 main_v150 (fun l r => Host.dotGeneral dot_S50000x128_S128x128_S50000x128_1_0_0_1_n_n none l r),
    unary main_arg6 main_v151 (extractStridedSlice S1x128 ![2, 0] · slices_S4x128_S1x128_2_0),
    reshape main_v151 main_v152 rfl shapeCasts_S1x128_S128,
    unary main_v152 main_v153 (broadcastInDim S1x128 ![1] bcast_S128_S1x128_1),
    unary main_v153 main_v154 (broadcastInDim S50000x128 ![0, 1] bcast_S1x128_S50000x128_0_1),
    binary main_v150 main_v154 main_v155 addf ]

noncomputable abbrev opsB2 : List (HloOp τ sig (Elt F)) :=
  [ nullary main_cst_23 (constant S_ .f32 0x00000000#32),
    binary main_v155 main_cst_23 main_v156 (fun x v => Host.reduceAdd x v reducesTo_S50000x128_S128_d0 h_S_),
    nullary main_cst_24 (constant S_ .f32 0x47435000#32),
    unary main_cst_24 main_v157 (broadcastInDim S128 ![] bcast_S_S128),
    binary main_v156 main_v157 main_v158 Host.divf,
    nullary main_c_25 (constantI S_ 32 0#32) ] ++ varOps (.of main_v155) (.of main_c_25) main_call2 ++
  [ unary main_v158 main_v160 (broadcastInDim S1x128 ![1] bcast_S128_S1x128_1),
    unary main_v160 main_v161 (broadcastInDim S50000x128 ![0, 1] bcast_S1x128_S50000x128_0_1),
    binary main_v155 main_v161 main_v162 subf,
    nullary main_cst_26 (constant S_ .f32 0x3727C5AC#32),
    unary main_cst_26 main_v163 (broadcastInDim S128 ![] bcast_S_S128),
    binary main_v159 main_v163 main_v164 addf,
    unary main_v164 main_v165 Host.rsqrt,
    unary main_v165 main_v166 (broadcastInDim S1x128 ![1] bcast_S128_S1x128_1),
    unary main_v166 main_v167 (broadcastInDim S50000x128 ![0, 1] bcast_S1x128_S50000x128_0_1),
    binary main_v162 main_v167 main_v168 mulf,
    unary main_arg8 main_v169 (extractStridedSlice S1x128 ![2, 0] · slices_S3x128_S1x128_2_0),
    reshape main_v169 main_v170 rfl shapeCasts_S1x128_S128,
    unary main_v170 main_v171 (broadcastInDim S1x128 ![1] bcast_S128_S1x128_1),
    unary main_v171 main_v172 (broadcastInDim S50000x128 ![0, 1] bcast_S1x128_S50000x128_0_1),
    binary main_v168 main_v172 main_v173 mulf,
    unary main_arg9 main_v174 (extractStridedSlice S1x128 ![2, 0] · slices_S3x128_S1x128_2_0),
    reshape main_v174 main_v175 rfl shapeCasts_S1x128_S128,
    unary main_v175 main_v176 (broadcastInDim S1x128 ![1] bcast_S128_S1x128_1),
    unary main_v176 main_v177 (broadcastInDim S50000x128 ![0, 1] bcast_S1x128_S50000x128_0_1),
    binary main_v173 main_v177 main_v178 addf,
    nullary main_cst_27 (constant S_ .f32 0x00000000#32),
    unary main_cst_27 main_v179 (broadcastInDim S50000x128 ![] bcast_S_S50000x128),
    binary main_v178 main_v179 main_v180 maximumf ]

noncomputable abbrev opsA3 : List (HloOp τ sig (Elt F)) :=
  [ nullary main_c_28 (constantI S_ 32 0#32),
    unary main_c_28 main_v181 (broadcastInDim S800000 ![] bcast_S_S800000),
    binary main_v1 main_v181 main_v182 (cmpi .slt),
    nullary main_c_29 (constantI S_ 32 50000#32),
    unary main_c_29 main_v183 (broadcastInDim S800000 ![] bcast_S_S800000),
    binary main_v1 main_v183 main_v184 addi,
    ternary main_v182 main_v184 main_v1 main_v185 select,
    unary main_v185 main_v186 (broadcastInDim S800000x1 ![0] bcast_S800000_S800000x1_0),
    binary main_v180 main_v186 main_v187 (fun x i => Host.gather gather_S50000x128_S800000x1_S800000x128_1_0_n_n_0_1_1128 x i),
    nullary main_cst_30 (constant S_ .f32 0x00000000#32),
    unary main_cst_30 main_v188 (broadcastInDim S50000x128 ![] bcast_S_S50000x128),
    unary main_v3 main_v189 (broadcastInDim S800000x1 ![0] bcast_S800000_S800000x1_0),
    ternary main_v188 main_v189 main_v187 main_v190 (fun x i u => Host.scatterAdd scatter_S50000x128_S800000x1_S800000x128_1_0_0_1 x i u),
    unary main_arg7 main_v191 (extractStridedSlice S1 ![3] · slices_S4_S1_3),
    reshape main_v191 main_v192 rfl shapeCasts_S1_S_,
    nullary main_cst_31 (constant S_ .f32 0x3F800000#32),
    binary main_cst_31 main_v192 main_v193 addf,
    unary main_v193 main_v194 (broadcastInDim S50000x128 ![] bcast_S_S50000x128),
    binary main_v194 main_v180 main_v195 mulf,
    binary main_v195 main_v190 main_v196 addf,
    unary main_arg3 main_v197 (extractStridedSlice S1x128x128 ![3, 0, 0] · slices_S4x128x128_S1x128x128_3_0_0),
    reshape main_v197 main_v198 rfl shapeCasts_S1x128x128_S128x128,
    binary main_v196 main_v198 main_v199 (fun l r => Host.dotGeneral dot_S50000x128_S128x128_S50000x128_1_0_0_1_n_n none l r),
    unary main_arg4 main_v200 (extractStridedSlice S1x128 ![3, 0] · slices_S4x128_S1x128_3_0),
    reshape main_v200 main_v201 rfl shapeCasts_S1x128_S128,
    unary main_v201 main_v202 (broadcastInDim S1x128 ![1] bcast_S128_S1x128_1),
    unary main_v202 main_v203 (broadcastInDim S50000x128 ![0, 1] bcast_S1x128_S50000x128_0_1),
    binary main_v199 main_v203 main_v204 addf,
    nullary main_cst_32 (constant S_ .f32 0x00000000#32),
    unary main_cst_32 main_v205 (broadcastInDim S50000x128 ![] bcast_S_S50000x128),
    binary main_v204 main_v205 main_v206 maximumf,
    unary main_arg5 main_v207 (extractStridedSlice S1x128x128 ![3, 0, 0] · slices_S4x128x128_S1x128x128_3_0_0),
    reshape main_v207 main_v208 rfl shapeCasts_S1x128x128_S128x128,
    binary main_v206 main_v208 main_v209 (fun l r => Host.dotGeneral dot_S50000x128_S128x128_S50000x128_1_0_0_1_n_n none l r),
    unary main_arg6 main_v210 (extractStridedSlice S1x128 ![3, 0] · slices_S4x128_S1x128_3_0),
    reshape main_v210 main_v211 rfl shapeCasts_S1x128_S128,
    unary main_v211 main_v212 (broadcastInDim S1x128 ![1] bcast_S128_S1x128_1),
    unary main_v212 main_v213 (broadcastInDim S50000x128 ![0, 1] bcast_S1x128_S50000x128_0_1),
    binary main_v209 main_v213 main_v214 addf ]

noncomputable abbrev opsP : List (HloOp τ sig (Elt F)) :=
  [ nullary main_cst_33 (constant S_ .f32 0x00000000#32),
    unary main_cst_33 main_v215 (broadcastInDim S128x128 ![] bcast_S_S128x128),
    unary main_arg2 main_v216 (broadcastInDim S50000x1 ![0] bcast_S50000_S50000x1_0),
    ternary main_v215 main_v216 main_v214 main_v217 (fun x i u => Host.scatterAdd scatter_S128x128_S50000x1_S50000x128_1_0_0_1 x i u) ]

noncomputable abbrev ops : List (HloOp τ sig (Elt F)) :=
  opsA0 ++ opsB0 ++ opsA1 ++ opsB1 ++ opsA2 ++ opsB2 ++ opsA3 ++ opsP

theorem ops_sub : (ops : List (HloOp τ sig (Elt F))).Forall fun op => op.bufs ⊆ tcRefs τ sig := by
  simp only [List.forall_append, List.Forall, nullary_bufs_sub, unary_bufs_sub, binary_bufs_sub, ternary_bufs_sub,
    reshape_bufs_sub, and_self]

end Cert.ReferenceIdeal.Hand

end
-- ==== Proof.Ref.Run.lean ====
import proofs.«430114_j32719060861414_1_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 100000 in
theorem main_eq (c : Dev nD) : main (F := F) c = StableHlo.seq ops := rfl

theorem scopedRefs_eq : (Finset.univ.filter fun b : Ref sig .tc => b.isScoped) = ∅ := by decide
theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (launchContents m c) (Proc.devRef .tc b) :=
  run_seq scopedRefs_eq scopedSems_eq defs main (fun _ => ops) main_eq (fun _ => ops_sub) m ρ

end Cert.ReferenceIdeal.Hand

end
-- ==== Proof.Ref.Read.lean ====
import proofs.«430114_j32719060861414_1_alg».proof.Proof.Ref.Ops
import proofs.«430114_j32719060861414_1_alg».proof.Proof.Spec
import proofs.«430114_j32719060861414_1_alg».proof.Proof.LibGatherRows
import proofs.«430114_j32719060861414_1_alg».proof.Proof.LibRowsScatter
import Idealize.ShloMosaic.Lib.StableHlo.Run
import Idealize.ShloMosaic.Lib.ValueIdx
import Idealize.ShloMosaic.Lib.ValueLayout
import Idealize.ShloMosaic.Lib.IdealHost
import Idealize.ShloMosaic.Lib.StackMember
import Idealize.ShloMosaic.Lib.KernelVsHost
import Idealize.ShloMosaic.PureOps.Ideal.Laws

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

section Layout
variable {α : Type}

theorem sliceCast3 {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (i : Fin n) (hi : i.val = o) (j : Fin a) (k : Fin b) :
    shapeCast ⟨2, ![a, b]⟩ (extractStridedSlice ⟨3, ![1, a, b]⟩ ![o, 0, 0] X hs) hc (ix2 j k) = X (ix3 i j k) := by
  refine (shapeCast_1ab_ab_apply _ hc j k).trans ?_
  exact extractStridedSlice_apply _ _ hs _ _ (fun ax => by
    match ax with
    | ⟨0, _⟩ => exact hi.trans (Nat.add_zero o).symm
    | ⟨1, _⟩ => exact (Nat.zero_add _).symm
    | ⟨2, _⟩ => exact (Nat.zero_add _).symm)

theorem sliceCast2 {n a : ℕ} (o : ℕ) (X : (⟨2, ![n, a]⟩ : Shape).Idx → α)
    (hs : (⟨2, ![n, a]⟩ : Shape).Slices ![o, 0] ⟨2, ![1, a]⟩) (hc : (⟨2, ![1, a]⟩ : Shape).ShapeCasts ⟨1, ![a]⟩)
    (i : Fin n) (hi : i.val = o) (k : Fin a) :
    shapeCast ⟨1, ![a]⟩ (extractStridedSlice ⟨2, ![1, a]⟩ ![o, 0] X hs) hc (ix1 k) = X (ix2 i k) :=
  (shapeCast_1a_a_apply _ hc k).trans (slice2_axis0_apply o X hs (0 : Fin 1) k i (hi.trans (Nat.add_zero o).symm))

theorem sliceCast1 {n : ℕ} (o : ℕ) (X : (⟨1, ![n]⟩ : Shape).Idx → α)
    (hs : (⟨1, ![n]⟩ : Shape).Slices ![o] ⟨1, ![1]⟩) (hc : (⟨1, ![1]⟩ : Shape).ShapeCasts ⟨0, ![]⟩)
    (i : Fin n) (hi : i.val = o) :
    shapeCast ⟨0, ![]⟩ (extractStridedSlice ⟨1, ![1]⟩ ![o] X hs) hc ix0 = X (ix1 i) := by
  refine (shapeCast_apply _ hc ix0 (ix1 (0 : Fin 1)) ?_).trans ?_
  · have h1 := (Shape.rowMajor (⟨1, ![1]⟩ : Shape) (ix1 (0 : Fin 1))).isLt
    have h0 := (Shape.rowMajor (⟨0, ![]⟩ : Shape) ix0).isLt
    have e1 : (⟨1, ![1]⟩ : Shape).numel = 1 := by decide
    have e0 : (⟨0, ![]⟩ : Shape).numel = 1 := by decide
    omega
  · exact extractStridedSlice_apply _ _ hs _ _ (fun ax => by
      match ax with
      | ⟨0, _⟩ => exact hi.trans (Nat.add_zero o).symm)

theorem bcastCoord {n : ℕ} (c : Fin n) : c.val = if n = 1 then 0 else c.val := by
  split
  · have := c.isLt; omega
  · rfl

theorem vecRow_apply {n : ℕ} (h1 : (⟨1, ![n]⟩ : Shape).BroadcastsInDim ⟨2, ![1, n]⟩ (![1] : Fin 1 → Fin 2))
    (b : (⟨1, ![n]⟩ : Shape).Idx → α) (u : Fin 1) (c : Fin n) :
    broadcastInDim ⟨2, ![1, n]⟩ ![1] h1 b (ix2 u c) = b (ix1 c) :=
  broadcastInDim_apply ![1] h1 b (ix2 u c) (ix1 c) fun a => by
    match a with
    | ⟨0, _⟩ => exact bcastCoord c

theorem bias_apply {m n : ℕ} (h1 : (⟨1, ![n]⟩ : Shape).BroadcastsInDim ⟨2, ![1, n]⟩ (![1] : Fin 1 → Fin 2))
    (h2 : (⟨2, ![1, n]⟩ : Shape).BroadcastsInDim ⟨2, ![m, n]⟩ (![0, 1] : Fin 2 → Fin 2))
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) :=
  (broadcastInDim_oneRow_apply h2 _ r c).trans (vecRow_apply h1 b 0 c)

theorem colBcast_apply {n : ℕ} (h : (⟨1, ![n]⟩ : Shape).BroadcastsInDim ⟨2, ![n, 1]⟩ (![0] : Fin 1 → Fin 2))
    (x : (⟨1, ![n]⟩ : Shape).Idx → α) (e : Fin n) (u : Fin 1) :
    broadcastInDim ⟨2, ![n, 1]⟩ ![0] h x (ix2 e u) = x (ix1 e) :=
  broadcastInDim_apply ![0] h x (ix2 e u) (ix1 e) fun a => by
    match a with
    | ⟨0, _⟩ => exact bcastCoord e

theorem zeroSplat_apply {T : Shape} (h : S_.BroadcastsInDim T ![]) (j : T.Idx) :
    broadcastInDim T ![] h (constant (F := Ideal) S_ .f32 0x00000000#32) j = (0 : EReal) :=
  (broadcastInDim_scalar_apply h _ j).trans Ideal.ofBits_zero_f32

end Layout

theorem wrap_eq (s : BitVec 32) :
    Scalar.select (IntOp.cmpi .slt s 0#32) (IntOp.addi s 50000#32) s = Spec.wrapIdx s := by
  unfold Scalar.select IntOp.cmpi IntOp.addi Spec.wrapIdx
  cases h : s.slt 0#32 <;> simp

theorem dot_apply (A : FVec Ideal S50000x128 .f32) (B : FVec Ideal S128x128 .f32) (r : Fin 50000) (c : Fin 128) :
    Host.dotGeneral dot_S50000x128_S128x128_S50000x128_1_0_0_1_n_n none A B (ix2 r c) = ∑ k : Fin 128, A (ix2 r k) * B (ix2 k c) := by
  have hd : dot_S50000x128_S128x128_S50000x128_1_0_0_1_n_n = DotDims.plain 50000 128 128 := rfl
  rw [hd]
  exact StackMember.dotGeneral_plain_apply none A B r c

theorem dense_apply (X : FVec Ideal S50000x128 .f32) (Wm : FVec Ideal S128x128 .f32) (b : FVec Ideal S128 .f32)
    (Xf : Spec.Mat 50000 128) (A : Spec.Mat 128 128) (Bv : Spec.Vct 128)
    (hX : ∀ r j, X (ix2 r j) = Xf r j) (hA : ∀ j k, Wm (ix2 j k) = A j k) (hB : ∀ k, b (ix1 k) = Bv k)
    (r : Fin 50000) (k : Fin 128) :
    addf (Host.dotGeneral dot_S50000x128_S128x128_S50000x128_1_0_0_1_n_n none X Wm)
        (broadcastInDim S50000x128 ![0, 1] bcast_S1x128_S50000x128_0_1 (broadcastInDim S1x128 ![1] bcast_S128_S1x128_1 b))
        (ix2 r k)
      = (∑ j : Fin 128, Xf r j * A j k) + Bv k := by
  rw [addf_apply, dot_apply, bias_apply, hB]
  congr 1
  exact Finset.sum_congr rfl fun j _ => by rw [hX, hA]

-- the wrapped source indices and the combination, as the line writes them
abbrev wrapP (s1 : IVec S800000 32) : IVec S800000 32 :=
  select (cmpi .slt s1 (broadcastInDim S800000 ![] bcast_S_S800000 (constantI S_ 32 0#32)))
    (addi s1 (broadcastInDim S800000 ![] bcast_S_S800000 (constantI S_ 32 50000#32))) s1
abbrev combP (h : FVec Ideal S50000x128 .f32) (s1 d1 : IVec S800000 32) (e : FVec Ideal S_ .f32) : FVec Ideal S50000x128 .f32 :=
  addf (mulf (broadcastInDim S50000x128 ![] bcast_S_S50000x128 (addf (constant (F := Ideal) S_ .f32 0x3F800000#32) e)) h)
    (Host.scatterAdd scatter_S50000x128_S800000x1_S800000x128_1_0_0_1 (broadcastInDim S50000x128 ![] bcast_S_S50000x128 (constant (F := Ideal) S_ .f32 0x00000000#32))
      (broadcastInDim S800000x1 ![0] bcast_S800000_S800000x1_0 d1)
      (Host.gather gather_S50000x128_S800000x1_S800000x128_1_0_n_n_0_1_1128 h (broadcastInDim S800000x1 ![0] bcast_S800000_S800000x1_0 (wrapP s1))))

section Layer
variable {h : FVec Ideal S50000x128 .f32} {s1 d1 : IVec S800000 32} {e : FVec Ideal S_ .f32}
  {H : Spec.Mat 50000 128} {S D : Fin 800000 → BitVec 32} {E : EReal}
  (hH : ∀ r q, h (ix2 r q) = H r q) (hS : ∀ j, s1 (ix1 j) = S j) (hD : ∀ j, d1 (ix1 j) = D j) (hE : e ix0 = E)
include hH hS hD hE

theorem comb_apply (r : Fin 50000) (q : Fin 128) : combP h s1 d1 e (ix2 r q) = Spec.comb H S D E r q := by
  unfold combP
  rw [addf_apply, mulf_apply, broadcastInDim_scalar_apply, addf_apply, hE, hH,
    LibRowsScatter.rowsScatterAdd_apply scatter_S50000x128_S800000x1_S800000x128_1_0_0_1 rfl rfl rfl rfl, zeroSplat_apply, zero_add]
  unfold Spec.comb Spec.agg
  refine congrArg₂ (· + ·) rfl (Finset.sum_congr rfl fun j _ => ?_)
  rw [colBcast_apply bcast_S800000_S800000x1_0 d1 j 0, hD,
    LibGatherRows.gatherRows_apply (by decide : 0 < 50000) gather_S50000x128_S800000x1_S800000x128_1_0_n_n_0_1_1128 rfl rfl rfl rfl rfl, hH, colBcast_apply]
  have hw : wrapP s1 (ix1 j) = Spec.wrapIdx (S j) := by
    show Scalar.select (IntOp.cmpi .slt (s1 (ix1 j)) 0#32) (IntOp.addi (s1 (ix1 j)) 50000#32) (s1 (ix1 j)) = _
    rw [hS, wrap_eq]
  rw [hw]
  rfl

theorem layer_apply {W1 W2 : FVec Ideal S128x128 .f32} {b1 b2 : FVec Ideal S128 .f32} {A1 A2 : Spec.Mat 128 128} {B1 B2 : Spec.Vct 128}
    (hA1 : ∀ j k, W1 (ix2 j k) = A1 j k) (hB1 : ∀ k, b1 (ix1 k) = B1 k)
    (hA2 : ∀ j k, W2 (ix2 j k) = A2 j k) (hB2 : ∀ k, b2 (ix1 k) = B2 k) (r : Fin 50000) (c : Fin 128) :
    addf
        (Host.dotGeneral dot_S50000x128_S128x128_S50000x128_1_0_0_1_n_n none
          (maximumf
            (addf (Host.dotGeneral dot_S50000x128_S128x128_S50000x128_1_0_0_1_n_n none (combP h s1 d1 e) W1)
              (broadcastInDim S50000x128 ![0, 1] bcast_S1x128_S50000x128_0_1 (broadcastInDim S1x128 ![1] bcast_S128_S1x128_1 b1)))
            (broadcastInDim S50000x128 ![] bcast_S_S50000x128 (constant (F := Ideal) S_ .f32 0x00000000#32)))
          W2)
        (broadcastInDim S50000x128 ![0, 1] bcast_S1x128_S50000x128_0_1 (broadcastInDim S1x128 ![1] bcast_S128_S1x128_1 b2))
        (ix2 r c)
      = Spec.mlp (Spec.comb H S D E) A1 B1 A2 B2 r c :=
  dense_apply _ W2 b2 (fun r k => max ((∑ j : Fin 128, Spec.comb H S D E r j * A1 j k) + B1 k) 0) A2 B2
    (fun r k => by
      rw [maximumf_apply, zeroSplat_apply,
        dense_apply _ W1 b1 (Spec.comb H S D E) A1 B1 (fun r q => comb_apply hH hS hD hE r q) hA1 hB1])
    hA2 hB2 r c

end Layer

theorem nNodes_eq : Spec.nNodes = ((50000 : ℝ) : EReal) := by
  simp [Ideal.ofBits, Ideal.ieee, -EReal.coe_mul]; norm_num

theorem denom_eq : (subf (constant (F := Ideal) S_ .f32 0x47435000#32) (sitofp .f32 (constantI S_ 32 0#32))) ix0 = Spec.nNodes - 0 := by
  show Spec.nNodes - ((((0#32 : BitVec 32).toInt : ℤ) : ℝ) : EReal) = _
  simp

theorem guard_one : (cmpf CmpFPredicate.ogt (subf (constant (F := Ideal) S_ .f32 0x47435000#32) (sitofp .f32 (constantI S_ 32 0#32))) (constant (F := Ideal) S_ .f32 0x00000000#32)) ix0 = 1#1 := by
  show Ideal.cmp .ogt (Spec.nNodes - ((((0#32 : BitVec 32).toInt : ℤ) : ℝ) : EReal)) (Ideal.ofBits .f32 0x00000000#32) = 1#1
  rw [Ideal.ofBits_zero_f32, nNodes_eq]
  unfold Ideal.cmp
  simp

theorem colsum_apply (x : FVec Ideal S50000x128 .f32) (c : Fin 128) :
    (Host.reduceAdd x (constant (F := Ideal) S_ .f32 0x00000000#32) reducesTo_S50000x128_S128_d0 h_S_) (ix1 c) = ∑ r : Fin 50000, x (ix2 r c) := by
  have hr : S50000x128.Reduces [0] S128 := by decide
  rw [hostReduceAdd_apply, Ideal.hostReduceAdd_single reducesTo_S50000x128_S128_d0 hr]
  show Ideal.ofBits .f32 0x00000000#32 + _ = _
  rw [Ideal.ofBits_zero_f32, zero_add]
  exact Finset.sum_congr rfl fun k _ => congrArg x (by
    funext a; apply Fin.ext
    match a with
    | ⟨0, _⟩ => rfl
    | ⟨1, _⟩ => rfl)

-- the column sums, and the deviations from the column means
abbrev csumP (z : FVec Ideal S50000x128 .f32) : FVec Ideal S128 .f32 :=
  Host.reduceAdd z (constant (F := Ideal) S_ .f32 0x00000000#32) reducesTo_S50000x128_S128_d0 h_S_
abbrev devP (z : FVec Ideal S50000x128 .f32) : FVec Ideal S50000x128 .f32 :=
  subf z (broadcastInDim S50000x128 ![0, 1] bcast_S1x128_S50000x128_0_1 (Host.divf (broadcastInDim S1x128 ![1] bcast_S128_S1x128_1 (csumP z)) (broadcastInDim S1x128 ![] bcast_S_S1x128 (constant (F := Ideal) S_ .f32 0x47435000#32))))

section Norm
variable {z : FVec Ideal S50000x128 .f32} {Z : Spec.Mat 50000 128} (hZ : ∀ r c, z (ix2 r c) = Z r c)
include hZ

theorem csumP_apply (c : Fin 128) : csumP z (ix1 c) = Spec.csum Z c :=
  (colsum_apply z c).trans (Finset.sum_congr rfl fun r _ => hZ r c)

theorem devP_apply (r : Fin 50000) (c : Fin 128) : devP z (ix2 r c) = Z r c - Spec.meanOf (Spec.csum Z) c := by
  unfold devP
  rw [subf_apply, hZ, broadcastInDim_oneRow_apply, hostDivf_apply, vecRow_apply, csumP_apply hZ, broadcastInDim_scalar_apply]
  rfl

theorem var_apply (c : Fin 128) :
    (select (broadcastInDim S128 ![] bcast_S_S128 (cmpf CmpFPredicate.ogt (subf (constant (F := Ideal) S_ .f32 0x47435000#32) (sitofp .f32 (constantI S_ 32 0#32))) (constant (F := Ideal) S_ .f32 0x00000000#32)))
      (Host.divf (Host.reduceAdd (mulf (devP z) (devP z)) (constant (F := Ideal) S_ .f32 0x00000000#32) reducesTo_S50000x128_S128_d0 h_S_) (broadcastInDim S128 ![] bcast_S_S128 (subf (constant (F := Ideal) S_ .f32 0x47435000#32) (sitofp .f32 (constantI S_ 32 0#32)))))
      (broadcastInDim S128 ![] bcast_S_S128 (id (constant (F := Ideal) S_ .f32 0x7FC00000#32)))) (ix1 c) = Spec.varR Z c := by
  rw [select_apply, broadcastInDim_scalar_apply, guard_one, select_one, hostDivf_apply, colsum_apply,
    broadcastInDim_scalar_apply, denom_eq]
  unfold Spec.varR
  refine congrArg₂ Ideal.div (Finset.sum_congr rfl fun r _ => ?_) rfl
  rw [mulf_apply, devP_apply hZ]

-- the normalisation over a named variance
theorem bn_core {v g b : FVec Ideal S128 .f32} {V G B : Spec.Vct 128}
    (hV : ∀ k, v (ix1 k) = V k) (hG : ∀ k, g (ix1 k) = G k) (hB : ∀ k, b (ix1 k) = B k) (r : Fin 50000) (c : Fin 128) :
    maximumf
        (addf (mulf (mulf (subf z (broadcastInDim S50000x128 ![0, 1] bcast_S1x128_S50000x128_0_1 (broadcastInDim S1x128 ![1] bcast_S128_S1x128_1 (Host.divf (csumP z) (broadcastInDim S128 ![] bcast_S_S128 (constant (F := Ideal) S_ .f32 0x47435000#32)))))) (broadcastInDim S50000x128 ![0, 1] bcast_S1x128_S50000x128_0_1 (broadcastInDim S1x128 ![1] bcast_S128_S1x128_1 (Host.rsqrt (addf v (broadcastInDim S128 ![] bcast_S_S128 (constant (F := Ideal) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 b)))
        (broadcastInDim S50000x128 ![] bcast_S_S50000x128 (constant (F := Ideal) S_ .f32 0x00000000#32)) (ix2 r c)
      = Spec.bn Z (Spec.meanOf (Spec.csum Z)) V G B r c := by
  have hmean : (Host.divf (csumP z) (broadcastInDim S128 ![] bcast_S_S128 (constant (F := Ideal) S_ .f32 0x47435000#32))) (ix1 c) = Spec.meanOf (Spec.csum Z) c := by
    rw [hostDivf_apply, csumP_apply hZ, broadcastInDim_scalar_apply]
    rfl
  have hrs : (Host.rsqrt (addf v (broadcastInDim S128 ![] bcast_S_S128 (constant (F := Ideal) S_ .f32 0x3727C5AC#32)))) (ix1 c) = Ideal.rsqrt (V c + Spec.epsBN) := by
    show Ideal.rsqrt (addf v (broadcastInDim S128 ![] bcast_S_S128 (constant (F := Ideal) S_ .f32 0x3727C5AC#32)) (ix1 c)) = _
    rw [addf_apply, hV, broadcastInDim_scalar_apply]
    rfl
  rw [maximumf_apply, zeroSplat_apply, addf_apply, mulf_apply, mulf_apply, subf_apply, hZ,
    bias_apply, bias_apply, bias_apply, bias_apply, hmean, hrs, hG, hB]
  rfl

end Norm

theorem pool_apply (z : FVec Ideal S50000x128 .f32) (bt : IVec S50000 32) (Z : Spec.Mat 50000 128)
    (Bt : Fin 50000 → BitVec 32) (hZ : ∀ r c, z (ix2 r c) = Z r c) (hBt : ∀ n, bt (ix1 n) = Bt n) (g d : Fin 128) :
    Host.scatterAdd scatter_S128x128_S50000x1_S50000x128_1_0_0_1
        (broadcastInDim S128x128 ![] bcast_S_S128x128 (constant (F := Ideal) S_ .f32 0x00000000#32))
        (broadcastInDim S50000x1 ![0] bcast_S50000_S50000x1_0 bt) z (ix2 g d)
      = Spec.pool Z Bt g d := by
  rw [LibRowsScatter.rowsScatterAdd_apply scatter_S128x128_S50000x1_S50000x128_1_0_0_1 rfl rfl rfl rfl, zeroSplat_apply, zero_add]
  unfold Spec.pool
  exact Finset.sum_congr rfl fun n _ => by rw [colBcast_apply, hBt, hZ]

-- layer i's perceptron of the combination of H, its parameters read off the argument arrays of W₀
def zOf (W₀ : Valuation τ sig (Elt Ideal)) (H : Spec.Mat 50000 128) (S D : Fin 800000 → BitVec 32) (i : Fin 4) : Spec.Mat 50000 128 :=
  Spec.mlp (Spec.comb H S D (W₀ main_arg7 (ix1 i))) (fun j k => W₀ main_arg3 (ix3 i j k)) (fun k => W₀ main_arg4 (ix2 i k))
    (fun j k => W₀ main_arg5 (ix3 i j k)) (fun k => W₀ main_arg6 (ix2 i k))

section Read

variable (W W₀ : Valuation τ sig (Elt Ideal))

theorem readA0_v1 (j : Fin 800000) :
    StableHlo.after (opsA0 (F := Ideal)) W main_v1 (ix1 j) = W main_arg1 (ix2 (0 : Fin 2) j) := by
  after_results_simp
  exact sliceCast2 0 _ slices_S2x800000_S1x800000_0_0 shapeCasts_S1x800000_S800000 (0 : Fin 2) rfl j

theorem readA0_v3 (j : Fin 800000) :
    StableHlo.after (opsA0 (F := Ideal)) W main_v3 (ix1 j) = W main_arg1 (ix2 (1 : Fin 2) j) := by
  after_results_simp
  exact sliceCast2 1 _ slices_S2x800000_S1x800000_1_0 shapeCasts_S1x800000_S800000 (1 : Fin 2) rfl j

theorem readA0 (r : Fin 50000) (c : Fin 128) :
    StableHlo.after (opsA0 (F := Ideal)) W main_v37 (ix2 r c)
      = zOf W (fun r q => W main_arg0 (ix2 r q)) (fun j => W main_arg1 (ix2 (0 : Fin 2) j)) (fun j => W main_arg1 (ix2 (1 : Fin 2) j)) 0 r c := by
  after_results_simp
  refine layer_apply (fun _ _ => rfl) (fun j => ?_) (fun j => ?_) ?_
    (fun j k => ?_) (fun k => ?_) (fun j k => ?_) (fun k => ?_) r c
  · exact sliceCast2 0 _ slices_S2x800000_S1x800000_0_0 shapeCasts_S1x800000_S800000 (0 : Fin 2) rfl j
  · exact sliceCast2 1 _ slices_S2x800000_S1x800000_1_0 shapeCasts_S1x800000_S800000 (1 : Fin 2) rfl j
  · exact sliceCast1 0 _ slices_S4_S1_0 shapeCasts_S1_S_ (0 : Fin 4) rfl
  · exact sliceCast3 0 _ slices_S4x128x128_S1x128x128_0_0_0 shapeCasts_S1x128x128_S128x128 (0 : Fin 4) rfl j k
  · exact sliceCast2 0 _ slices_S4x128_S1x128_0_0 shapeCasts_S1x128_S128 (0 : Fin 4) rfl k
  · exact sliceCast3 0 _ slices_S4x128x128_S1x128x128_0_0_0 shapeCasts_S1x128x128_S128x128 (0 : Fin 4) rfl j k
  · exact sliceCast2 0 _ slices_S4x128_S1x128_0_0 shapeCasts_S1x128_S128 (0 : Fin 4) rfl k

variable {W W₀}

theorem readA1 (hk : ∀ r : Ref sig .tc, r.idx.val < 10 → W r = W₀ r)
    {H : Spec.Mat 50000 128} {S D : Fin 800000 → BitVec 32} (hH : ∀ r q, W main_v62 (ix2 r q) = H r q)
    (hS : ∀ j, W main_v1 (ix1 j) = S j) (hD : ∀ j, W main_v3 (ix1 j) = D j) (r : Fin 50000) (c : Fin 128) :
    StableHlo.after (opsA1 (F := Ideal)) W main_v96 (ix2 r c)
      = zOf W₀ H S D 1 r c := by
  after_results_simp
  rw [hk main_arg7 (by decide), hk main_arg3 (by decide), hk main_arg4 (by decide), hk main_arg5 (by decide), hk main_arg6 (by decide)]
  refine layer_apply hH hS hD ?_ (fun j k => ?_) (fun k => ?_) (fun j k => ?_) (fun k => ?_) r c
  · exact sliceCast1 1 _ slices_S4_S1_1 shapeCasts_S1_S_ (1 : Fin 4) rfl
  · exact sliceCast3 1 _ slices_S4x128x128_S1x128x128_1_0_0 shapeCasts_S1x128x128_S128x128 (1 : Fin 4) rfl j k
  · exact sliceCast2 1 _ slices_S4x128_S1x128_1_0 shapeCasts_S1x128_S128 (1 : Fin 4) rfl k
  · exact sliceCast3 1 _ slices_S4x128x128_S1x128x128_1_0_0 shapeCasts_S1x128x128_S128x128 (1 : Fin 4) rfl j k
  · exact sliceCast2 1 _ slices_S4x128_S1x128_1_0 shapeCasts_S1x128_S128 (1 : Fin 4) rfl k

theorem readA2 (hk : ∀ r : Ref sig .tc, r.idx.val < 10 → W r = W₀ r)
    {H : Spec.Mat 50000 128} {S D : Fin 800000 → BitVec 32} (hH : ∀ r q, W main_v121 (ix2 r q) = H r q)
    (hS : ∀ j, W main_v1 (ix1 j) = S j) (hD : ∀ j, W main_v3 (ix1 j) = D j) (r : Fin 50000) (c : Fin 128) :
    StableHlo.after (opsA2 (F := Ideal)) W main_v155 (ix2 r c)
      = zOf W₀ H S D 2 r c := by
  after_results_simp
  rw [hk main_arg7 (by decide), hk main_arg3 (by decide), hk main_arg4 (by decide), hk main_arg5 (by decide), hk main_arg6 (by decide)]
  refine layer_apply hH hS hD ?_ (fun j k => ?_) (fun k => ?_) (fun j k => ?_) (fun k => ?_) r c
  · exact sliceCast1 2 _ slices_S4_S1_2 shapeCasts_S1_S_ (2 : Fin 4) rfl
  · exact sliceCast3 2 _ slices_S4x128x128_S1x128x128_2_0_0 shapeCasts_S1x128x128_S128x128 (2 : Fin 4) rfl j k
  · exact sliceCast2 2 _ slices_S4x128_S1x128_2_0 shapeCasts_S1x128_S128 (2 : Fin 4) rfl k
  · exact sliceCast3 2 _ slices_S4x128x128_S1x128x128_2_0_0 shapeCasts_S1x128x128_S128x128 (2 : Fin 4) rfl j k
  · exact sliceCast2 2 _ slices_S4x128_S1x128_2_0 shapeCasts_S1x128_S128 (2 : Fin 4) rfl k

theorem readA3 (hk : ∀ r : Ref sig .tc, r.idx.val < 10 → W r = W₀ r)
    {H : Spec.Mat 50000 128} {S D : Fin 800000 → BitVec 32} (hH : ∀ r q, W main_v180 (ix2 r q) = H r q)
    (hS : ∀ j, W main_v1 (ix1 j) = S j) (hD : ∀ j, W main_v3 (ix1 j) = D j) (r : Fin 50000) (c : Fin 128) :
    StableHlo.after (opsA3 (F := Ideal)) W main_v214 (ix2 r c)
      = zOf W₀ H S D 3 r c := by
  after_results_simp
  rw [hk main_arg7 (by decide), hk main_arg3 (by decide), hk main_arg4 (by decide), hk main_arg5 (by decide), hk main_arg6 (by decide)]
  refine layer_apply hH hS hD ?_ (fun j k => ?_) (fun k => ?_) (fun j k => ?_) (fun k => ?_) r c
  · exact sliceCast1 3 _ slices_S4_S1_3 shapeCasts_S1_S_ (3 : Fin 4) rfl
  · exact sliceCast3 3 _ slices_S4x128x128_S1x128x128_3_0_0 shapeCasts_S1x128x128_S128x128 (3 : Fin 4) rfl j k
  · exact sliceCast2 3 _ slices_S4x128_S1x128_3_0 shapeCasts_S1x128_S128 (3 : Fin 4) rfl k
  · exact sliceCast3 3 _ slices_S4x128x128_S1x128x128_3_0_0 shapeCasts_S1x128x128_S128x128 (3 : Fin 4) rfl j k
  · exact sliceCast2 3 _ slices_S4x128_S1x128_3_0 shapeCasts_S1x128_S128 (3 : Fin 4) rfl k

theorem readB0 (hk : ∀ r : Ref sig .tc, r.idx.val < 10 → W r = W₀ r)
    {Z : Spec.Mat 50000 128} (hZ : ∀ r c, W main_v37 (ix2 r c) = Z r c) (r : Fin 50000) (c : Fin 128) :
    StableHlo.after (opsB0 (F := Ideal)) W main_v62 (ix2 r c)
      = Spec.bn Z (Spec.meanOf (Spec.csum Z)) (Spec.varR Z)
          (fun k => W₀ main_arg8 (ix2 (0 : Fin 3) k)) (fun k => W₀ main_arg9 (ix2 (0 : Fin 3) k)) r c := by
  simp only [opsB0, varOps, List.cons_append, List.nil_append]
  after_results_simp
  simp only [TRef.ofBuf, TRef.toBuf, cast_eq]
  rw [hk main_arg8 (by decide), hk main_arg9 (by decide)]
  refine bn_core hZ ?_ (fun k => ?_) (fun k => ?_) r c
  · exact var_apply hZ
  · exact sliceCast2 0 _ slices_S3x128_S1x128_0_0 shapeCasts_S1x128_S128 (0 : Fin 3) rfl k
  · exact sliceCast2 0 _ slices_S3x128_S1x128_0_0 shapeCasts_S1x128_S128 (0 : Fin 3) rfl k

theorem readB1 (hk : ∀ r : Ref sig .tc, r.idx.val < 10 → W r = W₀ r)
    {Z : Spec.Mat 50000 128} (hZ : ∀ r c, W main_v96 (ix2 r c) = Z r c) (r : Fin 50000) (c : Fin 128) :
    StableHlo.after (opsB1 (F := Ideal)) W main_v121 (ix2 r c)
      = Spec.bn Z (Spec.meanOf (Spec.csum Z)) (Spec.varR Z)
          (fun k => W₀ main_arg8 (ix2 (1 : Fin 3) k)) (fun k => W₀ main_arg9 (ix2 (1 : Fin 3) k)) r c := by
  simp only [opsB1, varOps, List.cons_append, List.nil_append]
  after_results_simp
  simp only [TRef.ofBuf, TRef.toBuf, cast_eq]
  rw [hk main_arg8 (by decide), hk main_arg9 (by decide)]
  refine bn_core hZ ?_ (fun k => ?_) (fun k => ?_) r c
  · exact var_apply hZ
  · exact sliceCast2 1 _ slices_S3x128_S1x128_1_0 shapeCasts_S1x128_S128 (1 : Fin 3) rfl k
  · exact sliceCast2 1 _ slices_S3x128_S1x128_1_0 shapeCasts_S1x128_S128 (1 : Fin 3) rfl k

theorem readB2 (hk : ∀ r : Ref sig .tc, r.idx.val < 10 → W r = W₀ r)
    {Z : Spec.Mat 50000 128} (hZ : ∀ r c, W main_v155 (ix2 r c) = Z r c) (r : Fin 50000) (c : Fin 128) :
    StableHlo.after (opsB2 (F := Ideal)) W main_v180 (ix2 r c)
      = Spec.bn Z (Spec.meanOf (Spec.csum Z)) (Spec.varR Z)
          (fun k => W₀ main_arg8 (ix2 (2 : Fin 3) k)) (fun k => W₀ main_arg9 (ix2 (2 : Fin 3) k)) r c := by
  simp only [opsB2, varOps, List.cons_append, List.nil_append]
  after_results_simp
  simp only [TRef.ofBuf, TRef.toBuf, cast_eq]
  rw [hk main_arg8 (by decide), hk main_arg9 (by decide)]
  refine bn_core hZ ?_ (fun k => ?_) (fun k => ?_) r c
  · exact var_apply hZ
  · exact sliceCast2 2 _ slices_S3x128_S1x128_2_0 shapeCasts_S1x128_S128 (2 : Fin 3) rfl k
  · exact sliceCast2 2 _ slices_S3x128_S1x128_2_0 shapeCasts_S1x128_S128 (2 : Fin 3) rfl k

theorem readP (hk : ∀ r : Ref sig .tc, r.idx.val < 10 → W r = W₀ r)
    {Z : Spec.Mat 50000 128} (hZ : ∀ r c, W main_v214 (ix2 r c) = Z r c) (g d : Fin 128) :
    StableHlo.after (opsP (F := Ideal)) W main_v217 (ix2 g d)
      = Spec.pool Z (fun n => W₀ main_arg2 (ix1 n)) g d := by
  after_results_simp
  rw [hk main_arg2 (by decide)]
  exact pool_apply _ _ _ _ hZ (fun _ => rfl) g d

end Read

end Cert.ReferenceIdeal.Hand

end
-- ==== Proof.Ref.Keep.lean ====
import proofs.«430114_j32719060861414_1_alg».proof.Proof.Ref.Ops
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo

-- a buffer numbered below every buffer a line writes keeps its contents
theorem keep {n : ℕ} {l : List (HloOp τ sig (Elt Ideal))} (hl : l.Forall fun op => ∀ b ∈ op.writes, n ≤ b.idx.val)
    (W : Valuation τ sig (Elt Ideal)) {r : Ref sig .tc} (hr : r.idx.val < n) :
    StableHlo.after l W r = W r :=
  StableHlo.after_of_forall_not_mem l W fun op ho hb =>
    absurd (List.forall_iff_forall_mem.mp hl op ho _ hb) (Nat.not_le.mpr hr)

theorem wA0 : (opsA0 : List (HloOp τ sig (Elt Ideal))).Forall fun op => ∀ b ∈ op.writes, 10 ≤ b.idx.val := by
  simp only [List.forall_append, List.Forall, nullary_writes, unary_writes, binary_writes, ternary_writes, reshape_writes,
    Finset.mem_singleton, forall_eq]
  decide
theorem wB0 : (opsB0 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wA1 : (opsA1 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wB1 : (opsB1 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wA2 : (opsA2 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wB2 : (opsB2 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wA3 : (opsA3 : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide
theorem wP : (opsP : List (HloOp τ sig (Elt Ideal))).Forall fun op => ∀ b ∈ op.writes, 53 ≤ b.idx.val := by
  simp only [List.forall_append, List.Forall, nullary_writes, unary_writes, binary_writes, ternary_writes, reshape_writes,
    Finset.mem_singleton, forall_eq]
  decide

end Cert.ReferenceIdeal.Hand

end
-- ==== Proof.Ref.Value.lean ====
import proofs.«430114_j32719060861414_1_alg».proof.Proof.Ref.Run
import proofs.«430114_j32719060861414_1_alg».proof.Proof.Ref.Read
import proofs.«430114_j32719060861414_1_alg».proof.Proof.Ref.Keep
import proofs.«430114_j32719060861414_1_alg».proof.Proof.Spec

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, StableHlo.after_cons, StableHlo.after_cons, after_app l₁ l₂]

variable (m : (ℓ : Loc nD τ sig) → Buf (Elt Ideal) ℓ) (c : Dev nD)

noncomputable def inR : Cert.Spec.Inputs where
  x := fun r q => (launchContents m c (Proc.devRef .tc main_arg0) : S50000x128.Idx → EReal) (ix2 r q)
  src := fun j => (launchContents m c (Proc.devRef .tc main_arg1) : S2x800000.Idx → BitVec 32) (ix2 (0 : Fin 2) j)
  dst := fun j => (launchContents m c (Proc.devRef .tc main_arg1) : S2x800000.Idx → BitVec 32) (ix2 (1 : Fin 2) j)
  batch := fun n => (launchContents m c (Proc.devRef .tc main_arg2) : S50000.Idx → BitVec 32) (ix1 n)
  W1 := fun i j k => (launchContents m c (Proc.devRef .tc main_arg3) : S4x128x128.Idx → EReal) (ix3 i j k)
  b1 := fun i k => (launchContents m c (Proc.devRef .tc main_arg4) : S4x128.Idx → EReal) (ix2 i k)
  W2 := fun i j k => (launchContents m c (Proc.devRef .tc main_arg5) : S4x128x128.Idx → EReal) (ix3 i j k)
  b2 := fun i k => (launchContents m c (Proc.devRef .tc main_arg6) : S4x128.Idx → EReal) (ix2 i k)
  eps := fun i => (launchContents m c (Proc.devRef .tc main_arg7) : S4.Idx → EReal) (ix1 i)
  g := fun i k => (launchContents m c (Proc.devRef .tc main_arg8) : S3x128.Idx → EReal) (ix2 i k)
  b := fun i k => (launchContents m c (Proc.devRef .tc main_arg9) : S3x128.Idx → EReal) (ix2 i k)

def V1 : Valuation τ sig (Elt Ideal) := StableHlo.after opsA0 (launchContents m c)
def V2 : Valuation τ sig (Elt Ideal) := StableHlo.after opsB0 (V1 m c)
def V3 : Valuation τ sig (Elt Ideal) := StableHlo.after opsA1 (V2 m c)
def V4 : Valuation τ sig (Elt Ideal) := StableHlo.after opsB1 (V3 m c)
def V5 : Valuation τ sig (Elt Ideal) := StableHlo.after opsA2 (V4 m c)
def V6 : Valuation τ sig (Elt Ideal) := StableHlo.after opsB2 (V5 m c)
def V7 : Valuation τ sig (Elt Ideal) := StableHlo.after opsA3 (V6 m c)

theorem after_ops : StableHlo.after ops (launchContents m c) = StableHlo.after opsP (V7 m c) := by
  show StableHlo.after (opsA0 ++ opsB0 ++ opsA1 ++ opsB1 ++ opsA2 ++ opsB2 ++ opsA3 ++ opsP) (launchContents m c) = _
  rw [after_app, after_app, after_app, after_app, after_app, after_app, after_app]
  rfl

-- what every stretch after the first starts from: the arguments as launched, and the two index vectors
structure Inv (W : Valuation τ sig (Elt Ideal)) : Prop where
  arg : ∀ r : Ref sig .tc, r.idx.val < 10 → W r = launchContents m c r
  src : ∀ j, W main_v1 (ix1 j) = (inR m c).src j
  dst : ∀ j, W main_v3 (ix1 j) = (inR m c).dst j

variable {m c}

theorem Inv.step {W : Valuation τ sig (Elt Ideal)} (h : Inv m c W) {l : List (HloOp τ sig (Elt Ideal))}
    (hl : l.Forall fun op => ∀ b ∈ op.writes, 53 ≤ b.idx.val) : Inv m c (StableHlo.after l W) :=
  ⟨fun r hr => (keep hl W (hr.trans (by decide))).trans (h.arg r hr),
    fun j => (congrFun (keep hl W (r := main_v1) (by decide)) (ix1 j)).trans (h.src j),
    fun j => (congrFun (keep hl W (r := main_v3) (by decide)) (ix1 j)).trans (h.dst j)⟩

variable (m c)

theorem inv1 : Inv m c (V1 m c) := ⟨fun _ hr => keep wA0 _ hr, readA0_v1 _, readA0_v3 _⟩
theorem inv2 : Inv m c (V2 m c) := (inv1 m c).step wB0
theorem inv3 : Inv m c (V3 m c) := (inv2 m c).step wA1
theorem inv4 : Inv m c (V4 m c) := (inv3 m c).step wB1
theorem inv5 : Inv m c (V5 m c) := (inv4 m c).step wA2
theorem inv6 : Inv m c (V6 m c) := (inv5 m c).step wB2
theorem inv7 : Inv m c (V7 m c) := (inv6 m c).step wA3

-- the perceptron of the combination of h at layer i, and its normalisation with the scale and shift of layer j
def Zof (h : Spec.Mat 50000 128) (i : Fin 4) : Spec.Mat 50000 128 :=
  zOf (launchContents m c) h (inR m c).src (inR m c).dst i
def Hof (h : Spec.Mat 50000 128) (i : Fin 4) (j : Fin 3) : Spec.Mat 50000 128 :=
  Spec.bn (Zof m c h i) (Spec.meanOf (Spec.csum (Zof m c h i))) (Spec.varR (Zof m c h i)) ((inR m c).g j) ((inR m c).b j)
def H1 : Spec.Mat 50000 128 := Hof m c (inR m c).x 0 0
def H2 : Spec.Mat 50000 128 := Hof m c (H1 m c) 1 1
def H3 : Spec.Mat 50000 128 := Hof m c (H2 m c) 2 2

theorem z0 (r : Fin 50000) (q : Fin 128) : V1 m c main_v37 (ix2 r q) = Zof m c (inR m c).x 0 r q :=
  readA0 _ r q
theorem h1 (r : Fin 50000) (q : Fin 128) : V2 m c main_v62 (ix2 r q) = H1 m c r q :=
  readB0 (inv1 m c).arg (z0 m c) r q
theorem z1 (r : Fin 50000) (q : Fin 128) : V3 m c main_v96 (ix2 r q) = Zof m c (H1 m c) 1 r q :=
  readA1 (inv2 m c).arg (h1 m c) (inv2 m c).src (inv2 m c).dst r q
theorem h2 (r : Fin 50000) (q : Fin 128) : V4 m c main_v121 (ix2 r q) = H2 m c r q :=
  readB1 (inv3 m c).arg (z1 m c) r q
theorem z2 (r : Fin 50000) (q : Fin 128) : V5 m c main_v155 (ix2 r q) = Zof m c (H2 m c) 2 r q :=
  readA2 (inv4 m c).arg (h2 m c) (inv4 m c).src (inv4 m c).dst r q
theorem h3 (r : Fin 50000) (q : Fin 128) : V6 m c main_v180 (ix2 r q) = H3 m c r q :=
  readB2 (inv5 m c).arg (z2 m c) r q
theorem z3 (r : Fin 50000) (q : Fin 128) : V7 m c main_v214 (ix2 r q) = Zof m c (H3 m c) 3 r q :=
  readA3 (inv6 m c).arg (h3 m c) (inv6 m c).src (inv6 m c).dst r q

theorem ref_value (g d : Fin 128) :
    (StableHlo.after ops (launchContents m c) (Proc.devRef .tc main_v217) : S128x128.Idx → EReal) (ix2 g d) = Cert.Spec.outR (inR m c) g d := by
  rw [after_ops]
  exact readP (inv7 m c).arg (z3 m c) g d

theorem args_lt : ∀ r ∈ ([main_arg0, main_arg1, main_arg2, main_arg3, main_arg4, main_arg5, main_arg6, main_arg7, main_arg8, main_arg9] : List (Ref sig .tc)), r.idx.val < 10 := by decide

theorem arg_kept (r : Ref sig .tc)
    (h : r ∈ ([main_arg0, main_arg1, main_arg2, main_arg3, main_arg4, main_arg5, main_arg6, main_arg7, main_arg8, main_arg9] : List (Ref sig .tc))) :
    StableHlo.after ops (launchContents m c) (Proc.devRef .tc r) = m ((c.tc : Thread nD τ).loc r) := by
  rw [after_ops]
  exact (keep wP _ ((args_lt r h).trans (by decide))).trans ((inv7 m c).arg r (args_lt r h))

end Cert.ReferenceIdeal.Hand

end
-- ==== Proof.Pre.lean ====
import proofs.«430114_j32719060861414_1_alg».proof.Pre_finite_inputs
import Idealize.ShloMosaic.PureOps.Ideal
import Idealize.ShloMosaic.Lib.ReduceAll
import Idealize.ShloMosaic.Lib.ValueIdx

noncomputable section

namespace Cert.Pre_finite_inputs.Hand

open Idealize.ShloMosaic

instance : Subsingleton S_.Idx := ⟨fun a b => funext fun d => d.elim0⟩

theorem inf_bits : Ideal.ofBits .f32 0x7F800000#32 = (⊤ : EReal) := by
  simp [Ideal.ofBits, Ideal.ieee]

-- |x| < ⊤ excludes both infinities
theorem real_of_abs_lt_top (x : EReal) (h : max x (-x) < ⊤) : ∃ v : ℝ, x = v := by
  induction x using EReal.rec with
  | bot => exact absurd h (by rw [EReal.neg_bot, max_eq_right bot_le]; exact lt_irrefl _)
  | coe r => exact ⟨r, rfl⟩
  | top => exact absurd h (by rw [max_eq_left le_top]; exact lt_irrefl _)

theorem real_of_cmp (x : Ideal .f32)
    (h : FloatOps.cmpf .olt (FloatOps.hostAbsf x) (FloatOps.ofBits (F := Ideal) .f32 0x7F800000#32) = 1#1) :
    ∃ v : ℝ, x = v := by
  change Ideal.cmp .olt (max x (-x)) (Ideal.ofBits .f32 0x7F800000#32) = 1#1 at h
  rw [inf_bits] at h
  have h2 : BitVec.ofBool (decide (max x (-x) < (⊤ : EReal))) = 1#1 := h
  by_cases hlt : max x (-x) < (⊤ : EReal)
  · exact real_of_abs_lt_top x hlt
  · rw [decide_eq_false hlt] at h2
    exact absurd h2 (by decide)

theorem real_of_all {S : Shape} {axes : List (Fin S.rank)}
    (hb : S_.BroadcastsInDim S (![] : Fin 0 → Fin S.rank)) (hr : S.ReducesTo axes S_) (hu : 0 < S_.numel)
    (x : FVec Ideal S .f32)
    (e : Host.reduce IntOp.andi
          (cmpf .olt (Host.absf x) (broadcastInDim S ![] hb (constant (F := Ideal) S_ .f32 0x7F800000#32)))
          (constantI S_ 1 1#1) hr hu ValueIdx.ix0 = 1#1) :
    ∀ i, ∃ v : ℝ, x i = v := by
  intro i
  exact real_of_cmp (x i) (Host.reduce_andi_all _ _ hr hu ValueIdx.ix0 e i)

variable [Cert.Pre_finite_inputs.Facts]

-- the precondition is a conjunction of one all-entries test per float argument
theorem finite_of_pre (a0 : FVec Ideal S50000x128 .f32) (a1 : IVec S2x800000 32) (a2 : IVec S50000 32)
    (a3 : FVec Ideal S4x128x128 .f32) (a4 : FVec Ideal S4x128 .f32) (a5 : FVec Ideal S4x128x128 .f32)
    (a6 : FVec Ideal S4x128 .f32) (a7 : FVec Ideal S4 .f32) (a8 : FVec Ideal S3x128 .f32) (a9 : FVec Ideal S3x128 .f32)
    (h : Cert.Pre_finite_inputs.fn (F := Ideal) a0 a1 a2 a3 a4 a5 a6 a7 a8 a9 = (fun _ => 1#1)) :
    (∀ i, ∃ v : ℝ, a0 i = v) ∧ (∀ i, ∃ v : ℝ, a3 i = v) ∧ (∀ i, ∃ v : ℝ, a4 i = v) ∧ (∀ i, ∃ v : ℝ, a5 i = v) ∧
    (∀ i, ∃ v : ℝ, a6 i = v) ∧ (∀ i, ∃ v : ℝ, a7 i = v) ∧ (∀ i, ∃ v : ℝ, a8 i = v) ∧ (∀ i, ∃ v : ℝ, a9 i = v) := by
  have h0 := congrFun h ValueIdx.ix0
  dsimp only [fn, fn_part1, fn_part2, andi] at h0
  simp only [IntOp.andi_eq_one] at h0
  obtain ⟨⟨⟨⟨⟨⟨⟨e0, e3⟩, e4⟩, e5⟩, e6⟩, e7⟩, e8⟩, e9⟩ := h0
  exact ⟨real_of_all _ _ _ a0 e0, real_of_all _ _ _ a3 e3, real_of_all _ _ _ a4 e4, real_of_all _ _ _ a5 e5,
    real_of_all _ _ _ a6 e6, real_of_all _ _ _ a7 e7, real_of_all _ _ _ a8 e8, real_of_all _ _ _ a9 e9⟩

end Cert.Pre_finite_inputs.Hand

end
-- ==== Proof.Glue.lean ====
import proofs.«430114_j32719060861414_1_alg».proof.Proof.Spec

noncomputable section

namespace Cert.Glue

open Idealize.ShloMosaic Idealize.ShloMosaic.ValueIdx Cert.Spec

variable {a0 a0' : (⟨2, ![50000, 128]⟩ : Shape).Idx → EReal} {a1 a1' : (⟨2, ![2, 800000]⟩ : Shape).Idx → BitVec 32}
  {a2 a2' : (⟨1, ![50000]⟩ : Shape).Idx → BitVec 32} {a3 a3' : (⟨3, ![4, 128, 128]⟩ : Shape).Idx → EReal}
  {a4 a4' : (⟨2, ![4, 128]⟩ : Shape).Idx → EReal} {a5 a5' : (⟨3, ![4, 128, 128]⟩ : Shape).Idx → EReal}
  {a6 a6' : (⟨2, ![4, 128]⟩ : Shape).Idx → EReal} {a7 a7' : (⟨1, ![4]⟩ : Shape).Idx → EReal}
  {a8 a8' a9 a9' : (⟨2, ![3, 128]⟩ : Shape).Idx → EReal}

variable (a0 a1 a2 a3 a4 a5 a6 a7 a8 a9) in
-- the network's inputs as coordinate functions of the ten argument arrays
def mkInputs : Inputs where
  x := fun r q => a0 (ix2 r q)
  src := fun j => a1 (ix2 (0 : Fin 2) j)
  dst := fun j => a1 (ix2 (1 : Fin 2) j)
  batch := fun n => a2 (ix1 n)
  W1 := fun i j k => a3 (ix3 i j k)
  b1 := fun i k => a4 (ix2 i k)
  W2 := fun i j k => a5 (ix3 i j k)
  b2 := fun i k => a6 (ix2 i k)
  eps := fun i => a7 (ix1 i)
  g := fun i k => a8 (ix2 i k)
  b := fun i k => a9 (ix2 i k)

theorem mkInputs_finite (h0 : ∀ i, ∃ v : ℝ, a0 i = v) (h3 : ∀ i, ∃ v : ℝ, a3 i = v) (h4 : ∀ i, ∃ v : ℝ, a4 i = v)
    (h5 : ∀ i, ∃ v : ℝ, a5 i = v) (h6 : ∀ i, ∃ v : ℝ, a6 i = v) (h7 : ∀ i, ∃ v : ℝ, a7 i = v)
    (h8 : ∀ i, ∃ v : ℝ, a8 i = v) (h9 : ∀ i, ∃ v : ℝ, a9 i = v) :
    (mkInputs a0 a1 a2 a3 a4 a5 a6 a7 a8 a9).Finite :=
  ⟨fun r c => h0 _, fun i j k => h3 _, fun i k => h4 _, fun i j k => h5 _, fun i k => h6 _, fun i => h7 _,
    fun i k => h8 _, fun i k => h9 _⟩

theorem mkInputs_congr (h0 : a0' = a0) (h1 : a1' = a1) (h2 : a2' = a2) (h3 : a3' = a3) (h4 : a4' = a4) (h5 : a5' = a5)
    (h6 : a6' = a6) (h7 : a7' = a7) (h8 : a8' = a8) (h9 : a9' = a9) :
    mkInputs a0' a1' a2' a3' a4' a5' a6' a7' a8' a9' = mkInputs a0 a1 a2 a3 a4 a5 a6 a7 a8 a9 := by
  rw [h0, h1, h2, h3, h4, h5, h6, h7, h8, h9]

end Cert.Glue

end
-- ==== Proof.lean ====
import proofs.«430114_j32719060861414_1_alg».proof.Defs
import proofs.«430114_j32719060861414_1_alg».proof.Proof.Gen.Kernel
import proofs.«430114_j32719060861414_1_alg».proof.Proof.Gen.KernelIdeal
import proofs.«430114_j32719060861414_1_alg».proof.Proof.Gen.ReferenceIdeal
import proofs.«430114_j32719060861414_1_alg».proof.Proof.Gen.Pre_finite_inputs
import proofs.«430114_j32719060861414_1_alg».proof.Proof.K.Run
import proofs.«430114_j32719060861414_1_alg».proof.Proof.KI.Run
import proofs.«430114_j32719060861414_1_alg».proof.Proof.KI.Value
import proofs.«430114_j32719060861414_1_alg».proof.Proof.Ref.Run
import proofs.«430114_j32719060861414_1_alg».proof.Proof.Ref.Value
import proofs.«430114_j32719060861414_1_alg».proof.Proof.Math
import proofs.«430114_j32719060861414_1_alg».proof.Proof.Pre
import proofs.«430114_j32719060861414_1_alg».proof.Proof.Glue
import Idealize.ShloMosaic.Adequacy
import Idealize.ShloMosaic.Init

noncomputable section

namespace Cert.Proof

open Idealize.ShloMosaic Idealize.ShloMosaic.TcCoe Idealize.ShloMosaic.ValueIdx Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame_main m ρ

theorem frame_ki : Cert.frame_KernelIdeal := fun m ρ _ => Cert.KernelIdeal.Hand.frame_main m ρ

-- no operation of the reference writes an argument, so its fold over the launch contents leaves each as launched
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v217)
          = StableHlo.after Cert.ReferenceIdeal.Hand.ops (StableHlo.launchContents m c) (Proc.devRef .tc Cert.ReferenceIdeal.main_v217)
        ∧ ∀ a ∈ ([Cert.ReferenceIdeal.main_arg0, Cert.ReferenceIdeal.main_arg1, Cert.ReferenceIdeal.main_arg2,
            Cert.ReferenceIdeal.main_arg3, Cert.ReferenceIdeal.main_arg4, Cert.ReferenceIdeal.main_arg5,
            Cert.ReferenceIdeal.main_arg6, Cert.ReferenceIdeal.main_arg7, Cert.ReferenceIdeal.main_arg8,
            Cert.ReferenceIdeal.main_arg9] : List (Ref Cert.ReferenceIdeal.sig .tc)),
          r.2.mem ((c.tc : Thread Cert.ReferenceIdeal.nD Cert.ReferenceIdeal.τ).loc a)
            = m ((c.tc : Thread Cert.ReferenceIdeal.nD Cert.ReferenceIdeal.τ).loc a) :=
  (θ_run Cert.ReferenceIdeal.defs _ _).mono
    (fun _ h c => ⟨h c _, fun a ha => (h c a).trans (Cert.ReferenceIdeal.Hand.arg_kept m c a ha)⟩)
    (Cert.ReferenceIdeal.Hand.run (F := Ideal) m ρ)

theorem frame_r : Cert.frame_ReferenceIdeal := fun m ρ _ =>
  (θ_run Cert.ReferenceIdeal.defs _ _).mono
    (fun _ h c => by
      have k := (h c).2
      exact ⟨k _ (by decide), k _ (by decide), k _ (by decide), k _ (by decide), k _ (by decide), k _ (by decide),
        k _ (by decide), k _ (by decide), k _ (by decide), k _ (by decide)⟩)
    (ref_run m ρ)

theorem preserves : Cert.preserves_Kernel_KernelIdeal := trivial

-- both results are the network of the same inputs; the two variance formulas agree on reals, which the inputs are
theorem algebraic : Cert.algebraic_KernelIdeal_ReferenceIdeal := by
  intro m ρ m' ρ' hpre hagree
  refine ⟨fun c => Cert.KernelIdeal.Gen.V16 m (Cert.KernelIdeal.Hand.outs m) c Cert.KernelIdeal.main_v164,
    Cert.KernelIdeal.Hand.run_main (F := Ideal) m ρ, ?_⟩
  refine (θ_run Cert.ReferenceIdeal.defs _ _).mono (fun _ h c => ?_) (ref_run m' ρ')
  have k := (h c).2
  refine ⟨(h c).1.trans ?_, k _ (by decide), k _ (by decide), k _ (by decide), k _ (by decide), k _ (by decide),
    k _ (by decide), k _ (by decide), k _ (by decide), k _ (by decide), k _ (by decide)⟩
  obtain ⟨h0, h1, h2, h3, h4, h5, h6, h7, h8, h9⟩ := hagree c
  obtain ⟨f0, f3, f4, f5, f6, f7, f8, f9⟩ :=
    Cert.Pre_finite_inputs.Hand.finite_of_pre _ _ _ _ _ _ _ _ _ _ (hpre c)
  have hfin : (Cert.KernelIdeal.Hand.inK m c).Finite := Cert.Glue.mkInputs_finite f0 f3 f4 f5 f6 f7 f8 f9
  have hR : Cert.ReferenceIdeal.Hand.inR m' c = Cert.KernelIdeal.Hand.inK m c :=
    Cert.Glue.mkInputs_congr h0 h1 h2 h3 h4 h5 h6 h7 h8 h9
  show (StableHlo.after Cert.ReferenceIdeal.Hand.ops (StableHlo.launchContents m' c)
      (Proc.devRef .tc Cert.ReferenceIdeal.main_v217) : (⟨2, ![128, 128]⟩ : Shape).Idx → EReal)
    = (Cert.KernelIdeal.Gen.V16 m (Cert.KernelIdeal.Hand.outs m) c Cert.KernelIdeal.main_v164
        : (⟨2, ![128, 128]⟩ : Shape).Idx → EReal)
  funext idx
  obtain ⟨g, d, rfl⟩ : ∃ (g : Fin 128) (d : Fin 128), idx = ix2 g d := ⟨idx 0, idx 1, eq_ix2 idx⟩
  rw [Cert.ReferenceIdeal.Hand.ref_value m' c g d, Cert.KernelIdeal.Hand.kernel_value m c g d, hR,
    Cert.Spec.outK_eq_outR _ hfin]

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
